-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x64 : Shape := ⟨2, ![8192, 64]⟩
abbrev S4096x64 : Shape := ⟨2, ![4096, 64]⟩
abbrev S2x64x128 : Shape := ⟨3, ![2, 64, 128]⟩
abbrev S2x64 : Shape := ⟨2, ![2, 64]⟩
abbrev S1x64 : Shape := ⟨2, ![1, 64]⟩
abbrev S1 : Shape := ⟨1, ![1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S4096x64 : S_.BroadcastsInDim S4096x64 (![] : Fin 0 → Fin S4096x64.rank)
  reducesTo_S4096x64_S_d0_1 : S4096x64.ReducesTo [0, 1] S_
  bcast_S_S2x64x128 : S_.BroadcastsInDim S2x64x128 (![] : Fin 0 → Fin S2x64x128.rank)
  reducesTo_S2x64x128_S_d0_1_2 : S2x64x128.ReducesTo [0, 1, 2] S_
  bcast_S_S2x64 : S_.BroadcastsInDim S2x64 (![] : Fin 0 → Fin S2x64.rank)
  reducesTo_S2x64_S_d0_1 : S2x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x64 .f32) (main_arg12 : FVec F S1 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S1x64 .f32 := Host.absf main_arg11
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S2x64x128 .f32) (main_arg8 : FVec F S2x64 .f32) (main_arg9 : FVec F S2x64 .f32) (main_arg10 : FVec F S2x64 .f32) (main_arg11 : FVec F S1x64 .f32) (main_arg12 : FVec F S1 .f32) (main_v33 : IVec S_ 1) : IVec S_ 1 :=
  let main_v34 : FVec F S2x64x128 .f32 := Host.absf main_arg7
  let main_cst_12 : FVec F S_ .f32 := constant S_ .f32 0x7F800000#32
  let main_v35 : FVec F S2x64x128 .f32 := broadcastInDim S2x64x128 ![] bcast_S_S2x64x128 main_cst_12
  let main_v36 : IVec S2x64x128 1 := cmpf .olt main_v34 main_v35
  let main_c_13 : IVec S_ 1 := constantI S_ 1 1#1
  let main_v37 : IVec S_ 1 := (fun x v => Host.reduce IntOp.andi x v reducesTo_S2x64x128_S_d0_1_2 h_S_) main_v36 main_c_13
  let main_v38 : IVec S_ 1 := andi main_v33 main_v37
  let main_v39 : FVec F S2x64 .f32 := Host.absf main_arg8
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64 .f32 := Host.absf main_arg9
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64 .f32 := Host.absf main_arg10
  let main_cst_18 : FVec F S_ .f32 := constant S_ .f32 0x7F800000#32
  let main_v50 : FVec F S2x64 .f32 := broadcastInDim S2x64 ![] bcast_S_S2x64 main_cst_18
  fn_part3 (F := F) main_arg11 main_arg12 main_v48 main_v49 main_v50

def fn_part1 {F : FTy → Type} [FloatOps F] (main_arg4 : FVec F S2x64 .f32) (main_arg5 : FVec F S2x64 .f32) (main_arg6 : FVec F S2x64 .f32) (main_arg7 : FVec F S2x64x128 .f32) (main_arg8 : FVec F S2x64 .f32) (main_arg9 : FVec F S2x64 .f32) (main_arg10 : FVec F S2x64 .f32) (main_arg11 : FVec F S1x64 .f32) (main_arg12 : FVec F S1 .f32) (main_v13 : IVec S_ 1) (main_v16 : IVec S2x64x128 1) : IVec S_ 1 :=
  let main_c_5 : IVec S_ 1 := constantI S_ 1 1#1
  let main_v17 : IVec S_ 1 := (fun x v => Host.reduce IntOp.andi x v reducesTo_S2x64x128_S_d0_1_2 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x64 .f32 := Host.absf main_arg6
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x4096 .f32) (main_arg1 : FVec F S8192x64 .f32) (main_arg2 : FVec F S4096x64 .f32) (main_arg3 : FVec F S2x64x128 .f32) (main_arg4 : FVec F S2x64 .f32) (main_arg5 : FVec F S2x64 .f32) (main_arg6 : FVec F S2x64 .f32) (main_arg7 : FVec F S2x64x128 .f32) (main_arg8 : FVec F S2x64 .f32) (main_arg9 : FVec F S2x64 .f32) (main_arg10 : FVec F S2x64 .f32) (main_arg11 : FVec F S1x64 .f32) (main_arg12 : FVec F S1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S2x64x128 .f32 := Host.absf main_arg3
  let main_cst_4 : FVec F S_ .f32 := constant S_ .f32 0x7F800000#32
  let main_v15 : FVec F S2x64x128 .f32 := broadcastInDim S2x64x128 ![] bcast_S_S2x64x128 main_cst_4
  let main_v16 : IVec S2x64x128 1 := cmpf .olt main_v14 main_v15
  fn_part1 (F := F) main_arg4 main_arg5 main_arg6 main_arg7 main_arg8 main_arg9 main_arg10 main_arg11 main_arg12 main_v13 main_v16
-- ==== Kernel.lean ====
abbrev S8192x4096 : Shape := ⟨2, ![8192, 4096]⟩
abbrev S8192x64 : Shape := ⟨2, ![8192, 64]⟩
abbrev S4096x64 : Shape := ⟨2, ![4096, 64]⟩
abbrev S2x64x128 : Shape := ⟨3, ![2, 64, 128]⟩
abbrev S2x64 : Shape := ⟨2, ![2, 64]⟩
abbrev S1x64 : Shape := ⟨2, ![1, 64]⟩
abbrev S1 : Shape := ⟨1, ![1]⟩
abbrev S1x64x128 : Shape := ⟨3, ![1, 64, 128]⟩
abbrev S64x128 : Shape := ⟨2, ![64, 128]⟩
abbrev S128x64 : Shape := ⟨2, ![128, 64]⟩
abbrev S64 : Shape := ⟨1, ![64]⟩
abbrev S4096x65 : Shape := ⟨2, ![4096, 65]⟩
abbrev S512x2048 : Shape := ⟨2, ![512, 2048]⟩
abbrev S65x4096 : Shape := ⟨2, ![65, 4096]⟩
abbrev S512x64 : Shape := ⟨2, ![512, 64]⟩
abbrev S512x1 : Shape := ⟨2, ![512, 1]⟩
abbrev S512x65 : Shape := ⟨2, ![512, 65]⟩
abbrev S65x512 : Shape := ⟨2, ![65, 512]⟩
abbrev S65x2048 : Shape := ⟨2, ![65, 2048]⟩
abbrev S4096x1 : Shape := ⟨2, ![4096, 1]⟩
abbrev S4096x128 : Shape := ⟨2, ![4096, 128]⟩
abbrev S4096 : Shape := ⟨1, ![4096]⟩
abbrev S64x1 : Shape := ⟨2, ![64, 1]⟩
abbrev S1x1 : Shape := ⟨2, ![1, 1]⟩
abbrev S512x4096 : Shape := ⟨2, ![512, 4096]⟩
abbrev S512x128 : Shape := ⟨2, ![512, 128]⟩
abbrev S512 : Shape := ⟨1, ![512]⟩

abbrev nBuf : Space → Nat
  | .hbm => 54
  | .vmem => 28
  | .smem => 0
  | _ => 0

abbrev bufTy : (tb : Table) → Fin (tcTables nBuf tb) → BufTy
  | .hbm, ⟨0, _⟩ => ⟨S8192x4096, .f32⟩
  | .hbm, ⟨1, _⟩ => ⟨S8192x64, .f32⟩
  | .hbm, ⟨2, _⟩ => ⟨S4096x64, .f32⟩
  | .hbm, ⟨3, _⟩ => ⟨S2x64x128, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64x128, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S1x64, .f32⟩
  | .hbm, ⟨12, _⟩ => ⟨S1, .f32⟩
  | .hbm, ⟨13, _⟩ => ⟨S1x64x128, .f32⟩
  | .hbm, ⟨14, _⟩ => ⟨S64x128, .f32⟩
  | .hbm, ⟨15, _⟩ => ⟨S128x64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S4096x65, .f32⟩
  | .hbm, ⟨26, _⟩ => ⟨S1x64x128, .f32⟩
  | .hbm, ⟨27, _⟩ => ⟨S64x128, .f32⟩
  | .hbm, ⟨28, _⟩ => ⟨S128x64, .f32⟩
  | .hbm, ⟨29, _⟩ => ⟨S1x64, .f32⟩
  | .hbm, ⟨30, _⟩ => ⟨S64, .f32⟩
  | .hbm, ⟨31, _⟩ => ⟨S1x64, .f32⟩
  | .hbm, ⟨32, _⟩ => ⟨S1x64, .f32⟩
  | .hbm, ⟨33, _⟩ => ⟨S64, .f32⟩
  | .hbm, ⟨34, _⟩ => ⟨S1x64, .f32⟩
  | .hbm, ⟨35, _⟩ => ⟨S1x64, .f32⟩
  | .hbm, ⟨36, _⟩ => ⟨S64, .f32⟩
  | .hbm, ⟨37, _⟩ => ⟨S1x64, .f32⟩
  | .hbm, ⟨38, _⟩ => ⟨S1x64x128, .f32⟩
  | .hbm, ⟨39, _⟩ => ⟨S64x128, .f32⟩
  | .hbm, ⟨40, _⟩ => ⟨S128x64, .f32⟩
  | .hbm, ⟨41, _⟩ => ⟨S1x64, .f32⟩
  | .hbm, ⟨42, _⟩ => ⟨S64, .f32⟩
  | .hbm, ⟨43, _⟩ => ⟨S1x64, .f32⟩
  | .hbm, ⟨44, _⟩ => ⟨S1x64, .f32⟩
  | .hbm, ⟨45, _⟩ => ⟨S64, .f32⟩
  | .hbm, ⟨46, _⟩ => ⟨S1x64, .f32⟩
  | .hbm, ⟨47, _⟩ => ⟨S1x64, .f32⟩
  | .hbm, ⟨48, _⟩ => ⟨S64, .f32⟩
  | .hbm, ⟨49, _⟩ => ⟨S1x64, .f32⟩
  | .hbm, ⟨50, _⟩ => ⟨S64x1, .f32⟩
  | .hbm, ⟨51, _⟩ => ⟨S1x1, .f32⟩
  | .hbm, ⟨52, _⟩ => ⟨S4096x1, .f32⟩
  | .hbm, ⟨53, _⟩ => ⟨S4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S8192x64, .f32⟩
  | .local _ .vmem, ⟨5, _⟩ => ⟨S4096x64, .f32⟩
  | .local _ .vmem, ⟨6, _⟩ => ⟨S128x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S4096x65, .f32⟩
  | .local _ .vmem, ⟨11, _⟩ => ⟨S65x4096, .f32⟩
  | .local _ .vmem, ⟨12, _⟩ => ⟨S512x4096, .f32⟩
  | .local _ .vmem, ⟨13, _⟩ => ⟨S512x4096, .f32⟩
  | .local _ .vmem, ⟨14, _⟩ => ⟨S8192x64, .f32⟩
  | .local _ .vmem, ⟨15, _⟩ => ⟨S4096x65, .f32⟩
  | .local _ .vmem, ⟨16, _⟩ => ⟨S128x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S128x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x1, .f32⟩
  | .local _ .vmem, ⟨25, _⟩ => ⟨S1x1, .f32⟩
  | .local _ .vmem, ⟨26, _⟩ => ⟨S4096x1, .f32⟩
  | .local _ .vmem, ⟨27, _⟩ => ⟨S65x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v7 : BitVec 32 := Scalar.muli arg0 c512_i32
  let v8 : Index := Scalar.indexCast v7
  let c0_4 : Index := 0#32
  ![v8.toNat, 0]
def k0_cond2 (i : grid0.Coords) : BitVec 1 :=
  let arg0 : BitVec 32 := BitVec.ofNat 32 (i 0).val
  let c15_i32 : BitVec 32 := 15#32
  let v26 : BitVec 1 := Scalar.cmpi .eq arg0 c15_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x65 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![16], ![false]⟩

def k1_off1 (i : grid1.Coords) : Fin 2 → Nat :=
  let arg0 : BitVec 32 := BitVec.ofNat 32 (i 0).val
  let c512_i32 : BitVec 32 := 512#32
  let v17 : BitVec 32 := Scalar.muli arg0 c512_i32
  let v18 : Index := Scalar.indexCast v17
  let c0_6 : Index := 0#32
  ![v18.toNat, 0]
def k1_cond2 (i : grid1.Coords) : BitVec 1 :=
  let arg0 : BitVec 32 := BitVec.ofNat 32 (i 0).val
  let c15_i32 : BitVec 32 := 15#32
  let v67 : BitVec 1 := Scalar.cmpi .eq arg0 c15_i32
  let v68 : BitVec 32 := Scalar.extui v67
  let c0_i32_28 : BitVec 32 := 0#32
  let v69 : BitVec 1 := Scalar.cmpi .ne v68 c0_i32_28
  v69

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x65 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S4096x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

class Facts₀ : Prop where
  slices_S2x64x128_S1x64x128_0_0_0 : S2x64x128.Slices ![0, 0, 0] S1x64x128
  shapeCasts_S1x64x128_S64x128 : S1x64x128.ShapeCasts S64x128
  transposes_S64x128_S128x64_1_0 : S64x128.Transposes [1, 0] S128x64
  slices_S2x64_S1x64_0_0 : S2x64.Slices ![0, 0] S1x64
  shapeCasts_S1x64_S64 : S1x64.ShapeCasts S64
  shapeCasts_S64_S1x64 : S64.ShapeCasts S1x64
  inb_S65x4096_S65x4096_0_0 : ∀ a, (![0, 0] : Fin 2 → Nat) a + S65x4096.size a ≤ S65x4096.size a
  h_S65x4096 : 0 < S65x4096.numel
  shapeCasts_S65x4096_S65x4096 : S65x4096.ShapeCasts S65x4096
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  h_S512x64 : 0 < S512x64.numel
  concatenates_S512x64_S512x1_S512x65_d1 : Shape.Concatenates [S512x64, S512x1] S512x65 1
  transposes_S512x65_p1_0_S65x512 : S512x65.Transposes [1, 0] S65x512
  inb_S65x4096_S65x2048_0_0 : ∀ a, (![0, 0] : Fin 2 → Nat) a + S65x2048.size a ≤ S65x4096.size a
  h_S65x2048 : 0 < S65x2048.numel
  shapeCasts_S65x2048_S65x2048 : S65x2048.ShapeCasts S65x2048
  inb_S65x4096_S65x2048_0_2048 : ∀ a, (![0, 2048] : Fin 2 → Nat) a + S65x2048.size a ≤ S65x4096.size a
  transposes_S65x4096_p1_0_S4096x65 : S65x4096.Transposes [1, 0] S4096x65
  slices_S4096x65_o0_64_S4096x1 : S4096x65.Slices ![0, 64] S4096x1
  slices_S4096x65_o0_0_S4096x64 : S4096x65.Slices ![0, 0] S4096x64
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  concatenates_S4096x64_S4096x64_S4096x128_d1 : Shape.Concatenates [S4096x64, S4096x64] S4096x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  concatenates_S4096x64_S4096x1_S4096x65_d1 : Shape.Concatenates [S4096x64, S4096x1] S4096x65 1
  inb_S4096x65_S4096x65_0_0 : ∀ a, (![0, 0] : Fin 2 → Nat) a + S4096x65.size a ≤ S4096x65.size a
  h_S4096x65 : 0 < S4096x65.numel
  slices_S2x64x128_S1x64x128_1_0_0 : S2x64x128.Slices ![1, 0, 0] S1x64x128
  slices_S2x64_S1x64_1_0 : S2x64.Slices ![1, 0] S1x64
  shapeCasts_S1x64_S64x1 : S1x64.ShapeCasts S64x1
  shapeCasts_S1_S1x1 : S1.ShapeCasts S1x1
  inb_S512x4096_S512x4096_0_0 : ∀ a, (![0, 0] : Fin 2 → Nat) a + S512x4096.size a ≤ S512x4096.size a
  h_S512x4096 : 0 < S512x4096.numel
  shapeCasts_S4096x65_S4096x65 : S4096x65.ShapeCasts S4096x65
  slices_S512x65_o0_64_S512x1 : S512x65.Slices ![0, 64] S512x1
  slices_S512x65_o0_0_S512x64 : S512x65.Slices ![0, 0] S512x64
  broadcasts_S512x1_S512x64 : S512x1.Broadcasts S512x64
  concatenates_S512x64_S512x64_S512x128_d1 : Shape.Concatenates [S512x64, S512x64] S512x128 1
  broadcasts_S1x64_S512x64 : S1x64.Broadcasts S512x64
  reduces_S512x64_S512 : S512x64.Reduces [1] S512
  shapeCasts_S512_S512x1 : S512.ShapeCasts S512x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S4096x1_S4096 : S4096x1.ShapeCasts S4096
  dot_S65x512_S512x2048_S65x2048_1_0_0_1_n_n_wf : DotDims.WF S65x512 S512x2048 S65x2048 [1] [0] [0] [1] [] []
  dot_S4096x128_S128x64_S4096x64_1_0_0_1_n_n_wf : DotDims.WF S4096x128 S128x64 S4096x64 [1] [0] [0] [1] [] []
  dot_S512x4096_S4096x65_S512x65_1_0_0_1_n_n_wf : DotDims.WF S512x4096 S4096x65 S512x65 [1] [0] [0] [1] [] []
  dot_S512x128_S128x64_S512x64_1_0_0_1_n_n_wf : DotDims.WF S512x128 S128x64 S512x64 [1] [0] [0] [1] [] []
  dot_S65x512_S512x4096_S65x4096_1_0_0_1_n_n_wf : DotDims.WF S65x512 S512x4096 S65x4096 [1] [0] [0] [1] [] []
  dot_S4096x64_S64x1_S4096x1_1_0_0_1_n_n_wf : DotDims.WF S4096x64 S64x1 S4096x1 [1] [0] [0] [1] [] []
  hrank0 : 0 < grid0.rank
  k0_off1_inb : ∀ i : grid0.Coords, ∀ a, (k0_off1 i) a + S512x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x4096.size a
  hwx0_0 : ∀ i : grid0.Coords, EltTy.bits .f32 = 32 ∨ (Rect.block (s := S8192x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x4096.size a
  hwx0_1 : ∀ i : grid0.Coords, EltTy.bits .f32 = 32 ∨ (Rect.block (s := S8192x4096) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .f32 = 32 ∨ (Rect.block (s := S8192x64) S8192x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .f32 = 32 ∨ (Rect.block (s := S4096x64) S4096x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x65.size a ≤ S4096x65.size a
  hwx0_8 : ∀ i : grid0.Coords, EltTy.bits .f32 = 32 ∨ (Rect.block (s := S4096x65) S4096x65.size (cc0_transform_8 i) (hinb0_8 i)).WholeWords (EltTy.packing .f32)
  hrank1 : 0 < grid1.rank
  k1_off1_inb : ∀ i : grid1.Coords, ∀ a, (k1_off1 i) a + S512x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x65.size a ≤ S4096x65.size a
  hwx1_2 : ∀ i : grid1.Coords, EltTy.bits .f32 = 32 ∨ (Rect.block (s := S4096x65) S4096x65.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x1.size a ≤ S64x1.size a
  hwx1_11 : ∀ i : grid1.Coords, EltTy.bits .f32 = 32 ∨ (Rect.block (s := S64x1) S64x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S4096x1.size a ≤ S4096x1.size a
  hwx1_13 : ∀ i : grid1.Coords, EltTy.bits .f32 = 32 ∨ (Rect.block (s := S4096x1) S4096x1.size (cc1_transform_13 i) (hinb1_13 i)).WholeWords (EltTy.packing .f32)

variable [Facts₀]

def dot_S65x512_S512x2048_S65x2048_1_0_0_1_n_n : DotDims S65x512 S512x2048 S65x2048 where
  lhsContracting := [1]
  rhsContracting := [0]
  lhsNonContracting := [0]
  rhsNonContracting := [1]
  lhsBatch := []
  rhsBatch := []
  wf := dot_S65x512_S512x2048_S65x2048_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S512x4096_S4096x65_S512x65_1_0_0_1_n_n : DotDims S512x4096 S4096x65 S512x65 where
  lhsContracting := [1]
  rhsContracting := [0]
  lhsNonContracting := [0]
  rhsNonContracting := [1]
  lhsBatch := []
  rhsBatch := []
  wf := dot_S512x4096_S4096x65_S512x65_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S65x512_S512x4096_S65x4096_1_0_0_1_n_n : DotDims S65x512 S512x4096 S65x4096 where
  lhsContracting := [1]
  rhsContracting := [0]
  lhsNonContracting := [0]
  rhsNonContracting := [1]
  lhsBatch := []
  rhsBatch := []
  wf := dot_S65x512_S512x4096_S65x4096_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S4096x65.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4096x65.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v36) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v37) S64x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v38) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v39) S4096x1.size cc1_transform_13 reads1_13 true true 1 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev idle1 : Fin 14 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k1_cond2 i == 1#1) | ⟨_ + 14, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192x64 : Shape := ⟨2, ![8192, 64]⟩
abbrev S4096x64 : Shape := ⟨2, ![4096, 64]⟩
abbrev S2x64x128 : Shape := ⟨3, ![2, 64, 128]⟩
abbrev S2x64 : Shape := ⟨2, ![2, 64]⟩
abbrev S1x64 : Shape := ⟨2, ![1, 64]⟩
abbrev S1 : Shape := ⟨1, ![1]⟩
abbrev S_ : Shape := ⟨0, ![]⟩
abbrev S4096 : Shape := ⟨1, ![4096]⟩
abbrev S8192 : Shape := ⟨1, ![8192]⟩
abbrev S4096x8192 : Shape := ⟨2, ![4096, 8192]⟩
abbrev S4096x1 : Shape := ⟨2, ![4096, 1]⟩
abbrev S4096x128 : Shape := ⟨2, ![4096, 128]⟩
abbrev S1x64x128 : Shape := ⟨3, ![1, 64, 128]⟩
abbrev S64x128 : Shape := ⟨2, ![64, 128]⟩
abbrev S128x64 : Shape := ⟨2, ![128, 64]⟩
abbrev S64 : Shape := ⟨1, ![64]⟩
abbrev S8192x1 : Shape := ⟨2, ![8192, 1]⟩
abbrev S8192x128 : Shape := ⟨2, ![8192, 128]⟩
abbrev S64x1 : Shape := ⟨2, ![64, 1]⟩
abbrev S1x1 : Shape := ⟨2, ![1, 1]⟩

abbrev nBuf : Space → Nat
  | .hbm => 308
  | .vmem => 0
  | .smem => 0
  | _ => 0

abbrev hbmTy0_0 (i : Nat) : BufTy := match i % 128 with
  | 0 => ⟨S8192x4096, .f32⟩
  | 1 => ⟨S8192x64, .f32⟩
  | 2 => ⟨S4096x64, .f32⟩
  | 3 => ⟨S2x64x128, .f32⟩
  | 4 => ⟨S2x64, .f32⟩
  | 5 => ⟨S2x64, .f32⟩
  | 6 => ⟨S2x64, .f32⟩
  | 7 => ⟨S2x64x128, .f32⟩
  | 8 => ⟨S2x64, .f32⟩
  | 9 => ⟨S2x64, .f32⟩
  | 10 => ⟨S2x64, .f32⟩
  | 11 => ⟨S1x64, .f32⟩
  | 12 => ⟨S1, .f32⟩
  | 13 => ⟨S_, .f32⟩
  | 14 => ⟨S4096, .f32⟩
  | 15 => ⟨S_, .f32⟩
  | 16 => ⟨S_, .f32⟩
  | 17 => ⟨S4096, .f32⟩
  | 18 => ⟨S4096, .f32⟩
  | 19 => ⟨S_, .f32⟩
  | 20 => ⟨S8192, .f32⟩
  | 21 => ⟨S_, .f32⟩
  | 22 => ⟨S_, .f32⟩
  | 23 => ⟨S8192, .f32⟩
  | 24 => ⟨S8192, .f32⟩
  | 25 => ⟨S4096x8192, .f32⟩
  | 26 => ⟨S4096x64, .f32⟩
  | 27 => ⟨S4096x1, .f32⟩
  | 28 => ⟨S4096x64, .f32⟩
  | 29 => ⟨S4096x64, .f32⟩
  | 30 => ⟨S4096x128, .f32⟩
  | 31 => ⟨S1x64x128, .f32⟩
  | 32 => ⟨S64x128, .f32⟩
  | 33 => ⟨S128x64, .f32⟩
  | 34 => ⟨S4096x64, .f32⟩
  | 35 => ⟨S1x64, .f32⟩
  | 36 => ⟨S64, .f32⟩
  | 37 => ⟨S1x64, .f32⟩
  | 38 => ⟨S4096x64, .f32⟩
  | 39 => ⟨S4096x64, .f32⟩
  | 40 => ⟨S_, .f32⟩
  | 41 => ⟨S4096x64, .f32⟩
  | 42 => ⟨S4096x64, .f32⟩
  | 43 => ⟨S1x64, .f32⟩
  | 44 => ⟨S64, .f32⟩
  | 45 => ⟨S1x64, .f32⟩
  | 46 => ⟨S64, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .i32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S4096x64, .f32⟩
  | 61 => ⟨S4096x64, .f32⟩
  | 62 => ⟨S4096x64, .f32⟩
  | 63 => ⟨S_, .f32⟩
  | 64 => ⟨S_, .f32⟩
  | 65 => ⟨S_, .f32⟩
  | 66 => ⟨S_, .f32⟩
  | 67 => ⟨S4096, .f32⟩
  | 68 => ⟨S4096x1, .f32⟩
  | 69 => ⟨S4096x1, .f32⟩
  | 70 => ⟨S4096x1, .f32⟩
  | 71 => ⟨S_, .f32⟩
  | 72 => ⟨S_, .i1⟩
  | 73 => ⟨S_, .f32⟩
  | 74 => ⟨S_, .f32⟩
  | 75 => ⟨S4096x1, .f32⟩
  | 76 => ⟨S4096x1, .f32⟩
  | 77 => ⟨S4096x64, .f32⟩
  | 78 => ⟨S4096x64, .f32⟩
  | 79 => ⟨S_, .f32⟩
  | 80 => ⟨S4096x1, .f32⟩
  | 81 => ⟨S4096x1, .f32⟩
  | 82 => ⟨S4096x1, .f32⟩
  | 83 => ⟨S4096x64, .f32⟩
  | 84 => ⟨S4096x64, .f32⟩
  | 85 => ⟨S1x64, .f32⟩
  | 86 => ⟨S4096x64, .f32⟩
  | 87 => ⟨S4096x64, .f32⟩
  | 88 => ⟨S1x64, .f32⟩
  | 89 => ⟨S4096x64, .f32⟩
  | 90 => ⟨S4096x64, .f32⟩
  | 91 => ⟨S4096x64, .f32⟩
  | 92 => ⟨S8192x64, .f32⟩
  | 93 => ⟨S8192x1, .f32⟩
  | 94 => ⟨S8192x64, .f32⟩
  | 95 => ⟨S8192x64, .f32⟩
  | 96 => ⟨S8192x128, .f32⟩
  | 97 => ⟨S1x64x128, .f32⟩
  | 98 => ⟨S64x128, .f32⟩
  | 99 => ⟨S128x64, .f32⟩
  | 100 => ⟨S8192x64, .f32⟩
  | 101 => ⟨S1x64, .f32⟩
  | 102 => ⟨S64, .f32⟩
  | 103 => ⟨S1x64, .f32⟩
  | 104 => ⟨S8192x64, .f32⟩
  | 105 => ⟨S8192x64, .f32⟩
  | 106 => ⟨S_, .f32⟩
  | 107 => ⟨S8192x64, .f32⟩
  | 108 => ⟨S8192x64, .f32⟩
  | 109 => ⟨S1x64, .f32⟩
  | 110 => ⟨S64, .f32⟩
  | 111 => ⟨S1x64, .f32⟩
  | 112 => ⟨S64, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S_, .i32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S8192x64, .f32⟩
  | 127 => ⟨S8192x64, .f32⟩
  | _ => ⟨S8192x4096, .f32⟩

abbrev hbmTy0_1 (i : Nat) : BufTy := match i % 128 with
  | 0 => ⟨S8192x64, .f32⟩
  | 1 => ⟨S_, .f32⟩
  | 2 => ⟨S_, .f32⟩
  | 3 => ⟨S_, .f32⟩
  | 4 => ⟨S_, .f32⟩
  | 5 => ⟨S8192, .f32⟩
  | 6 => ⟨S8192x1, .f32⟩
  | 7 => ⟨S8192x1, .f32⟩
  | 8 => ⟨S8192x1, .f32⟩
  | 9 => ⟨S_, .f32⟩
  | 10 => ⟨S_, .i1⟩
  | 11 => ⟨S_, .f32⟩
  | 12 => ⟨S_, .f32⟩
  | 13 => ⟨S8192x1, .f32⟩
  | 14 => ⟨S8192x1, .f32⟩
  | 15 => ⟨S8192x64, .f32⟩
  | 16 => ⟨S8192x64, .f32⟩
  | 17 => ⟨S_, .f32⟩
  | 18 => ⟨S8192x1, .f32⟩
  | 19 => ⟨S8192x1, .f32⟩
  | 20 => ⟨S8192x1, .f32⟩
  | 21 => ⟨S8192x64, .f32⟩
  | 22 => ⟨S8192x64, .f32⟩
  | 23 => ⟨S1x64, .f32⟩
  | 24 => ⟨S8192x64, .f32⟩
  | 25 => ⟨S8192x64, .f32⟩
  | 26 => ⟨S1x64, .f32⟩
  | 27 => ⟨S8192x64, .f32⟩
  | 28 => ⟨S8192x64, .f32⟩
  | 29 => ⟨S8192x64, .f32⟩
  | 30 => ⟨S4096x8192, .f32⟩
  | 31 => ⟨S4096x64, .f32⟩
  | 32 => ⟨S4096x1, .f32⟩
  | 33 => ⟨S4096x64, .f32⟩
  | 34 => ⟨S4096x64, .f32⟩
  | 35 => ⟨S4096x128, .f32⟩
  | 36 => ⟨S1x64x128, .f32⟩
  | 37 => ⟨S64x128, .f32⟩
  | 38 => ⟨S128x64, .f32⟩
  | 39 => ⟨S4096x64, .f32⟩
  | 40 => ⟨S1x64, .f32⟩
  | 41 => ⟨S64, .f32⟩
  | 42 => ⟨S1x64, .f32⟩
  | 43 => ⟨S4096x64, .f32⟩
  | 44 => ⟨S4096x64, .f32⟩
  | 45 => ⟨S_, .f32⟩
  | 46 => ⟨S4096x64, .f32⟩
  | 47 => ⟨S4096x64, .f32⟩
  | 48 => ⟨S1x64, .f32⟩
  | 49 => ⟨S64, .f32⟩
  | 50 => ⟨S1x64, .f32⟩
  | 51 => ⟨S64, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .i32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S4096x64, .f32⟩
  | 66 => ⟨S4096x64, .f32⟩
  | 67 => ⟨S4096x64, .f32⟩
  | 68 => ⟨S_, .f32⟩
  | 69 => ⟨S_, .f32⟩
  | 70 => ⟨S_, .f32⟩
  | 71 => ⟨S_, .f32⟩
  | 72 => ⟨S4096, .f32⟩
  | 73 => ⟨S4096x1, .f32⟩
  | 74 => ⟨S4096x1, .f32⟩
  | 75 => ⟨S4096x1, .f32⟩
  | 76 => ⟨S_, .f32⟩
  | 77 => ⟨S_, .i1⟩
  | 78 => ⟨S_, .f32⟩
  | 79 => ⟨S_, .f32⟩
  | 80 => ⟨S4096x1, .f32⟩
  | 81 => ⟨S4096x1, .f32⟩
  | 82 => ⟨S4096x64, .f32⟩
  | 83 => ⟨S4096x64, .f32⟩
  | 84 => ⟨S_, .f32⟩
  | 85 => ⟨S4096x1, .f32⟩
  | 86 => ⟨S4096x1, .f32⟩
  | 87 => ⟨S4096x1, .f32⟩
  | 88 => ⟨S4096x64, .f32⟩
  | 89 => ⟨S4096x64, .f32⟩
  | 90 => ⟨S1x64, .f32⟩
  | 91 => ⟨S4096x64, .f32⟩
  | 92 => ⟨S4096x64, .f32⟩
  | 93 => ⟨S1x64, .f32⟩
  | 94 => ⟨S4096x64, .f32⟩
  | 95 => ⟨S4096x64, .f32⟩
  | 96 => ⟨S4096x64, .f32⟩
  | 97 => ⟨S8192x64, .f32⟩
  | 98 => ⟨S8192x1, .f32⟩
  | 99 => ⟨S8192x64, .f32⟩
  | 100 => ⟨S8192x64, .f32⟩
  | 101 => ⟨S8192x128, .f32⟩
  | 102 => ⟨S1x64x128, .f32⟩
  | 103 => ⟨S64x128, .f32⟩
  | 104 => ⟨S128x64, .f32⟩
  | 105 => ⟨S8192x64, .f32⟩
  | 106 => ⟨S1x64, .f32⟩
  | 107 => ⟨S64, .f32⟩
  | 108 => ⟨S1x64, .f32⟩
  | 109 => ⟨S8192x64, .f32⟩
  | 110 => ⟨S8192x64, .f32⟩
  | 111 => ⟨S_, .f32⟩
  | 112 => ⟨S8192x64, .f32⟩
  | 113 => ⟨S8192x64, .f32⟩
  | 114 => ⟨S1x64, .f32⟩
  | 115 => ⟨S64, .f32⟩
  | 116 => ⟨S1x64, .f32⟩
  | 117 => ⟨S64, .f32⟩
  | 118 => ⟨S_, .f32⟩
  | 119 => ⟨S8192, .f32⟩
  | 120 => ⟨S8192x1, .f32⟩
  | 121 => ⟨S_, .f32⟩
  | 122 => ⟨S8192x1, .f32⟩
  | 123 => ⟨S8192x1, .f32⟩
  | 124 => ⟨S_, .i32⟩
  | 125 => ⟨S_, .f32⟩
  | 126 => ⟨S8192, .f32⟩
  | 127 => ⟨S8192x1, .f32⟩
  | _ => ⟨S8192x4096, .f32⟩

abbrev hbmTy0_2 (i : Nat) : BufTy := match i % 128 with
  | 0 => ⟨S_, .f32⟩
  | 1 => ⟨S8192x1, .f32⟩
  | 2 => ⟨S8192x1, .f32⟩
  | 3 => ⟨S8192x64, .f32⟩
  | 4 => ⟨S8192x64, .f32⟩
  | 5 => ⟨S8192x64, .f32⟩
  | 6 => ⟨S_, .f32⟩
  | 7 => ⟨S_, .f32⟩
  | 8 => ⟨S_, .f32⟩
  | 9 => ⟨S_, .f32⟩
  | 10 => ⟨S8192, .f32⟩
  | 11 => ⟨S8192x1, .f32⟩
  | 12 => ⟨S8192x1, .f32⟩
  | 13 => ⟨S8192x1, .f32⟩
  | 14 => ⟨S_, .f32⟩
  | 15 => ⟨S_, .i1⟩
  | 16 => ⟨S_, .f32⟩
  | 17 => ⟨S_, .f32⟩
  | 18 => ⟨S8192x1, .f32⟩
  | 19 => ⟨S8192x1, .f32⟩
  | 20 => ⟨S8192x64, .f32⟩
  | 21 => ⟨S8192x64, .f32⟩
  | 22 => ⟨S_, .f32⟩
  | 23 => ⟨S8192x1, .f32⟩
  | 24 => ⟨S8192x1, .f32⟩
  | 25 => ⟨S8192x1, .f32⟩
  | 26 => ⟨S8192x64, .f32⟩
  | 27 => ⟨S8192x64, .f32⟩
  | 28 => ⟨S1x64, .f32⟩
  | 29 => ⟨S8192x64, .f32⟩
  | 30 => ⟨S8192x64, .f32⟩
  | 31 => ⟨S1x64, .f32⟩
  | 32 => ⟨S8192x64, .f32⟩
  | 33 => ⟨S8192x64, .f32⟩
  | 34 => ⟨S8192x64, .f32⟩
  | 35 => ⟨S64x1, .f32⟩
  | 36 => ⟨S4096x1, .f32⟩
  | 37 => ⟨S1x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096, .f32⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v1 : Ref sig .tc := ⟨.hbm, 18, rfl⟩
abbrev main_cst_1 : Ref sig .tc := ⟨.hbm, 19, rfl⟩
abbrev main_v2 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_c : Ref sig .tc := ⟨.hbm, 53, rfl⟩
abbrev main_call3_cst : Ref sig .tc := ⟨.hbm, 54, rfl⟩
abbrev main_call3_v0 : Ref sig .tc := ⟨.hbm, 55, rfl⟩
abbrev main_call3_v1 : Ref sig .tc := ⟨.hbm, 56, rfl⟩
abbrev main_call3_cst_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_v7 : Ref sig .tc := ⟨.hbm, 63, rfl⟩
abbrev main_call3_cst_1 : Ref sig .tc := ⟨.hbm, 64, rfl⟩
abbrev main_call3_v8 : Ref sig .tc := ⟨.hbm, 65, rfl⟩
abbrev main_call3_cst_2 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_v12 : Ref sig .tc := ⟨.hbm, 70, rfl⟩
abbrev main_call3_cst_3 : Ref sig .tc := ⟨.hbm, 71, rfl⟩
abbrev main_call3_v13 : Ref sig .tc := ⟨.hbm, 72, rfl⟩
abbrev main_call3_cst_4 : Ref sig .tc := ⟨.hbm, 73, rfl⟩
abbrev main_call3_call0_v0 : Ref sig .tc := ⟨.hbm, 74, rfl⟩
abbrev main_call3_call0_v1 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_5 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_call4_cst : Ref sig .tc := ⟨.hbm, 106, rfl⟩
abbrev main_call4_v0 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_6 : Ref sig .tc := ⟨.hbm, 113, rfl⟩
abbrev main_v62 : Ref sig .tc := ⟨.hbm, 114, rfl⟩
abbrev main_v63 : Ref sig .tc := ⟨.hbm, 115, rfl⟩
abbrev main_cst_7 : Ref sig .tc := ⟨.hbm, 116, rfl⟩
abbrev main_v64 : Ref sig .tc := ⟨.hbm, 117, rfl⟩
abbrev main_v65 : Ref sig .tc := ⟨.hbm, 118, rfl⟩
abbrev main_c_8 : Ref sig .tc := ⟨.hbm, 119, rfl⟩
abbrev main_call5_cst : Ref sig .tc := ⟨.hbm, 120, rfl⟩
abbrev main_call5_v0 : Ref sig .tc := ⟨.hbm, 121, rfl⟩
abbrev main_call5_v1 : Ref sig .tc := ⟨.hbm, 122, rfl⟩
abbrev main_call5_cst_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_v6 : Ref sig .tc := ⟨.hbm, 128, rfl⟩
abbrev main_call5_v7 : Ref sig .tc := ⟨.hbm, 129, rfl⟩
abbrev main_call5_cst_1 : Ref sig .tc := ⟨.hbm, 130, rfl⟩
abbrev main_call5_v8 : Ref sig .tc := ⟨.hbm, 131, rfl⟩
abbrev main_call5_cst_2 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_v12 : Ref sig .tc := ⟨.hbm, 136, rfl⟩
abbrev main_call5_cst_3 : Ref sig .tc := ⟨.hbm, 137, rfl⟩
abbrev main_call5_v13 : Ref sig .tc := ⟨.hbm, 138, rfl⟩
abbrev main_call5_cst_4 : Ref sig .tc := ⟨.hbm, 139, rfl⟩
abbrev main_call5_call0_v0 : Ref sig .tc := ⟨.hbm, 140, rfl⟩
abbrev main_call5_call0_v1 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_cst_9 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_call6_cst : Ref sig .tc := ⟨.hbm, 173, rfl⟩
abbrev main_call6_v0 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_cst_10 : Ref sig .tc := ⟨.hbm, 180, rfl⟩
abbrev main_v101 : Ref sig .tc := ⟨.hbm, 181, rfl⟩
abbrev main_v102 : Ref sig .tc := ⟨.hbm, 182, rfl⟩
abbrev main_cst_11 : Ref sig .tc := ⟨.hbm, 183, rfl⟩
abbrev main_v103 : Ref sig .tc := ⟨.hbm, 184, rfl⟩
abbrev main_v104 : Ref sig .tc := ⟨.hbm, 185, rfl⟩
abbrev main_c_12 : Ref sig .tc := ⟨.hbm, 186, rfl⟩
abbrev main_call7_cst : Ref sig .tc := ⟨.hbm, 187, rfl⟩
abbrev main_call7_v0 : Ref sig .tc := ⟨.hbm, 188, rfl⟩
abbrev main_call7_v1 : Ref sig .tc := ⟨.hbm, 189, rfl⟩
abbrev main_call7_cst_0 : Ref sig .tc := ⟨.hbm, 190, rfl⟩
abbrev main_call7_v2 : Ref sig .tc := ⟨.hbm, 191, rfl⟩
abbrev main_call7_v3 : Ref sig .tc := ⟨.hbm, 192, rfl⟩
abbrev main_call7_v4 : Ref sig .tc := ⟨.hbm, 193, rfl⟩
abbrev main_call7_v5 : Ref sig .tc := ⟨.hbm, 194, rfl⟩
abbrev main_call7_v6 : Ref sig .tc := ⟨.hbm, 195, rfl⟩
abbrev main_call7_v7 : Ref sig .tc := ⟨.hbm, 196, rfl⟩
abbrev main_call7_cst_1 : Ref sig .tc := ⟨.hbm, 197, rfl⟩
abbrev main_call7_v8 : Ref sig .tc := ⟨.hbm, 198, rfl⟩
abbrev main_call7_cst_2 : Ref sig .tc := ⟨.hbm, 199, rfl⟩
abbrev main_call7_v9 : Ref sig .tc := ⟨.hbm, 200, rfl⟩
abbrev main_call7_v10 : Ref sig .tc := ⟨.hbm, 201, rfl⟩
abbrev main_call7_v11 : Ref sig .tc := ⟨.hbm, 202, rfl⟩
abbrev main_call7_v12 : Ref sig .tc := ⟨.hbm, 203, rfl⟩
abbrev main_call7_cst_3 : Ref sig .tc := ⟨.hbm, 204, rfl⟩
abbrev main_call7_v13 : Ref sig .tc := ⟨.hbm, 205, rfl⟩
abbrev main_call7_cst_4 : Ref sig .tc := ⟨.hbm, 206, rfl⟩
abbrev main_call7_call0_v0 : Ref sig .tc := ⟨.hbm, 207, rfl⟩
abbrev main_call7_call0_v1 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_cst_13 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_call8_cst : Ref sig .tc := ⟨.hbm, 239, rfl⟩
abbrev main_call8_v0 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_cst_14 : Ref sig .tc := ⟨.hbm, 246, rfl⟩
abbrev main_v139 : Ref sig .tc := ⟨.hbm, 247, rfl⟩
abbrev main_v140 : Ref sig .tc := ⟨.hbm, 248, rfl⟩
abbrev main_cst_15 : Ref sig .tc := ⟨.hbm, 249, rfl⟩
abbrev main_v141 : Ref sig .tc := ⟨.hbm, 250, rfl⟩
abbrev main_v142 : Ref sig .tc := ⟨.hbm, 251, rfl⟩
abbrev main_c_16 : Ref sig .tc := ⟨.hbm, 252, rfl⟩
abbrev main_call9_cst : Ref sig .tc := ⟨.hbm, 253, rfl⟩
abbrev main_call9_v0 : Ref sig .tc := ⟨.hbm, 254, rfl⟩
abbrev main_call9_v1 : Ref sig .tc := ⟨.hbm, 255, rfl⟩
abbrev main_call9_cst_0 : Ref sig .tc := ⟨.hbm, 256, rfl⟩
abbrev main_call9_v2 : Ref sig .tc := ⟨.hbm, 257, rfl⟩
abbrev main_call9_v3 : Ref sig .tc := ⟨.hbm, 258, rfl⟩
abbrev main_call9_v4 : Ref sig .tc := ⟨.hbm, 259, rfl⟩
abbrev main_call9_v5 : Ref sig .tc := ⟨.hbm, 260, rfl⟩
abbrev main_call9_v6 : Ref sig .tc := ⟨.hbm, 261, rfl⟩
abbrev main_call9_v7 : Ref sig .tc := ⟨.hbm, 262, rfl⟩
abbrev main_call9_cst_1 : Ref sig .tc := ⟨.hbm, 263, rfl⟩
abbrev main_call9_v8 : Ref sig .tc := ⟨.hbm, 264, rfl⟩
abbrev main_call9_cst_2 : Ref sig .tc := ⟨.hbm, 265, rfl⟩
abbrev main_call9_v9 : Ref sig .tc := ⟨.hbm, 266, rfl⟩
abbrev main_call9_v10 : Ref sig .tc := ⟨.hbm, 267, rfl⟩
abbrev main_call9_v11 : Ref sig .tc := ⟨.hbm, 268, rfl⟩
abbrev main_call9_v12 : Ref sig .tc := ⟨.hbm, 269, rfl⟩
abbrev main_call9_cst_3 : Ref sig .tc := ⟨.hbm, 270, rfl⟩
abbrev main_call9_v13 : Ref sig .tc := ⟨.hbm, 271, rfl⟩
abbrev main_call9_cst_4 : Ref sig .tc := ⟨.hbm, 272, rfl⟩
abbrev main_call9_call0_v0 : Ref sig .tc := ⟨.hbm, 273, rfl⟩
abbrev main_call9_call0_v1 : Ref sig .tc := ⟨.hbm, 274, rfl⟩
abbrev main_v143 : Ref sig .tc := ⟨.hbm, 275, rfl⟩
abbrev main_v144 : Ref sig .tc := ⟨.hbm, 276, rfl⟩
abbrev main_v145 : Ref sig .tc := ⟨.hbm, 277, rfl⟩
abbrev main_cst_17 : Ref sig .tc := ⟨.hbm, 278, rfl⟩
abbrev main_v146 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_v152 : Ref sig .tc := ⟨.hbm, 285, rfl⟩
abbrev main_v153 : Ref sig .tc := ⟨.hbm, 286, rfl⟩
abbrev main_v154 : Ref sig .tc := ⟨.hbm, 287, rfl⟩
abbrev main_v155 : Ref sig .tc := ⟨.hbm, 288, rfl⟩
abbrev main_v156 : Ref sig .tc := ⟨.hbm, 289, rfl⟩
abbrev main_v157 : Ref sig .tc := ⟨.hbm, 290, rfl⟩
abbrev main_v158 : Ref sig .tc := ⟨.hbm, 291, rfl⟩
abbrev main_v159 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_cst_18 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_v166 : Ref sig .tc := ⟨.hbm, 300, rfl⟩
abbrev main_cst_19 : Ref sig .tc := ⟨.hbm, 301, rfl⟩
abbrev main_v167 : Ref sig .tc := ⟨.hbm, 302, rfl⟩
abbrev main_v168 : Ref sig .tc := ⟨.hbm, 303, rfl⟩
abbrev main_cst_20 : Ref sig .tc := ⟨.hbm, 304, rfl⟩
abbrev main_v169 : Ref sig .tc := ⟨.hbm, 305, rfl⟩
abbrev main_v170 : Ref sig .tc := ⟨.hbm, 306, rfl⟩
abbrev main_v171 : Ref sig .tc := ⟨.hbm, 307, rfl⟩

abbrev nD : Nat := 1
abbrev τ : Topo := Topo.v7x

variable {F : FTy → Type} [FloatOps F]

class Facts₀ : Prop where
  reducesTo_S8192x4096_S4096_d0 : S8192x4096.ReducesTo [0] S4096
  h_S_ : 0 < S_.numel
  bcast_S_S4096 : S_.BroadcastsInDim S4096 (![] : Fin 0 → Fin S4096.rank)
  reducesTo_S8192x4096_S8192_d1 : S8192x4096.ReducesTo [1] S8192
  bcast_S_S8192 : S_.BroadcastsInDim S8192 (![] : Fin 0 → Fin S8192.rank)
  transposes_S8192x4096_S4096x8192_1_0 : S8192x4096.Transposes [1, 0] S4096x8192
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  concatenates_S4096x64_S4096x64_S4096x128_d1 : Shape.Concatenates [S4096x64, S4096x64] S4096x128 1
  slices_S2x64x128_S1x64x128_0_0_0 : S2x64x128.Slices ![0, 0, 0] S1x64x128
  shapeCasts_S1x64x128_S64x128 : S1x64x128.ShapeCasts S64x128
  transposes_S64x128_S128x64_1_0 : S64x128.Transposes [1, 0] S128x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  reducesTo_S4096x64_S4096_d1 : S4096x64.ReducesTo [1] S4096
  bcast_S_S4096x1 : S_.BroadcastsInDim S4096x1 (![] : Fin 0 → Fin S4096x1.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  concatenates_S8192x64_S8192x64_S8192x128_d1 : Shape.Concatenates [S8192x64, S8192x64] S8192x128 1
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  bcast_S_S8192x1 : S_.BroadcastsInDim S8192x1 (![] : Fin 0 → Fin S8192x1.rank)
  slices_S2x64x128_S1x64x128_1_0_0 : S2x64x128.Slices ![1, 0, 0] S1x64x128
  slices_S2x64_S1x64_1_0 : S2x64.Slices ![1, 0] S1x64
  transposes_S1x64_S64x1_1_0 : S1x64.Transposes [1, 0] S64x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  dot_S4096x8192_S8192x64_S4096x64_1_0_0_1_n_n_wf : DotDims.WF S4096x8192 S8192x64 S4096x64 [1] [0] [0] [1] [] []
  dot_S4096x128_S128x64_S4096x64_1_0_0_1_n_n_wf : DotDims.WF S4096x128 S128x64 S4096x64 [1] [0] [0] [1] [] []
  dot_S8192x4096_S4096x64_S8192x64_1_0_0_1_n_n_wf : DotDims.WF S8192x4096 S4096x64 S8192x64 [1] [0] [0] [1] [] []
  dot_S8192x128_S128x64_S8192x64_1_0_0_1_n_n_wf : DotDims.WF S8192x128 S128x64 S8192x64 [1] [0] [0] [1] [] []
  dot_S4096x64_S64x1_S4096x1_1_0_0_1_n_n_wf : DotDims.WF S4096x64 S64x1 S4096x1 [1] [0] [0] [1] [] []

variable [Facts₀]

def dot_S4096x8192_S8192x64_S4096x64_1_0_0_1_n_n : DotDims S4096x8192 S8192x64 S4096x64 where
  lhsContracting := [1]
  rhsContracting := [0]
  lhsNonContracting := [0]
  rhsNonContracting := [1]
  lhsBatch := []
  rhsBatch := []
  wf := dot_S4096x8192_S8192x64_S4096x64_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.WRunCond.lean ====
import proofs.«107338_g5892695130345_cont_sun_m_578_37_alg».proof.Proof.Gen.Kernel.Regions

noncomputable section

namespace Cert.Kernel.Run

open Idealize.ShloMosaic Idealize.ShloMosaic.TcCoe
open Cert.Kernel Cert.Kernel.Gen

variable {F : FTy → Type} [FloatOps F]

variable (m : (ℓ : Loc nD τ sig) → Buf (Elt F) ℓ)

-- Every argument array of the memory `s` on core `c` is as in `m`.
def Kept (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)

end Cert.Kernel.Run

end
-- ==== Proof.WR0Share.lean ====
import proofs.«107338_g5892695130345_cont_sun_m_578_37_alg».proof.Proof.Gen.Kernel.Launch
import Idealize.ShloMosaic.Lib.Pipeline.FrameBody
import Idealize.ShloMosaic.Lib.Pipeline.RegionsLoop

noncomputable section

namespace Cert.Kernel.R0Share

open Idealize.ShloMosaic Idealize.ShloMosaic.TcCoe
open Idealize.SL Idealize.SL.RA Idealize.SL.BI
open scoped Idealize.SL.BI
open Idealize.SL.BI.BIBase Idealize.SL.BI.Laws
open Idealize.ShloMosaic.Pipeline (Dat)
open Cert.Kernel Cert.Kernel.Gen

variable {F : FTy → Type} [FloatOps F]

local notation "𝕄" => MT nD τ sig Unit (Elt F) ℕ (UR sig nD τ) ℕ

variable {c : Dev nD} (dat : Dat τ (Elt F) Unit ℕ (UR sig nD τ) ℕ cfg0 c)
  (hq0 : dat.q 0 = fullShare.left) (hq1 : dat.q 1 = fullShare.right)
  (hq : ∀ w : Fin cfg0.W, 2 ≤ w.val → dat.q w = fullShare)
  (V : (b : Ref sig .tc) → Buf (Elt F) ((c : Thread nD τ).loc b))
  (G : (w : Fin cfg0.W) → Buf (Elt F) ((cfg0.win w).arr.view.loc (c.tc : Thread nD τ)))
  (hG : ∀ w, G w = V (Pipeline.arrRef spec0 w))

def pt (q : PosShare TreeShare) (b : Ref sig .tc) : sProp 𝕄 := ((c : Thread nD τ).loc b) ↦{q} V b

/-- Every array but the incidence matrix, each held whole at the full share. -/
def rest : sProp 𝕄 :=
  iprop(pt V fullShare main_arg1 ∗ pt V fullShare main_arg2 ∗ pt V fullShare main_v2 ∗ pt V fullShare main_v5
    ∗ pt V fullShare main_v8 ∗ pt V fullShare main_v11 ∗ pt V fullShare main_v12)

theorem arrBufs0_pt :
    (Pipeline.arrBufs (Ix := Unit) (Name := ℕ) (U := UR sig nD τ) (Lvl := ℕ) spec0 c V : sProp 𝕄)
      = iprop(pt V fullShare main_arg0 ∗ rest V) :=
  bigSep_eq_bigSepL_of_eq [main_arg0, main_arg1, main_arg2, main_v2, main_v5, main_v8, main_v11, main_v12] (by decide) (by decide) _

include hq0 hq1 hq hG

/-- The two readers of the incidence matrix hold its two half shares; every other window is its array's sole holder. -/
theorem arrays0_pt :
    (dat.arrays G : sProp 𝕄) = iprop(pt V fullShare.left main_arg0 ∗ pt V fullShare.right main_arg0 ∗ rest V) := by
  have hs : ∀ w : Fin cfg0.W, 2 ≤ w.val → dat.share w = fullShare := fun w h => by
    unfold Dat.share; rw [hq w h, ite_self]
  have h : (dat.arrays G : sProp 𝕄) = bigSep Finset.univ fun w : Fin 9 => pt V (dat.share w) (Pipeline.arrRef spec0 w) := by
    unfold Dat.arrays pt
    exact bigSep_congr fun w _ => by rw [(arr_whole0 w).set_eq_univ, hG]
  rw [h, bigSep_W0, show dat.share 0 = _ from hq0, show dat.share 1 = _ from hq1, hs 2 (by decide), hs 3 (by decide),
    hs 4 (by decide), hs 5 (by decide), hs 6 (by decide), hs 7 (by decide), hs 8 (by decide)]
  rfl

/-- The full share of the incidence matrix is its left half and its right half. -/
theorem arrays0_of_arrBufs :
    (Pipeline.arrBufs (Ix := Unit) (Name := ℕ) (U := UR sig nD τ) (Lvl := ℕ) spec0 c V : sProp 𝕄) ⊢ dat.arrays G := by
  rw [arrBufs0_pt, arrays0_pt dat hq0 hq1 hq V G hG]
  exact (sep_mono_l (pointsTo_share (PosShare.mem_left_op_right fullShare)).1).trans BI.sep_assoc

theorem arrBufs_of_arrays0 :
    (dat.arrays G : sProp 𝕄) ⊢ Pipeline.arrBufs (Ix := Unit) (Name := ℕ) (U := UR sig nD τ) (Lvl := ℕ) spec0 c V := by
  rw [arrBufs0_pt, arrays0_pt dat hq0 hq1 hq V G hG]
  exact BI.sep_assoc'.trans (sep_mono_l (pointsTo_share (PosShare.mem_left_op_right fullShare)).2)

end Cert.Kernel.R0Share

end
-- ==== Proof.WR0Data.lean ====
import proofs.«107338_g5892695130345_cont_sun_m_578_37_alg».proof.Proof.Gen.Kernel.Launch
import proofs.«107338_g5892695130345_cont_sun_m_578_37_alg».proof.Proof.Gen.Kernel.Skeleton
import proofs.«107338_g5892695130345_cont_sun_m_578_37_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.R0

open Idealize.ShloMosaic Idealize.ShloMosaic.TcCoe
open Idealize.SL Idealize.SL.RA Idealize.SL.BI
open scoped Idealize.SL.BI
open Idealize.SL.BI.BIBase Idealize.SL.BI.Laws
open Idealize.ShloMosaic.Pipeline (Dat)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rB : Rect S512x2048 := Rect.unit (s := S512x2048) ![0, 0] S512x2048.size inb_S512x2048_S512x2048_0_0
abbrev rE (i : grid0.Coords) : Rect S8192x64 := Rect.unit (s := S8192x64) (k0_off1 i) S512x64.size (k0_off1_inb i)
abbrev rS : Rect S65x4096 := Rect.unit (s := S65x4096) ![0, 0] S65x4096.size inb_S65x4096_S65x4096_0_0
abbrev rL : Rect S65x4096 := Rect.unit (s := S65x4096) ![0, 0] S65x2048.size inb_S65x4096_S65x2048_0_0
abbrev rR : Rect S65x4096 := Rect.unit (s := S65x4096) ![0, 2048] S65x2048.size inb_S65x4096_S65x2048_0_2048
abbrev rX3 : Rect S4096x64 := Rect.unit (s := S4096x64) ![0, 0] S4096x64.size inb_S4096x64_S4096x64_0_0
abbrev rX4 : Rect S128x64 := Rect.unit (s := S128x64) ![0, 0] S128x64.size inb_S128x64_S128x64_0_0
abbrev rX5 : Rect S1x64 := Rect.unit (s := S1x64) ![0, 0] S1x64.size inb_S1x64_S1x64_0_0
abbrev rO : Rect S4096x65 := Rect.unit (s := S4096x65) ![0, 0] S4096x65.size inb_S4096x65_S4096x65_0_0

noncomputable def step0 (i : grid0.Coords) (x0 x1 : Vec F S512x2048 .f32) (x2 : Vec F S8192x64 .f32) (a : Vec F S65x4096 .f32) : Vec F S65x4096 .f32 :=
  View.canon [⟨rR, k0_pay4 (View.ld x1 rB) (View.ld x2 (rE i)) (View.ld a rR)⟩,
    ⟨rL, k0_pay3 (View.ld x0 rB) (View.ld x2 (rE i)) (View.ld a rL)⟩]

noncomputable def acc0 (c : Dev nD) : ℕ → Vec F S65x4096 .f32
  | 0 => k0_pay1
  | n + 1 => if h : n < cfg0.N then
      step0 (grid0.coords ⟨n, h⟩) (iblk0 V c 0 ⟨n, h⟩) (iblk0 V c 1 ⟨n, h⟩) (iblk0 V c 2 ⟨n, h⟩) (acc0 c n)
    else acc0 c n

noncomputable def epi0 (a : Vec F S65x4096 .f32) (x3 : Vec F S4096x64 .f32) (x4 : Vec F S128x64 .f32) (x5 x6 x7 : Vec F S1x64 .f32) : Vec F S4096x65 .f32 :=
  View.canon [⟨rO, k0_pay5 (View.ld x3 rX3) (k0_pay6 (View.ld x6 rX5)) (k0_pay7 (View.ld x7 rX5))
    (k0_pay8 (View.ld a rS) (View.ld x3 rX3) (View.ld x4 rX4) (View.ld x5 rX5))
    (k0_pay9 (View.ld a rS) (View.ld x3 rX3) (View.ld x4 rX4) (View.ld x5 rX5))⟩]

noncomputable def out0 (c : Dev nD) : Vec F S4096x65 .f32 :=
  epi0 (acc0 V c 16) (iblk0 V c 3 t0_15) (iblk0 V c 4 t0_15) (iblk0 V c 5 t0_15) (iblk0 V c 6 t0_15) (iblk0 V c 7 t0_15)

abbrev scM0 : Memref sig .tc .vmem S65x4096 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

-- Between points the scratch holds `acc0` once a point has run; before the first it holds anything.
def Phi0 (c : Dev nD) (n : ℕ) : sProp 𝕄 :=
  iprop(((∃ a, ⌜n ≠ 0 → a = acc0 V c n⌝ ∗ owns (c : Thread nD τ) scM0 fullShare a) ∗ rest0 (F := F) c) ∗ ∃ r, prngReg c r)

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0 V c
  Φ t := Phi0 V c t.val
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := by
  dsimp only [dat0]

theorem after0_8 (c : Dev nD) (t : Fin cfg0.N) : (dat0 V c).after 8 t = out0 V c := by dsimp only [dat0]

-- The body only reads its inputs: it finds each where it leaves it.
theorem before0 (c : Dev nD) (w : Fin cfg0.W) (hw : w ≠ 8) (t : Fin cfg0.N) (d) :
    (dat0 V c).before w t d = (dat0 V c).after w t := by
  fin_cases w <;> first
    | exact absurd rfl hw
    | exact ((dat0 V c).before_in_eq_fetched _ rfl (fun _ => rfl) (fun _ _ _ => rfl) (fun _ => rfl) t d).trans rfl

-- The scratch after a point is one accumulation over the scratch before it.
theorem acc0_step (c : Dev nD) (t : Fin cfg0.N) :
    acc0 V c (t.val + 1) = step0 (grid0.coords t) ((dat0 V c).after 0 t) ((dat0 V c).after 1 t) ((dat0 V c).after 2 t) (acc0 V c t.val) := by
  dsimp only [dat0]; rw [acc0, dif_pos t.isLt]

end Cert.Kernel.R0

end
-- ==== Proof.WR0Run.lean ====
import proofs.«107338_g5892695130345_cont_sun_m_578_37_alg».proof.Proof.WR0Data
import Idealize.ShloMosaic.Lib.Pipeline.Value
import Idealize.ShloMosaic.Lib.Pipeline.TableIdle

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

theorem hz2 : (![0, 0] : Fin 2 → Nat) = fun _ => 0 := funext fun a => by fin_cases a <;> rfl

theorem cover0_S (p0 : rR.shape.Idx → Elt F .f32) (p1 : rL.shape.Idx → Elt F .f32) (y : S65x4096.Idx) :
    ∃ pc ∈ ([⟨rR, p0⟩, ⟨rL, p1⟩] : List (View.Piece (Elt F) S65x4096 .f32)), y ∈ pc.1.set :=
  View.cover_of_tiled [⟨rR, p0⟩, ⟨rL, p1⟩] S65x2048.size (by rfl) y

theorem cover0_O (p0 : rO.shape.Idx → Elt F .f32) (y : S4096x65.Idx) :
    ∃ pc ∈ ([⟨rO, p0⟩] : List (View.Piece (Elt F) S4096x65 .f32)), y ∈ pc.1.set :=
  ⟨_, List.mem_singleton_self _, View.mem_set_unit_zero hz2 inb_S4096x65_S4096x65_0_0 y⟩

theorem disj_LR : Disjoint rL.set rR.set :=
  Rect.unit_disjoint (s := S65x4096) (off := ![0, 0]) (size := S65x2048.size) (off' := ![0, 2048]) (size' := S65x2048.size)
    (1 : Fin 2) (Or.inl (by decide))

theorem readCov_zero_L {sig' : RefSig} {κ : Kind} {sp : Space} (v : View sig' κ sp S65x4096 .f32) :
    v.readCov [(⟨rS, k0_pay1 (F := F)⟩ : View.Piece (Elt F) S65x4096 .f32)] rL.toLoadRect = View.ld (k0_pay1 (F := F)) rL := by
  rw [View.readCov_eq_canon_ld _ _ _ (fun y => ⟨_, List.mem_singleton_self _, View.mem_set_unit_zero hz2 inb_S65x4096_S65x4096_0_0 y⟩), View.canon_unit_zero hz2]

theorem readCov_zero_R {sig' : RefSig} {κ : Kind} {sp : Space} (v : View sig' κ sp S65x4096 .f32) (p : rL.shape.Idx → Elt F .f32) :
    v.readCov [(⟨rL, p⟩ : View.Piece (Elt F) S65x4096 .f32), ⟨rS, k0_pay1 (F := F)⟩] rR.toLoadRect = View.ld (k0_pay1 (F := F)) rR := by
  have hd : Disjoint (⟨rL, p⟩ : View.Piece (Elt F) S65x4096 .f32).1.set rR.toLoadRect.set := disj_LR
  rw [View.readCov_cons_of_disjoint v ⟨rL, p⟩ [⟨rS, k0_pay1 (F := F)⟩] rR.toLoadRect hd,
    View.readCov_eq_canon_ld _ _ _ (fun y => ⟨_, List.mem_singleton_self _, View.mem_set_unit_zero hz2 inb_S65x4096_S65x4096_0_0 y⟩), View.canon_unit_zero hz2]

variable (c : Dev nD) (E : Set ℕ) (i : grid0.Coords)
  (arg1 : Memref sig .tc .vmem S512x2048 .f32) (harg1 : arg1.IsWhole) (arg2 : Memref sig .tc .vmem S512x2048 .f32) (harg2 : arg2.IsWhole) (arg3 : Memref sig .tc .vmem S8192x64 .f32) (harg3 : arg3.IsWhole)
  (arg4 : Memref sig .tc .vmem S4096x64 .f32) (harg4 : arg4.IsWhole) (arg5 : Memref sig .tc .vmem S128x64 .f32) (harg5 : arg5.IsWhole) (arg6 : Memref sig .tc .vmem S1x64 .f32) (harg6 : arg6.IsWhole)
  (arg7 : Memref sig .tc .vmem S1x64 .f32) (harg7 : arg7.IsWhole) (arg8 : Memref sig .tc .vmem S1x64 .f32) (harg8 : arg8.IsWhole)
  (arg9 : Memref sig .tc .vmem S4096x65 .f32) (harg9 : arg9.IsWhole) (arg10 : Memref sig .tc .vmem S65x4096 .f32) (harg10 : arg10.IsWhole)
  (x0 x1 : Vec F S512x2048 .f32) (x2 : Vec F S8192x64 .f32) (x3 : Vec F S4096x64 .f32) (x4 : Vec F S128x64 .f32) (x5 x6 x7 : Vec F S1x64 .f32)
  (d : Vec F S4096x65 .f32) (a : Vec F S65x4096 .f32)

-- The eight input buffers at their contents: the body only reads them.
def ins0 : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7)

-- One point: the scratch, zeroed first at the first point, takes one accumulation; at the last point the output block takes the read-out of the new scratch.
theorem run0 (h01 : ¬(cond0_0 i ∧ cond0_1 i)) (K : PUnit → sProp 𝕄) :
    iprop(ins0 c arg1 arg2 arg3 arg4 arg5 arg6 arg7 arg8 x0 x1 x2 x3 x4 x5 x6 x7 ∗ owns (c : Thread nD τ) arg9 fullShare d ∗ owns (c : Thread nD τ) arg10 fullShare a
        ∗ (iprop(ins0 c arg1 arg2 arg3 arg4 arg5 arg6 arg7 arg8 x0 x1 x2 x3 x4 x5 x6 x7
            ∗ owns (c : Thread nD τ) arg9 fullShare (if cond0_1 i then epi0 (step0 i x0 x1 x2 (if cond0_0 i then k0_pay1 (F := F) else a)) x3 x4 x5 x6 x7 else d)
            ∗ owns (c : Thread nD τ) arg10 fullShare (step0 i x0 x1 x2 (if cond0_0 i then k0_pay1 (F := F) else a))) -∗ K ⟨⟩))
      ⊢ wp frame (wpE (defs₀ (F := F)) Variants.none c none) E (cc0__p1_body i arg1 harg1 arg2 harg2 arg3 harg3 arg4 harg4 arg5 harg5 arg6 harg6 arg7 harg7 arg8 harg8 arg9 harg9 arg10 harg10) K := by
  by_cases hc0 : cond0_0 i <;> by_cases hc1 : cond0_1 i <;> (first | rw [if_pos hc0] | rw [if_neg hc0]) <;>
    (first | rw [if_pos hc1] | rw [if_neg hc1])
  · exact absurd ⟨hc0, hc1⟩ h01
  all_goals
    simp only [cc0__p1_body_eq_skeleton, ins0, owns_eq_rep]; unfold cc0__p1_body_skel
    simp only [k0_part1_eq_skeleton]
    iintro ⟨⟨H0, H1, H2, H3, H4, H5, H6, H7⟩, H8, HA, Hk⟩
    sl_exec (disch := first | exact hc0 | exact hc1)
    sl_step
    iapply Hk
    iframe H0 H1 H2 H3 H4 H5 H6 H7
    first | iframe H8 | isplitl [H8]
  all_goals
    iapply rep_of_owns; unfold owns; iexists _; isplitr; swap; · iassumption
    ipureintro; sl_unfold_run_names
    simp only [View.readAt_eq_ld, View.read_rep]
  · rw [readCov_zero_R, readCov_zero_L,
      show ∀ (p1 p2 p3 : View.Piece (Elt F) S65x4096 .f32), [p1, p2, p3] = [p1, p2] ++ [p3] from fun _ _ _ => rfl, View.writes_append]
    exact View.read_writes_eq_canon _ _ _ (cover0_S _ _)
  · rw [View.readCov_eq_canon_ld _ _ _ (cover0_S _ _)]
    exact View.read_writes_eq_canon _ _ _ (cover0_O _)
  all_goals exact View.read_writes_eq_canon _ _ _ (cover0_S _ _)

end Cert.Kernel.R0

end
-- ==== Proof.WR0Obl.lean ====
import proofs.«107338_g5892695130345_cont_sun_m_578_37_alg».proof.Proof.WR0Run

noncomputable section

namespace Cert.Kernel.R0

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem q0_0 (c : Dev nD) : (dat0 V c).q 0 = fullShare.left := rfl
theorem q0_1 (c : Dev nD) : (dat0 V c).q 1 = fullShare.right := rfl
theorem q0_ge (c : Dev nD) : ∀ w : Fin cfg0.W, 2 ≤ w.val → (dat0 V c).q w = fullShare
  | ⟨0, _⟩, h => absurd (show 2 ≤ 0 from h) (by decide)
  | ⟨1, _⟩, h => absurd (show 2 ≤ 1 from h) (by decide)
  | ⟨_ + 2, _⟩, _ => rfl

-- The read-out is of the last point's blocks and of the scratch one accumulation past the points before.
theorem out0_at (c : Dev nD) (t : Fin cfg0.N) (ht : cond0_1 (grid0.coords t)) :
    (dat0 V c).after 8 t = epi0 (acc0 V c (t.val + 1)) ((dat0 V c).after 3 t) ((dat0 V c).after 4 t) ((dat0 V c).after 5 t)
      ((dat0 V c).after 6 t) ((dat0 V c).after 7 t) := by
  obtain rfl : t = t0_15 := Fin.ext ((hcond0_1 t).mp ht)
  dsimp only [dat0]; rfl

-- The core's scratch is the accumulator and a rest the body never touches.
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ rest0 (F := F) c) := by
  simp only [owns_whole]
  exact Pipeline.scopedRest_split_of_list spec0 c [cc0_scratch0] (by decide) (by decide)

theorem phi0_in (c : Dev nD) :
    iprop((∃ r, prngReg c r) ∗ Pipeline.scopedRest (Ix := Unit) (Name := ℕ) (U := UR sig nD τ) (Lvl := ℕ) (Val := Elt F) spec0 c) ⊢ (dat0 V c).Φ 0 := by
  rw [scopedRest0_split]
  show _ ⊢ Phi0 V c 0
  unfold Phi0
  iintro ⟨Hp, ⟨%a, HS⟩, Hr⟩
  iframe Hp Hr
  iexists a; iframe HS
  ipureintro; exact fun h => absurd rfl h

theorem phi0_out (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c) := by
  rw [scopedRest0_split]
  show Phi0 V c _ ⊢ _
  unfold Phi0
  iintro ⟨⟨⟨%a, -, HS⟩, Hr⟩, Hp⟩
  iframe Hp Hr
  iexists a; iexact HS

theorem leaves0 (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

theorem body_obligation0 (c : Dev nD) : BodyObligation (dat0 (F := F) V c) (defs₀ (F := F)) Variants.none () Set.univ := fun t => by
  show iprop(Phi0 V c t.val ∗ _ ∗ bigSep Finset.univ fun w : Fin cfg0.W => iprop(∃ d, owns (c : Thread nD τ) ((cfg0.win w).stage (cfg0.slots t w)) fullShare ((dat0 V c).before w t d)))
    ⊢ wp _ _ _ (bodyAt0 t) fun _ => iprop(Phi0 V c (t.val + 1) ∗ (dat0 V c).owesAt () t.castSucc ∗ bigSep Finset.univ fun w : Fin cfg0.W => (dat0 V c).leavesExact w t)
  rw [bigSep_W0, bigSep_W0]
  unfold Phi0 bodyAt0
  simp (disch := first | decide | exact rfl) only [before0, leaves0]
  by_cases h1 : cond0_1 (grid0.coords t)
  on_goal 1 => rw [leaves0 V c t 8 (liveAt0_8 t h1), out0_at V c t h1]
  on_goal 2 => rw [Dat.leavesExact_idle _ 8 t (idleAt0_8 t h1) (noFlush0_8 t h1)]
  all_goals
    rw [acc0_step]
    iintro ⟨⟨⟨⟨%a, %ha, HS⟩, Hr⟩, Hg⟩, Ho, ⟨%_, H0⟩, ⟨%_, H1⟩, ⟨%_, H2⟩, ⟨%_, H3⟩, ⟨%_, H4⟩, ⟨%_, H5⟩, ⟨%_, H6⟩, ⟨%_, H7⟩, ⟨%d, H8⟩⟩
    have hA : (if cond0_0 (grid0.coords t) then k0_pay1 (F := F) else a) = acc0 V c t.val := by
      by_cases h0 : t.val = 0
      · rw [if_pos ((hcond0_0 t).mpr h0), h0]; rfl
      · rw [if_neg (mt (hcond0_0 t).mp h0), ha h0]
    iapply run0 c Set.univ (grid0.coords t) _ _ _ _ _ _ _ _ _ _ _ _ _ _ _ _ _ _ _ _ ((dat0 V c).after 0 t) ((dat0 V c).after 1 t) ((dat0 V c).after 2 t) ((dat0 V c).after 3 t) ((dat0 V c).after 4 t) ((dat0 V c).after 5 t) ((dat0 V c).after 6 t) ((dat0 V c).after 7 t) ((dat0 V c).before 8 t d) a
      (fun h => by have := (hcond0_0 t).mp h.1; have := (hcond0_1 t).mp h.2; omega) _
    rw [hA]; first | rw [if_pos h1] | rw [if_neg h1]
    unfold ins0
    iframe H0 H1 H2 H3 H4 H5 H6 H7 H8 HS
    iintro ⟨⟨H0, H1, H2, H3, H4, H5, H6, H7⟩, H8, HS⟩
    iframe Hr Hg Ho H0 H1 H2 H3 H4 H5 H6 H7
    isplitl [HS]
    · iexists _; iframe HS; ipureintro; exact fun _ => rfl
    first | iexact H8 | (iexists d; iexact H8)

end Cert.Kernel.R0

end
-- ==== Proof.WR1Data.lean ====
import proofs.«107338_g5892695130345_cont_sun_m_578_37_alg».proof.Proof.Gen.Kernel.Launch
import proofs.«107338_g5892695130345_cont_sun_m_578_37_alg».proof.Proof.Gen.Kernel.Skeleton
import proofs.«107338_g5892695130345_cont_sun_m_578_37_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hz2 : (![0, 0] : Fin 2 → Nat) = fun _ => 0 := funext fun a => by fin_cases a <;> rfl

def rows1 (i : grid1.Coords) (x1 : Vec F S8192x64 .f32) : Vec F S512x64 .f32 :=
  View.ld x1 (Rect.unit (s := S8192x64) (k1_off1 i) S512x64.size (k1_off1_inb i))

def step1 (i : grid1.Coords) (x0 : Vec F S512x4096 .f32) (x1 : Vec F S8192x64 .f32) (x2 : Vec F S4096x65 .f32)
    (x3 : Vec F S128x64 .f32) (x4 x5 x6 : Vec F S1x64 .f32) (a : Vec F S65x4096 .f32) : Vec F S65x4096 .f32 :=
  k1_pay1 (k1_pay10 x0) (rows1 i x1) (k1_pay11 x0 x2 (rows1 i x1) x3 x4) (k1_pay12 x5) (k1_pay13 x6) a

def epi1 (x2 : Vec F S4096x65 .f32) (x7 : Vec F S128x64 .f32) (x8 x9 x10 : Vec F S1x64 .f32) (x11 : Vec F S64x1 .f32)
    (x12 : Vec F S1x1 .f32) (a : Vec F S65x4096 .f32) : Vec F S4096x1 .f32 :=
  k1_pay2 (k1_pay3 x2) (k1_pay4 x9) (k1_pay5 x10) (k1_pay6 a x2 x7 x8) (k1_pay7 a x2 x7 x8) (k1_pay8 (F := F)) x11 x12

def acc1 (c : Dev nD) : ℕ → Vec F S65x4096 .f32
  | 0 => k1_pay9 (F := F)
  | n + 1 =>
    if h : n < cfg1.N then
      step1 (grid1.coords ⟨n, h⟩) (iblk1 V c 0 ⟨n, h⟩) (iblk1 V c 1 ⟨n, h⟩) (iblk1 V c 2 ⟨n, h⟩) (iblk1 V c 3 ⟨n, h⟩)
        (iblk1 V c 4 ⟨n, h⟩) (iblk1 V c 5 ⟨n, h⟩) (iblk1 V c 6 ⟨n, h⟩) (acc1 c n)
    else acc1 c n

theorem acc1_succ (c : Dev nD) (t : Fin cfg1.N) :
    acc1 V c (t.val + 1) = step1 (grid1.coords t) (iblk1 V c 0 t) (iblk1 V c 1 t) (iblk1 V c 2 t) (iblk1 V c 3 t)
      (iblk1 V c 4 t) (iblk1 V c 5 t) (iblk1 V c 6 t) (acc1 V c t.val) := by
  obtain ⟨n, hn⟩ := t
  exact dif_pos hn

def out1 (c : Dev nD) : Vec F S4096x1 .f32 :=
  epi1 (iblk1 V c 2 t1_15) (iblk1 V c 7 t1_15) (iblk1 V c 8 t1_15) (iblk1 V c 9 t1_15) (iblk1 V c 10 t1_15)
    (iblk1 V c 11 t1_15) (iblk1 V c 12 t1_15) (acc1 V c 16)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1
theorem hcond1_1 : ∀ t : Fin cfg1.N, cond1_1 (grid1.coords t) ↔ t.val = 15 :=
  (by decide +kernel : ∀ t : Fin grid1.N, cond1_1 (grid1.coords t) ↔ t.val = 15)

theorem idleAt1_13 : ∀ t : Fin cfg1.N, ¬cond1_1 (grid1.coords t) → cfg1.idle 13 (grid1.coords t) = true := by decide +kernel
theorem noFlush1_13 : ∀ t : Fin cfg1.N, ¬cond1_1 (grid1.coords t) → (cfg1.win 13).flush t = false := by decide +kernel
theorem liveAt1_13 : ∀ t : Fin cfg1.N, cond1_1 (grid1.coords t) → cfg1.idle 13 (grid1.coords t) = false := by decide +kernel

abbrev scM1 : Memref sig .tc .vmem S65x4096 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

-- The region's scratch is the accumulator and a rest the body never touches.
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ rest1 (F := F) c) := by
  simp only [owns_whole]
  exact Pipeline.scopedRest_split_of_list spec1 c [cc1_scratch0] (by decide) (by decide)

-- Between panels the accumulator holds `acc1` once a panel has run; before the first it holds anything.
def Phi1 (c : Dev nD) (n : ℕ) : sProp 𝕄 :=
  iprop(((∃ a, ⌜n ≠ 0 → a = acc1 V c n⌝ ∗ owns (c : Thread nD τ) scM1 fullShare a) ∗ rest1 (F := F) c) ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1 V c
  Φ t := Phi1 V c t.val
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := rfl

theorem after1_13 (c : Dev nD) (t : Fin cfg1.N) : (dat1 V c).after 13 t = out1 V c := by dsimp only [dat1]

-- The body only reads its inputs: it finds each where it leaves it.
theorem before1 (c : Dev nD) (w : Fin cfg1.W) (hw : w ≠ 13) (t : Fin cfg1.N) (d) :
    (dat1 V c).before w t d = (dat1 V c).after w t := by
  fin_cases w <;> first
    | exact absurd rfl hw
    | exact ((dat1 V c).before_in_eq_fetched _ rfl (fun _ => rfl) (fun _ _ _ => rfl) (fun _ => rfl) t d).trans rfl

-- `acc1_succ`, over what the body leaves in the windows.
theorem acc1_step (c : Dev nD) (t : Fin cfg1.N) :
    acc1 V c (t.val + 1) = step1 (grid1.coords t) ((dat1 V c).after 0 t) ((dat1 V c).after 1 t) ((dat1 V c).after 2 t)
      ((dat1 V c).after 3 t) ((dat1 V c).after 4 t) ((dat1 V c).after 5 t) ((dat1 V c).after 6 t) (acc1 V c t.val) := by
  dsimp only [dat1]; exact acc1_succ V c t

end Cert.Kernel.R1

end
-- ==== Proof.WR1Run.lean ====
import proofs.«107338_g5892695130345_cont_sun_m_578_37_alg».proof.Proof.WR1Data
import Idealize.ShloMosaic.Lib.Pipeline.Value
import Idealize.ShloMosaic.Lib.Pipeline.TableIdle

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (E : Set ℕ) (i : grid1.Coords) (arg1 : Memref sig .tc .vmem S512x4096 .f32) (harg1 : arg1.IsWhole) (arg2 : Memref sig .tc .vmem S8192x64 .f32) (harg2 : arg2.IsWhole) (arg3 : Memref sig .tc .vmem S4096x65 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S4096x1 .f32) (harg14 : arg14.IsWhole) (arg15 : Memref sig .tc .vmem S65x4096 .f32) (harg15 : arg15.IsWhole)
  (x0 : Vec F S512x4096 .f32) (x1 : Vec F S8192x64 .f32) (x2 : Vec F S4096x65 .f32) (x3 : Vec F S128x64 .f32) (x4 : Vec F S1x64 .f32) (x5 : Vec F S1x64 .f32) (x6 : Vec F S1x64 .f32) (x7 : Vec F S128x64 .f32) (x8 : Vec F S1x64 .f32) (x9 : Vec F S1x64 .f32) (x10 : Vec F S1x64 .f32) (x11 : Vec F S64x1 .f32) (x12 : Vec F S1x1 .f32) (d : Vec F S4096x1 .f32) (a : Vec F S65x4096 .f32)

-- The thirteen input buffers at their contents: the body only reads them.
def ins1 : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12)

-- A whole-buffer store made last leaves its payload, whatever was stored before.
theorem read_store {S : Shape} (m : Memref sig .tc .vmem S .f32) (f) {off : Fin S.rank → Nat} (h : off = fun _ => 0) (inb) (w : Vec F S .f32) (L) :
    m.view.read (Elt F) (m.view.writes (Elt F) f (⟨Rect.unit off S.size inb, w⟩ :: L)) = w :=
  (View.read_writes_eq_canon _ _ _ fun y => ⟨_, List.mem_cons.mpr (Or.inl rfl), View.mem_set_unit_zero h inb y⟩).trans
    (View.canon_cons_unit_zero h inb w L)

-- One panel: the accumulator, zeroed first at the first panel, takes one step; at the last panel the output block takes the read-out of the new accumulator.
theorem run1 (h01 : ¬(cond1_0 i ∧ cond1_1 i)) (K : PUnit → sProp 𝕄) :
    iprop(ins1 c arg1 arg2 arg3 arg4 arg5 arg6 arg7 arg8 arg9 arg10 arg11 arg12 arg13 x0 x1 x2 x3 x4 x5 x6 x7 x8 x9 x10 x11 x12 ∗ owns (c : Thread nD τ) arg14 fullShare d ∗ owns (c : Thread nD τ) arg15 fullShare a
        ∗ (iprop(ins1 c arg1 arg2 arg3 arg4 arg5 arg6 arg7 arg8 arg9 arg10 arg11 arg12 arg13 x0 x1 x2 x3 x4 x5 x6 x7 x8 x9 x10 x11 x12
            ∗ owns (c : Thread nD τ) arg14 fullShare (if cond1_1 i then epi1 x2 x7 x8 x9 x10 x11 x12 (step1 i x0 x1 x2 x3 x4 x5 x6 (if cond1_0 i then k1_pay9 (F := F) else a)) else d)
            ∗ owns (c : Thread nD τ) arg15 fullShare (step1 i x0 x1 x2 x3 x4 x5 x6 (if cond1_0 i then k1_pay9 (F := F) else a))) -∗ K ⟨⟩))
      ⊢ wp frame (wpE (defs₀ (F := F)) Variants.none c none) E (cc1__p2_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  by_cases hc0 : cond1_0 i <;> by_cases hc1 : cond1_1 i <;> (first | rw [if_pos hc0] | rw [if_neg hc0]) <;>
    (first | rw [if_pos hc1] | rw [if_neg hc1])
  · exact absurd ⟨hc0, hc1⟩ h01
  all_goals
    simp only [cc1__p2_body_eq_skeleton, ins1, owns_eq_rep]; unfold cc1__p2_body_skel
    iintro ⟨⟨H0, H1, H2, H3, H4, H5, H6, H7, H8, H9, H10, H11, H12⟩, H13, HS, Hk⟩
    sl_exec (disch := first | exact hc0 | exact hc1)
    sl_step
    iapply Hk
    iframe H0 H1 H2 H3 H4 H5 H6 H7 H8 H9 H10 H11 H12
    first | iframe H13 | isplitl [H13]
  all_goals
    iapply rep_of_owns; unfold owns; iexists _; isplitr; swap; · iassumption
    ipureintro; sl_unfold_run_names; rw [read_store _ _ hz2]
    simp only [epi1, step1, rows1, View.readAt_eq_ld, View.read_rep, View.ld_unit_zero (S := S512x4096) hz2, View.ld_unit_zero (S := S4096x65) hz2, View.ld_unit_zero (S := S128x64) hz2, View.ld_unit_zero (S := S1x64) hz2, View.ld_unit_zero (S := S64x1) hz2, View.ld_unit_zero (S := S1x1) hz2, View.ld_unit_zero (S := S65x4096) hz2,
      View.readCov_unit_zero (S := S65x4096) _ hz2]

end Cert.Kernel.R1

end
-- ==== Proof.WR1Obl.lean ====
import proofs.«107338_g5892695130345_cont_sun_m_578_37_alg».proof.Proof.WR1Run

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem leaves1 (c : Dev nD) (t : Fin cfg1.N) (w : Fin cfg1.W) (h : cfg1.idle w (grid1.coords t) = false) :
    (dat1 V c).leavesExact w t = owns (c : Thread nD τ) ((cfg1.win w).stage (cfg1.slots t w)) fullShare ((dat1 V c).after w t) := by
  unfold Dat.leavesExact; rw [h]

-- The read-out is of the last panel's blocks and of the accumulator one step past the panels before.
theorem out1_at (c : Dev nD) (t : Fin cfg1.N) (ht : cond1_1 (grid1.coords t)) :
    (dat1 V c).after 13 t = epi1 ((dat1 V c).after 2 t) ((dat1 V c).after 7 t) ((dat1 V c).after 8 t) ((dat1 V c).after 9 t) ((dat1 V c).after 10 t)
      ((dat1 V c).after 11 t) ((dat1 V c).after 12 t) (acc1 V c (t.val + 1)) := by
  obtain rfl : t = t1_15 := Fin.ext ((hcond1_1 t).mp ht)
  dsimp only [dat1]; rfl

theorem body_obligation1 (c : Dev nD) : BodyObligation (dat1 (F := F) V c) (defs₀ (F := F)) Variants.none () Set.univ := fun t => by
  show iprop(Phi1 V c t.val ∗ _ ∗ bigSep Finset.univ fun w : Fin cfg1.W => iprop(∃ d, owns (c : Thread nD τ) ((cfg1.win w).stage (cfg1.slots t w)) fullShare ((dat1 V c).before w t d)))
    ⊢ wp _ _ _ (bodyAt1 t) fun _ => iprop(Phi1 V c (t.val + 1) ∗ (dat1 V c).owesAt () t.castSucc ∗ bigSep Finset.univ fun w : Fin cfg1.W => (dat1 V c).leavesExact w t)
  rw [bigSep_W1, bigSep_W1]
  unfold Phi1 bodyAt1
  simp (disch := first | decide | exact rfl) only [before1, leaves1]
  by_cases h1 : cond1_1 (grid1.coords t)
  on_goal 1 => rw [leaves1 V c t 13 (liveAt1_13 t h1), out1_at V c t h1]
  on_goal 2 => rw [Dat.leavesExact_idle _ 13 t (idleAt1_13 t h1) (noFlush1_13 t h1)]
  all_goals
    rw [acc1_step]
    iintro ⟨⟨⟨⟨%a, %ha, HS⟩, Hr⟩, Hg⟩, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%d, H13⟩⟩
    have hA : (if cond1_0 (grid1.coords t) then k1_pay9 (F := F) else a) = acc1 V c t.val := by
      by_cases h0 : t.val = 0
      · rw [if_pos ((hcond1_0 t).mpr h0), h0]; rfl
      · rw [if_neg (mt (hcond1_0 t).mp h0), ha h0]
    iapply run1 c Set.univ (grid1.coords t) _ _ _ _ _ _ _ _ _ _ _ _ _ _ _ _ _ _ _ _ _ _ _ _ _ _ _ _ _ _ ((dat1 V c).after 0 t) ((dat1 V c).after 1 t) ((dat1 V c).after 2 t) ((dat1 V c).after 3 t) ((dat1 V c).after 4 t) ((dat1 V c).after 5 t) ((dat1 V c).after 6 t) ((dat1 V c).after 7 t) ((dat1 V c).after 8 t) ((dat1 V c).after 9 t) ((dat1 V c).after 10 t) ((dat1 V c).after 11 t) ((dat1 V c).after 12 t) ((dat1 V c).before 13 t d) a
      (fun h => by have := (hcond1_0 t).mp h.1; have := (hcond1_1 t).mp h.2; omega) _
    rw [hA]; first | rw [if_pos h1] | rw [if_neg h1]
    unfold ins1
    iframe H0 H1 H2 H3 H4 H5 H6 H7 H8 H9 H10 H11 H12 H13 HS
    iintro ⟨⟨H0, H1, H2, H3, H4, H5, H6, H7, H8, H9, H10, H11, H12⟩, H13, HS⟩
    iframe Hr Hg Ho H0 H1 H2 H3 H4 H5 H6 H7 H8 H9 H10 H11 H12
    isplitl [HS]
    · iexists _; iframe HS; ipureintro; exact fun _ => rfl
    first | iexact H13 | (iexists d; iexact H13)

theorem phi1_in (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [scopedRest1_split]
  show _ ⊢ Phi1 V c 0
  unfold Phi1
  iintro ⟨Hp, ⟨%a, HS⟩, Hr⟩
  iframe Hp Hr
  iexists a; iframe HS
  ipureintro; exact fun h => absurd rfl h

theorem phi1_out (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [scopedRest1_split]
  show Phi1 V c _ ⊢ _
  unfold Phi1
  iintro ⟨⟨⟨%a, -, HS⟩, Hr⟩, Hp⟩
  iframe Hp Hr
  iexists a; iexact HS

theorem q1_all (c : Dev nD) (w : Fin cfg1.W) : (dat1 V c).q w = fullShare := rfl

end Cert.Kernel.R1

end
-- ==== Proof.WKRun.lean ====
import proofs.«107338_g5892695130345_cont_sun_m_578_37_alg».proof.Proof.WRunCond
import proofs.«107338_g5892695130345_cont_sun_m_578_37_alg».proof.Proof.WR0Share
import proofs.«107338_g5892695130345_cont_sun_m_578_37_alg».proof.Proof.WR0Obl
import proofs.«107338_g5892695130345_cont_sun_m_578_37_alg».proof.Proof.WR1Obl
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.R0Share

variable {F : FTy → Type} [FloatOps F]

local notation "𝕄" => MT nD τ sig Unit (Elt F) ℕ (UR sig nD τ) ℕ

abbrev Entry (F : FTy → Type) [FloatOps F] : Type := (c : Dev nD) → (b : Ref sig .tc) → Buf (Elt F) ((c : Thread nD τ).loc b)

theorem update_update_self {α : Type} [DecidableEq α] {β : α → Type} (f : ∀ a, β a) (a a' : α) (h : a' = a) (x : β a') :
    Function.update f a (Function.update f a' x a) = Function.update f a' x := by
  subst h; rw [Function.update_self]

variable (m : (ℓ : Loc nD τ sig) → Buf (Elt F) ℓ)

abbrev E1 : Entry F := fun c b => Gen.V1 m c b

def updArr0 (c : Dev nD) (W : Valuation τ sig (Elt F)) (w : Fin cfg0.W)
    (x : Buf (Elt F) ((cfg0.win w).arr.view.loc (c.tc : Thread nD τ))) : Valuation τ sig (Elt F) :=
  Function.update W (Proc.devRef .tc (Pipeline.arrRef spec0 w)) x

def W2 (c : Dev nD) : Valuation τ sig (Elt F) := updArr0 c (Gen.V1 m c) 8 ((R0.dat0 (E1 m) c).arrAt 8 cfg0.N)

def outsA : Gen.Outs (F := F) := fun _ r c => W2 m c r

theorem V2_outsA (c : Dev nD) : Gen.V2 m (outsA m) c = W2 m c := by
  show Function.update (Gen.V1 m c) (Proc.devRef .tc main_v12) (W2 m c (Proc.devRef .tc main_v12)) = W2 m c
  unfold W2 updArr0
  exact update_update_self _ _ _ (by decide) _

abbrev E3 : Entry F := fun c b => Gen.V3 m (outsA m) c b

def updArr1 (c : Dev nD) (W : Valuation τ sig (Elt F)) (w : Fin cfg1.W)
    (x : Buf (Elt F) ((cfg1.win w).arr.view.loc (c.tc : Thread nD τ))) : Valuation τ sig (Elt F) :=
  Function.update W (Proc.devRef .tc (Pipeline.arrRef spec1 w)) x

def W4 (c : Dev nD) : Valuation τ sig (Elt F) := updArr1 c (Gen.V3 m (outsA m) c) 13 ((R1.dat1 (E3 m) c).arrAt 13 cfg1.N)

def outs : Gen.Outs (F := F) := fun J r c => if J = 4 then W4 m c r else W2 m c r

theorem V2_outs (c : Dev nD) : Gen.V2 m (outs m) c = W2 m c := V2_outsA m c

theorem V3_outs (c : Dev nD) : Gen.V3 m (outs m) c = Gen.V3 m (outsA m) c := by
  show StableHlo.after hostOps1 (Gen.V2 m (outs m) c) = StableHlo.after hostOps1 (Gen.V2 m (outsA m) c)
  rw [V2_outs, V2_outsA]

theorem V4_outs (c : Dev nD) : Gen.V4 m (outs m) c = W4 m c := by
  show Function.update (Gen.V3 m (outs m) c) (Proc.devRef .tc main_v39) (W4 m c (Proc.devRef .tc main_v39)) = W4 m c
  rw [V3_outs]
  unfold W4 updArr1
  exact update_update_self _ _ _ (by decide) _

def pdats : (p : Fin 2) → (c : Dev nD) → Dat τ (Elt F) Unit ℕ (UR sig nD τ) ℕ (cfgs p) c
  | ⟨0, _⟩ => fun c => R0.dat0 (E1 m) c
  | ⟨1, _⟩ => fun c => R1.dat1 (E3 m) c

theorem pd0 (c : Dev nD) : pdats m 0 c = R0.dat0 (E1 m) c := rfl
theorem pd1 (c : Dev nD) : pdats m 1 c = R1.dat1 (E3 m) c := rfl

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

theorem hG0 (c : Dev nD) (w : Fin cfg0.W) :
    (R0.dat0 (E1 m) c).arrAt w cfg0.N = W2 m c (Proc.devRef .tc (Pipeline.arrRef spec0 w)) := by
  by_cases hw : w = 8
  · subst hw; unfold W2 updArr0; rw [Function.update_self]
  · have hin : (cfg0.win w).isOut = false := by revert w; decide
    have hne : (Proc.devRef .tc (Pipeline.arrRef spec0 w) : DevRef τ sig) ≠ Proc.devRef .tc (Pipeline.arrRef spec0 8) := by
      revert w; decide
    unfold W2 updArr0
    rw [Function.update_of_ne hne, (R0.dat0 (E1 m) c).arrAt_in w hin, R0.A_eq0 (E1 m)]

theorem hrest0 (c : Dev nD) (b : Ref sig .tc) (hb : b ∉ Finset.univ.image (Pipeline.arrRef spec0)) :
    W2 m c (Proc.devRef .tc b) = Gen.V1 m c (Proc.devRef .tc b) := by
  unfold W2 updArr0
  exact Function.update_of_ne (fun e => hb (Finset.mem_image.mpr ⟨8, Finset.mem_univ _, (Proc.devRef_injective _ e).symm⟩)) _ _

def reg0 : RegionSeg (pcfgs (F := F)) Gen.adm (pdats m) () defs₀ Variants.none L lv 0 where
  win := winFacts₀0
  block_pos := block_pos0
  stage_whole := stage_whole0
  K := PEmpty
  osem k := k.elim
  ho := Pipeline.OwnSemFacts.none _
  hbody c := (R0.body_obligation0 (E1 m) c).loose
  hwaits := Pipeline.hwaits_of_owed_zero _ _ _ _ L lv 0 fun c t => R0.owed0 (E1 m) c t
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest spec0 c (E1 m c)
  hentry c := by
    rw [Pipeline.ownSems0_none, pd0 m c]
    have hsplit : (StableHlo.held (c : Thread nD τ) (Pipeline.ucRefs τ sig) (Gen.V1 m c) : sProp 𝕄)
        ⊢ iprop((R0.dat0 (E1 m) c).arrays ((R0.dat0 (E1 m) c).arrAt · 0)
            ∗ Pipeline.unscopedRest spec0 c (E1 m c)) := by
      rw [← Pipeline.unscopedBufs_held c (Gen.V1 m c),
        Pipeline.unscopedBufs_split₀ cfgs 0 winFacts₀0.arr_unscoped c (E1 m c)]
      exact sep_mono (arrays0_of_arrBufs (R0.dat0 (E1 m) c) (R0.q0_0 (E1 m) c) (R0.q0_1 (E1 m) c) (R0.q0_ge (E1 m) c) (E1 m c) _ (fun w => R0.A_eq0 (E1 m) c w)) .rfl
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr
    · ipureintro; intro x _; exact Or.inl (Set.mem_univ _)
    rw [R0.owed0 (E1 m)]; iexact HO
  hin c := by
    rw [pd0 m c]
    iintro ⟨Hp, -, Hr⟩
    iapply (R0.phi0_in (E1 m) c)
    iframe
  hout c := by
    rw [Pipeline.ownSems0_none, pd0 m c]
    iintro H
    ihave H' := (R0.phi0_out (E1 m) c) $$ H
    icases H' with ⟨Hp, Hr⟩
    iframe; iempintro
  hexit c := by
    rw [pd0 m c]
    have hjoin : (iprop((R0.dat0 (E1 m) c).arrays ((R0.dat0 (E1 m) c).arrAt · cfg0.N)
          ∗ Pipeline.unscopedRest spec0 c (E1 m c)) : sProp 𝕄)
        ⊢ StableHlo.held (c : Thread nD τ) (Pipeline.ucRefs τ sig) (Gen.V2 m (outs m) c) := by
      rw [V2_outs, ← Pipeline.unscopedBufs_held c (W2 m c),
        Pipeline.unscopedBufs_split₀ cfgs 0 winFacts₀0.arr_unscoped c (fun b => W2 m c b)]
      refine sep_mono (arrBufs_of_arrays0 (R0.dat0 (E1 m) c) (R0.q0_0 (E1 m) c) (R0.q0_1 (E1 m) c) (R0.q0_ge (E1 m) c) (fun b => W2 m c b) _ (hG0 m c)) (Entails.of_eq ?_)
      unfold Pipeline.unscopedRest
      exact bigSep_congr fun b hb => congrArg (fun f => (((c : Thread nD τ).loc b) ↦{fullShare} f : sProp 𝕄)) (hrest0 m c b (Finset.mem_sdiff.mp hb).2).symm
    unfold Pipeline.Dat.owesAt Pipeline.owesWithin
    rw [R0.owed0 (E1 m)]
    iintro ⟨Ha, HO, HY, Hrest⟩
    imodintro
    isplitl [Ha Hrest]
    · iapply hjoin; iframe
    isplitl [HY]; · iexact HY
    icases HO with ⟨%W, -, HO⟩; iexists W; iexact HO

theorem hG1 (c : Dev nD) (w : Fin cfg1.W) :
    (R1.dat1 (E3 m) c).arrAt w cfg1.N = W4 m c (Proc.devRef .tc (Pipeline.arrRef spec1 w)) := by
  by_cases hw : w = 13
  · subst hw; unfold W4 updArr1; rw [Function.update_self]
  · have hin : (cfg1.win w).isOut = false := by revert w; decide
    have hne : (Proc.devRef .tc (Pipeline.arrRef spec1 w) : DevRef τ sig) ≠ Proc.devRef .tc (Pipeline.arrRef spec1 13) := by
      revert w; decide
    unfold W4 updArr1
    rw [Function.update_of_ne hne, (R1.dat1 (E3 m) c).arrAt_in w hin, R1.A_eq1 (E3 m)]

theorem hrest1 (c : Dev nD) (b : Ref sig .tc) (hb : b ∉ Finset.univ.image (Pipeline.arrRef spec1)) :
    W4 m c (Proc.devRef .tc b) = Gen.V3 m (outsA m) c (Proc.devRef .tc b) := by
  unfold W4 updArr1
  exact Function.update_of_ne (fun e => hb (Finset.mem_image.mpr ⟨13, Finset.mem_univ _, (Proc.devRef_injective _ e).symm⟩)) _ _

set_option backward.isDefEq.respectTransparency.types false in

def reg1 : RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation1 (E3 m) c).loose
  hwaits := Pipeline.hwaits_of_owed_zero _ _ _ _ L lv 1 fun c t => R1.owed1 (E3 m) c t
  pre c := iprop(StableHlo.held (c : Thread nD τ) (Pipeline.ucRefs τ sig) (Gen.V3 m (outs m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest spec1 c (E3 m c)
  hentry c := by
    rw [Pipeline.ownSems0_none, V3_outs, pd1 m c]
    have hsplit := Pipeline.arrays_of_unscopedBufs (p := 1) (pcfgs (F := F)) Gen.adm (pdats m) launch1.win launch1.arr_whole c
      ((R1.dat1 (E3 m) c).share_full fun w => R1.q1_all (E3 m) c w) (E3 m c) fun w => R1.A_eq1 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    iframe Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr
    · ipureintro; intro x _; exact Or.inl (Set.mem_univ _)
    rw [R1.owed1 (E3 m)]; iexact HO
  hin c := by
    rw [pd1 m c]
    iintro ⟨Hp, -, Hr⟩
    iapply (R1.phi1_in (E3 m) c)
    iframe
  hout c := by
    rw [Pipeline.ownSems0_none, pd1 m c]
    iintro H
    ihave H' := (R1.phi1_out (E3 m) c) $$ H
    icases H' with ⟨Hp, Hr⟩
    iframe; iempintro
  hexit c := by
    rw [V4_outs, pd1 m c]
    have hjoin := Pipeline.unscopedBufs_of_arrays (p := 1) (pcfgs (F := F)) Gen.adm
      launch1.win launch1.arr_whole c (pdats m) ((R1.dat1 (E3 m) c).share_full fun w => R1.q1_all (E3 m) c w)
      (E3 m c) (fun b => W4 m c b) ((R1.dat1 (E3 m) c).arrAt · cfg1.N) (hG1 m c) (hrest1 m c)
    rw [Pipeline.unscopedBufs_held, pd1 m c] at hjoin
    unfold Pipeline.Dat.owesAt Pipeline.owesWithin
    rw [R1.owed1 (E3 m)]
    iintro ⟨Ha, HO, HY, Hrest⟩
    imodintro
    isplitl [Ha Hrest]
    · iapply hjoin; iframe
    isplitl [HY]; · iexact HY
    icases HO with ⟨%W, -, HO⟩; iexists W; iexact HO

set_option backward.isDefEq.respectTransparency.types false in
theorem run_main (ρ : Dev nD → PrngReg) :
    θ_run defs (onTc (τ := τ) (main (F := F))) ⟨m, fun _ => 0, ρ⟩ (fun r => ∀ c : Dev nD,
      r.2.mem ((c.tc : Thread nD τ).loc main_v40) = Gen.V5 m (outs m) c main_v40 ∧ Kept m r.2.mem c) := by
  refine Pipeline.θ_run_regions_kit_dev (pcfgs (F := F)) adm (pdats m) () cellOf_inj emb₁ defs₀ Variants.none L lv m ρ main
    (segs m (outs m) Variants.none L lv (fun _ c => Rst c) () (pdats m) (reg0 m) (reg1 m))
    (fun c Q => by
      rewrite [main_chain c, Seg.run_eq_chain,
        show (segs m (outs m) Variants.none L lv (fun _ c => Rst c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V5 m (outs m) c))
    (hch := fun c => ⟨.rfl, .rfl, .rfl, .rfl, .rfl, sep_mono .rfl (by iintro ⟨-, HO⟩; iexact HO)⟩)
    (hinit := ?_) (QY := fun c s => s.mem ((c.tc : Thread nD τ).loc main_v40) = V5 m (outs m) c main_v40 ∧ Kept m s.mem c)
    (hfin := fun c s' => ?_) (hQ := fun _ h => h)
  · exact Pipeline.initEach L lv fun c => by
      iintro ⟨⟨Hb, -, HO, -, Hp, -⟩, -⟩
      imodintro
      isplitl [Hb]; · iapply (Entails.of_eq (Pipeline.unscopedBufs_held c (V0 m c))); iexact Hb
      isplitl [Hp]; · iexists _; iexact Hp
      iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · iframe
    icases Hr with ⟨%h, HSI⟩
    imodintro
    isplitr
    · ipureintro
      have k := fun (b : Ref sig .tc) hb => h (Proc.devRef .tc b) (Finset.mem_filter.mpr ⟨StableHlo.devRef_mem_tcRefs b, hb⟩)
      exact ⟨k main_v40 (by decide), (k main_arg0 (by decide)).trans (V5_main_arg0 m (outs m) c),
        (k main_arg1 (by decide)).trans (V5_main_arg1 m (outs m) c),
        (k main_arg2 (by decide)).trans (V5_main_arg2 m (outs m) c),
        (k main_arg3 (by decide)).trans (V5_main_arg3 m (outs m) c),
        (k main_arg4 (by decide)).trans (V5_main_arg4 m (outs m) c),
        (k main_arg5 (by decide)).trans (V5_main_arg5 m (outs m) c),
        (k main_arg6 (by decide)).trans (V5_main_arg6 m (outs m) c),
        (k main_arg7 (by decide)).trans (V5_main_arg7 m (outs m) c),
        (k main_arg8 (by decide)).trans (V5_main_arg8 m (outs m) c),
        (k main_arg9 (by decide)).trans (V5_main_arg9 m (outs m) c),
        (k main_arg10 (by decide)).trans (V5_main_arg10 m (outs m) c),
        (k main_arg11 (by decide)).trans (V5_main_arg11 m (outs m) c),
        (k main_arg12 (by decide)).trans (V5_main_arg12 m (outs m) c)⟩
    · iexact HSI

end Cert.Kernel.Run

end
-- ==== Proof.RunCond.lean ====
import proofs.«107338_g5892695130345_cont_sun_m_578_37_alg».proof.Proof.Gen.KernelIdeal.Regions

noncomputable section

namespace Cert.KernelIdeal.Run

open Idealize.ShloMosaic Idealize.ShloMosaic.TcCoe
open Cert.KernelIdeal Cert.KernelIdeal.Gen

variable {F : FTy → Type} [FloatOps F]

variable (m : (ℓ : Loc nD τ sig) → Buf (Elt F) ℓ)

-- Every argument array of the memory `s` on core `c` is as in `m`.
def Kept (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)
  ∧ s ((c.tc : Thread nD τ).loc main_arg11) = m ((c.tc : Thread nD τ).loc main_arg11)
  ∧ s ((c.tc : Thread nD τ).loc main_arg12) = m ((c.tc : Thread nD τ).loc main_arg12)

end Cert.KernelIdeal.Run

end
-- ==== Proof.R0Share.lean ====
import proofs.«107338_g5892695130345_cont_sun_m_578_37_alg».proof.Proof.Gen.KernelIdeal.Launch
import Idealize.ShloMosaic.Lib.Pipeline.FrameBody
import Idealize.ShloMosaic.Lib.Pipeline.RegionsLoop

noncomputable section

namespace Cert.KernelIdeal.R0Share

open Idealize.ShloMosaic Idealize.ShloMosaic.TcCoe
open Idealize.SL Idealize.SL.RA Idealize.SL.BI
open scoped Idealize.SL.BI
open Idealize.SL.BI.BIBase Idealize.SL.BI.Laws
open Idealize.ShloMosaic.Pipeline (Dat)
open Cert.KernelIdeal Cert.KernelIdeal.Gen

variable {F : FTy → Type} [FloatOps F]

local notation "𝕄" => MT nD τ sig Unit (Elt F) ℕ (UR sig nD τ) ℕ

variable {c : Dev nD} (dat : Dat τ (Elt F) Unit ℕ (UR sig nD τ) ℕ cfg0 c)
  (hq0 : dat.q 0 = fullShare.left) (hq1 : dat.q 1 = fullShare.right)
  (hq : ∀ w : Fin cfg0.W, 2 ≤ w.val → dat.q w = fullShare)
  (V : (b : Ref sig .tc) → Buf (Elt F) ((c : Thread nD τ).loc b))
  (G : (w : Fin cfg0.W) → Buf (Elt F) ((cfg0.win w).arr.view.loc (c.tc : Thread nD τ)))
  (hG : ∀ w, G w = V (Pipeline.arrRef spec0 w))

def pt (q : PosShare TreeShare) (b : Ref sig .tc) : sProp 𝕄 := ((c : Thread nD τ).loc b) ↦{q} V b

/-- Every array but the incidence matrix, each held whole at the full share. -/
def rest : sProp 𝕄 :=
  iprop(pt V fullShare main_arg1 ∗ pt V fullShare main_arg2 ∗ pt V fullShare main_v2 ∗ pt V fullShare main_v5
    ∗ pt V fullShare main_v8 ∗ pt V fullShare main_v11 ∗ pt V fullShare main_v12)

theorem arrBufs0_pt :
    (Pipeline.arrBufs (Ix := Unit) (Name := ℕ) (U := UR sig nD τ) (Lvl := ℕ) spec0 c V : sProp 𝕄)
      = iprop(pt V fullShare main_arg0 ∗ rest V) :=
  bigSep_eq_bigSepL_of_eq [main_arg0, main_arg1, main_arg2, main_v2, main_v5, main_v8, main_v11, main_v12] (by decide) (by decide) _

include hq0 hq1 hq hG

/-- The two readers of the incidence matrix hold its two half shares; every other window is its array's sole holder. -/
theorem arrays0_pt :
    (dat.arrays G : sProp 𝕄) = iprop(pt V fullShare.left main_arg0 ∗ pt V fullShare.right main_arg0 ∗ rest V) := by
  have hs : ∀ w : Fin cfg0.W, 2 ≤ w.val → dat.share w = fullShare := fun w h => by
    unfold Dat.share; rw [hq w h, ite_self]
  have h : (dat.arrays G : sProp 𝕄) = bigSep Finset.univ fun w : Fin 9 => pt V (dat.share w) (Pipeline.arrRef spec0 w) := by
    unfold Dat.arrays pt
    exact bigSep_congr fun w _ => by rw [(arr_whole0 w).set_eq_univ, hG]
  rw [h, bigSep_W0, show dat.share 0 = _ from hq0, show dat.share 1 = _ from hq1, hs 2 (by decide), hs 3 (by decide),
    hs 4 (by decide), hs 5 (by decide), hs 6 (by decide), hs 7 (by decide), hs 8 (by decide)]
  rfl

/-- The full share of the incidence matrix is its left half and its right half. -/
theorem arrays0_of_arrBufs :
    (Pipeline.arrBufs (Ix := Unit) (Name := ℕ) (U := UR sig nD τ) (Lvl := ℕ) spec0 c V : sProp 𝕄) ⊢ dat.arrays G := by
  rw [arrBufs0_pt, arrays0_pt dat hq0 hq1 hq V G hG]
  exact (sep_mono_l (pointsTo_share (PosShare.mem_left_op_right fullShare)).1).trans BI.sep_assoc

theorem arrBufs_of_arrays0 :
    (dat.arrays G : sProp 𝕄) ⊢ Pipeline.arrBufs (Ix := Unit) (Name := ℕ) (U := UR sig nD τ) (Lvl := ℕ) spec0 c V := by
  rw [arrBufs0_pt, arrays0_pt dat hq0 hq1 hq V G hG]
  exact BI.sep_assoc'.trans (sep_mono_l (pointsTo_share (PosShare.mem_left_op_right fullShare)).2)

end Cert.KernelIdeal.R0Share

end
-- ==== Proof.R0Data.lean ====
import proofs.«107338_g5892695130345_cont_sun_m_578_37_alg».proof.Proof.Gen.KernelIdeal.Launch
import proofs.«107338_g5892695130345_cont_sun_m_578_37_alg».proof.Proof.Gen.KernelIdeal.Skeleton
import proofs.«107338_g5892695130345_cont_sun_m_578_37_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.R0

open Idealize.ShloMosaic Idealize.ShloMosaic.TcCoe
open Idealize.SL Idealize.SL.RA Idealize.SL.BI
open scoped Idealize.SL.BI
open Idealize.SL.BI.BIBase Idealize.SL.BI.Laws
open Idealize.ShloMosaic.Pipeline (Dat)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rB : Rect S512x2048 := Rect.unit (s := S512x2048) ![0, 0] S512x2048.size inb_S512x2048_S512x2048_0_0
abbrev rE (i : grid0.Coords) : Rect S8192x64 := Rect.unit (s := S8192x64) (k0_off1 i) S512x64.size (k0_off1_inb i)
abbrev rS : Rect S65x4096 := Rect.unit (s := S65x4096) ![0, 0] S65x4096.size inb_S65x4096_S65x4096_0_0
abbrev rL : Rect S65x4096 := Rect.unit (s := S65x4096) ![0, 0] S65x2048.size inb_S65x4096_S65x2048_0_0
abbrev rR : Rect S65x4096 := Rect.unit (s := S65x4096) ![0, 2048] S65x2048.size inb_S65x4096_S65x2048_0_2048
abbrev rX3 : Rect S4096x64 := Rect.unit (s := S4096x64) ![0, 0] S4096x64.size inb_S4096x64_S4096x64_0_0
abbrev rX4 : Rect S128x64 := Rect.unit (s := S128x64) ![0, 0] S128x64.size inb_S128x64_S128x64_0_0
abbrev rX5 : Rect S1x64 := Rect.unit (s := S1x64) ![0, 0] S1x64.size inb_S1x64_S1x64_0_0
abbrev rO : Rect S4096x65 := Rect.unit (s := S4096x65) ![0, 0] S4096x65.size inb_S4096x65_S4096x65_0_0

noncomputable def step0 (i : grid0.Coords) (x0 x1 : Vec F S512x2048 .f32) (x2 : Vec F S8192x64 .f32) (a : Vec F S65x4096 .f32) : Vec F S65x4096 .f32 :=
  View.canon [⟨rR, k0_pay4 (View.ld x1 rB) (View.ld x2 (rE i)) (View.ld a rR)⟩,
    ⟨rL, k0_pay3 (View.ld x0 rB) (View.ld x2 (rE i)) (View.ld a rL)⟩]

noncomputable def acc0 (c : Dev nD) : ℕ → Vec F S65x4096 .f32
  | 0 => k0_pay1
  | n + 1 => if h : n < cfg0.N then
      step0 (grid0.coords ⟨n, h⟩) (iblk0 V c 0 ⟨n, h⟩) (iblk0 V c 1 ⟨n, h⟩) (iblk0 V c 2 ⟨n, h⟩) (acc0 c n)
    else acc0 c n

noncomputable def epi0 (a : Vec F S65x4096 .f32) (x3 : Vec F S4096x64 .f32) (x4 : Vec F S128x64 .f32) (x5 x6 x7 : Vec F S1x64 .f32) : Vec F S4096x65 .f32 :=
  View.canon [⟨rO, k0_pay5 (View.ld x3 rX3) (k0_pay6 (View.ld x6 rX5)) (k0_pay7 (View.ld x7 rX5))
    (k0_pay8 (View.ld a rS) (View.ld x3 rX3) (View.ld x4 rX4) (View.ld x5 rX5))
    (k0_pay9 (View.ld a rS) (View.ld x3 rX3) (View.ld x4 rX4) (View.ld x5 rX5))⟩]

noncomputable def out0 (c : Dev nD) : Vec F S4096x65 .f32 :=
  epi0 (acc0 V c 16) (iblk0 V c 3 t0_15) (iblk0 V c 4 t0_15) (iblk0 V c 5 t0_15) (iblk0 V c 6 t0_15) (iblk0 V c 7 t0_15)

abbrev scM0 : Memref sig .tc .vmem S65x4096 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

-- Between points the scratch holds `acc0` once a point has run; before the first it holds anything.
def Phi0 (c : Dev nD) (n : ℕ) : sProp 𝕄 :=
  iprop(((∃ a, ⌜n ≠ 0 → a = acc0 V c n⌝ ∗ owns (c : Thread nD τ) scM0 fullShare a) ∗ rest0 (F := F) c) ∗ ∃ r, prngReg c r)

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0 V c
  Φ t := Phi0 V c t.val
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := by
  dsimp only [dat0]

theorem after0_8 (c : Dev nD) (t : Fin cfg0.N) : (dat0 V c).after 8 t = out0 V c := by dsimp only [dat0]

-- The body only reads its inputs: it finds each where it leaves it.
theorem before0 (c : Dev nD) (w : Fin cfg0.W) (hw : w ≠ 8) (t : Fin cfg0.N) (d) :
    (dat0 V c).before w t d = (dat0 V c).after w t := by
  fin_cases w <;> first
    | exact absurd rfl hw
    | exact ((dat0 V c).before_in_eq_fetched _ rfl (fun _ => rfl) (fun _ _ _ => rfl) (fun _ => rfl) t d).trans rfl

-- The scratch after a point is one accumulation over the scratch before it.
theorem acc0_step (c : Dev nD) (t : Fin cfg0.N) :
    acc0 V c (t.val + 1) = step0 (grid0.coords t) ((dat0 V c).after 0 t) ((dat0 V c).after 1 t) ((dat0 V c).after 2 t) (acc0 V c t.val) := by
  dsimp only [dat0]; rw [acc0, dif_pos t.isLt]

end Cert.KernelIdeal.R0

end
-- ==== Proof.R0Run.lean ====
import proofs.«107338_g5892695130345_cont_sun_m_578_37_alg».proof.Proof.R0Data
import Idealize.ShloMosaic.Lib.Pipeline.Value
import Idealize.ShloMosaic.Lib.Pipeline.TableIdle

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

theorem hz2 : (![0, 0] : Fin 2 → Nat) = fun _ => 0 := funext fun a => by fin_cases a <;> rfl

theorem cover0_S (p0 : rR.shape.Idx → Elt F .f32) (p1 : rL.shape.Idx → Elt F .f32) (y : S65x4096.Idx) :
    ∃ pc ∈ ([⟨rR, p0⟩, ⟨rL, p1⟩] : List (View.Piece (Elt F) S65x4096 .f32)), y ∈ pc.1.set :=
  View.cover_of_tiled [⟨rR, p0⟩, ⟨rL, p1⟩] S65x2048.size (by rfl) y

theorem cover0_O (p0 : rO.shape.Idx → Elt F .f32) (y : S4096x65.Idx) :
    ∃ pc ∈ ([⟨rO, p0⟩] : List (View.Piece (Elt F) S4096x65 .f32)), y ∈ pc.1.set :=
  ⟨_, List.mem_singleton_self _, View.mem_set_unit_zero hz2 inb_S4096x65_S4096x65_0_0 y⟩

theorem disj_LR : Disjoint rL.set rR.set :=
  Rect.unit_disjoint (s := S65x4096) (off := ![0, 0]) (size := S65x2048.size) (off' := ![0, 2048]) (size' := S65x2048.size)
    (1 : Fin 2) (Or.inl (by decide))

theorem readCov_zero_L {sig' : RefSig} {κ : Kind} {sp : Space} (v : View sig' κ sp S65x4096 .f32) :
    v.readCov [(⟨rS, k0_pay1 (F := F)⟩ : View.Piece (Elt F) S65x4096 .f32)] rL.toLoadRect = View.ld (k0_pay1 (F := F)) rL := by
  rw [View.readCov_eq_canon_ld _ _ _ (fun y => ⟨_, List.mem_singleton_self _, View.mem_set_unit_zero hz2 inb_S65x4096_S65x4096_0_0 y⟩), View.canon_unit_zero hz2]

theorem readCov_zero_R {sig' : RefSig} {κ : Kind} {sp : Space} (v : View sig' κ sp S65x4096 .f32) (p : rL.shape.Idx → Elt F .f32) :
    v.readCov [(⟨rL, p⟩ : View.Piece (Elt F) S65x4096 .f32), ⟨rS, k0_pay1 (F := F)⟩] rR.toLoadRect = View.ld (k0_pay1 (F := F)) rR := by
  have hd : Disjoint (⟨rL, p⟩ : View.Piece (Elt F) S65x4096 .f32).1.set rR.toLoadRect.set := disj_LR
  rw [View.readCov_cons_of_disjoint v ⟨rL, p⟩ [⟨rS, k0_pay1 (F := F)⟩] rR.toLoadRect hd,
    View.readCov_eq_canon_ld _ _ _ (fun y => ⟨_, List.mem_singleton_self _, View.mem_set_unit_zero hz2 inb_S65x4096_S65x4096_0_0 y⟩), View.canon_unit_zero hz2]

variable (c : Dev nD) (E : Set ℕ) (i : grid0.Coords)
  (arg1 : Memref sig .tc .vmem S512x2048 .f32) (harg1 : arg1.IsWhole) (arg2 : Memref sig .tc .vmem S512x2048 .f32) (harg2 : arg2.IsWhole) (arg3 : Memref sig .tc .vmem S8192x64 .f32) (harg3 : arg3.IsWhole)
  (arg4 : Memref sig .tc .vmem S4096x64 .f32) (harg4 : arg4.IsWhole) (arg5 : Memref sig .tc .vmem S128x64 .f32) (harg5 : arg5.IsWhole) (arg6 : Memref sig .tc .vmem S1x64 .f32) (harg6 : arg6.IsWhole)
  (arg7 : Memref sig .tc .vmem S1x64 .f32) (harg7 : arg7.IsWhole) (arg8 : Memref sig .tc .vmem S1x64 .f32) (harg8 : arg8.IsWhole)
  (arg9 : Memref sig .tc .vmem S4096x65 .f32) (harg9 : arg9.IsWhole) (arg10 : Memref sig .tc .vmem S65x4096 .f32) (harg10 : arg10.IsWhole)
  (x0 x1 : Vec F S512x2048 .f32) (x2 : Vec F S8192x64 .f32) (x3 : Vec F S4096x64 .f32) (x4 : Vec F S128x64 .f32) (x5 x6 x7 : Vec F S1x64 .f32)
  (d : Vec F S4096x65 .f32) (a : Vec F S65x4096 .f32)

-- The eight input buffers at their contents: the body only reads them.
def ins0 : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7)

-- One point: the scratch, zeroed first at the first point, takes one accumulation; at the last point the output block takes the read-out of the new scratch.
theorem run0 (h01 : ¬(cond0_0 i ∧ cond0_1 i)) (K : PUnit → sProp 𝕄) :
    iprop(ins0 c arg1 arg2 arg3 arg4 arg5 arg6 arg7 arg8 x0 x1 x2 x3 x4 x5 x6 x7 ∗ owns (c : Thread nD τ) arg9 fullShare d ∗ owns (c : Thread nD τ) arg10 fullShare a
        ∗ (iprop(ins0 c arg1 arg2 arg3 arg4 arg5 arg6 arg7 arg8 x0 x1 x2 x3 x4 x5 x6 x7
            ∗ owns (c : Thread nD τ) arg9 fullShare (if cond0_1 i then epi0 (step0 i x0 x1 x2 (if cond0_0 i then k0_pay1 (F := F) else a)) x3 x4 x5 x6 x7 else d)
            ∗ owns (c : Thread nD τ) arg10 fullShare (step0 i x0 x1 x2 (if cond0_0 i then k0_pay1 (F := F) else a))) -∗ K ⟨⟩))
      ⊢ wp frame (wpE (defs₀ (F := F)) Variants.none c none) E (cc0__p1_body i arg1 harg1 arg2 harg2 arg3 harg3 arg4 harg4 arg5 harg5 arg6 harg6 arg7 harg7 arg8 harg8 arg9 harg9 arg10 harg10) K := by
  by_cases hc0 : cond0_0 i <;> by_cases hc1 : cond0_1 i <;> (first | rw [if_pos hc0] | rw [if_neg hc0]) <;>
    (first | rw [if_pos hc1] | rw [if_neg hc1])
  · exact absurd ⟨hc0, hc1⟩ h01
  all_goals
    simp only [cc0__p1_body_eq_skeleton, ins0, owns_eq_rep]; unfold cc0__p1_body_skel
    simp only [k0_part1_eq_skeleton]
    iintro ⟨⟨H0, H1, H2, H3, H4, H5, H6, H7⟩, H8, HA, Hk⟩
    sl_exec (disch := first | exact hc0 | exact hc1)
    sl_step
    iapply Hk
    iframe H0 H1 H2 H3 H4 H5 H6 H7
    first | iframe H8 | isplitl [H8]
  all_goals
    iapply rep_of_owns; unfold owns; iexists _; isplitr; swap; · iassumption
    ipureintro; sl_unfold_run_names
    simp only [View.readAt_eq_ld, View.read_rep]
  · rw [readCov_zero_R, readCov_zero_L,
      show ∀ (p1 p2 p3 : View.Piece (Elt F) S65x4096 .f32), [p1, p2, p3] = [p1, p2] ++ [p3] from fun _ _ _ => rfl, View.writes_append]
    exact View.read_writes_eq_canon _ _ _ (cover0_S _ _)
  · rw [View.readCov_eq_canon_ld _ _ _ (cover0_S _ _)]
    exact View.read_writes_eq_canon _ _ _ (cover0_O _)
  all_goals exact View.read_writes_eq_canon _ _ _ (cover0_S _ _)

end Cert.KernelIdeal.R0

end
-- ==== Proof.R0Obl.lean ====
import proofs.«107338_g5892695130345_cont_sun_m_578_37_alg».proof.Proof.R0Run

noncomputable section

namespace Cert.KernelIdeal.R0

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem q0_0 (c : Dev nD) : (dat0 V c).q 0 = fullShare.left := rfl
theorem q0_1 (c : Dev nD) : (dat0 V c).q 1 = fullShare.right := rfl
theorem q0_ge (c : Dev nD) : ∀ w : Fin cfg0.W, 2 ≤ w.val → (dat0 V c).q w = fullShare
  | ⟨0, _⟩, h => absurd (show 2 ≤ 0 from h) (by decide)
  | ⟨1, _⟩, h => absurd (show 2 ≤ 1 from h) (by decide)
  | ⟨_ + 2, _⟩, _ => rfl

-- The read-out is of the last point's blocks and of the scratch one accumulation past the points before.
theorem out0_at (c : Dev nD) (t : Fin cfg0.N) (ht : cond0_1 (grid0.coords t)) :
    (dat0 V c).after 8 t = epi0 (acc0 V c (t.val + 1)) ((dat0 V c).after 3 t) ((dat0 V c).after 4 t) ((dat0 V c).after 5 t)
      ((dat0 V c).after 6 t) ((dat0 V c).after 7 t) := by
  obtain rfl : t = t0_15 := Fin.ext ((hcond0_1 t).mp ht)
  dsimp only [dat0]; rfl

-- The core's scratch is the accumulator and a rest the body never touches.
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ rest0 (F := F) c) := by
  simp only [owns_whole]
  exact Pipeline.scopedRest_split_of_list spec0 c [cc0_scratch0] (by decide) (by decide)

theorem phi0_in (c : Dev nD) :
    iprop((∃ r, prngReg c r) ∗ Pipeline.scopedRest (Ix := Unit) (Name := ℕ) (U := UR sig nD τ) (Lvl := ℕ) (Val := Elt F) spec0 c) ⊢ (dat0 V c).Φ 0 := by
  rw [scopedRest0_split]
  show _ ⊢ Phi0 V c 0
  unfold Phi0
  iintro ⟨Hp, ⟨%a, HS⟩, Hr⟩
  iframe Hp Hr
  iexists a; iframe HS
  ipureintro; exact fun h => absurd rfl h

theorem phi0_out (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c) := by
  rw [scopedRest0_split]
  show Phi0 V c _ ⊢ _
  unfold Phi0
  iintro ⟨⟨⟨%a, -, HS⟩, Hr⟩, Hp⟩
  iframe Hp Hr
  iexists a; iexact HS

theorem leaves0 (c : Dev nD) (t : Fin cfg0.N) (w : Fin cfg0.W) (h : cfg0.idle w (grid0.coords t) = false) :
    (dat0 V c).leavesExact w t = owns (c : Thread nD τ) ((cfg0.win w).stage (cfg0.slots t w)) fullShare ((dat0 V c).after w t) := by
  unfold Dat.leavesExact; rw [h]

theorem body_obligation0 (c : Dev nD) : BodyObligation (dat0 (F := F) V c) (defs₀ (F := F)) Variants.none () Set.univ := fun t => by
  show iprop(Phi0 V c t.val ∗ _ ∗ bigSep Finset.univ fun w : Fin cfg0.W => iprop(∃ d, owns (c : Thread nD τ) ((cfg0.win w).stage (cfg0.slots t w)) fullShare ((dat0 V c).before w t d)))
    ⊢ wp _ _ _ (bodyAt0 t) fun _ => iprop(Phi0 V c (t.val + 1) ∗ (dat0 V c).owesAt () t.castSucc ∗ bigSep Finset.univ fun w : Fin cfg0.W => (dat0 V c).leavesExact w t)
  rw [bigSep_W0, bigSep_W0]
  unfold Phi0 bodyAt0
  simp (disch := first | decide | exact rfl) only [before0, leaves0]
  by_cases h1 : cond0_1 (grid0.coords t)
  on_goal 1 => rw [leaves0 V c t 8 (liveAt0_8 t h1), out0_at V c t h1]
  on_goal 2 => rw [Dat.leavesExact_idle _ 8 t (idleAt0_8 t h1) (noFlush0_8 t h1)]
  all_goals
    rw [acc0_step]
    iintro ⟨⟨⟨⟨%a, %ha, HS⟩, Hr⟩, Hg⟩, Ho, ⟨%_, H0⟩, ⟨%_, H1⟩, ⟨%_, H2⟩, ⟨%_, H3⟩, ⟨%_, H4⟩, ⟨%_, H5⟩, ⟨%_, H6⟩, ⟨%_, H7⟩, ⟨%d, H8⟩⟩
    have hA : (if cond0_0 (grid0.coords t) then k0_pay1 (F := F) else a) = acc0 V c t.val := by
      by_cases h0 : t.val = 0
      · rw [if_pos ((hcond0_0 t).mpr h0), h0]; rfl
      · rw [if_neg (mt (hcond0_0 t).mp h0), ha h0]
    iapply run0 c Set.univ (grid0.coords t) _ _ _ _ _ _ _ _ _ _ _ _ _ _ _ _ _ _ _ _ ((dat0 V c).after 0 t) ((dat0 V c).after 1 t) ((dat0 V c).after 2 t) ((dat0 V c).after 3 t) ((dat0 V c).after 4 t) ((dat0 V c).after 5 t) ((dat0 V c).after 6 t) ((dat0 V c).after 7 t) ((dat0 V c).before 8 t d) a
      (fun h => by have := (hcond0_0 t).mp h.1; have := (hcond0_1 t).mp h.2; omega) _
    rw [hA]; first | rw [if_pos h1] | rw [if_neg h1]
    unfold ins0
    iframe H0 H1 H2 H3 H4 H5 H6 H7 H8 HS
    iintro ⟨⟨H0, H1, H2, H3, H4, H5, H6, H7⟩, H8, HS⟩
    iframe Hr Hg Ho H0 H1 H2 H3 H4 H5 H6 H7
    isplitl [HS]
    · iexists _; iframe HS; ipureintro; exact fun _ => rfl
    first | iexact H8 | (iexists d; iexact H8)

end Cert.KernelIdeal.R0

end
-- ==== Proof.R1Data.lean ====
import proofs.«107338_g5892695130345_cont_sun_m_578_37_alg».proof.Proof.Gen.KernelIdeal.Launch
import proofs.«107338_g5892695130345_cont_sun_m_578_37_alg».proof.Proof.Gen.KernelIdeal.Skeleton
import proofs.«107338_g5892695130345_cont_sun_m_578_37_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hz2 : (![0, 0] : Fin 2 → Nat) = fun _ => 0 := funext fun a => by fin_cases a <;> rfl

def rows1 (i : grid1.Coords) (x1 : Vec F S8192x64 .f32) : Vec F S512x64 .f32 :=
  View.ld x1 (Rect.unit (s := S8192x64) (k1_off1 i) S512x64.size (k1_off1_inb i))

def step1 (i : grid1.Coords) (x0 : Vec F S512x4096 .f32) (x1 : Vec F S8192x64 .f32) (x2 : Vec F S4096x65 .f32)
    (x3 : Vec F S128x64 .f32) (x4 x5 x6 : Vec F S1x64 .f32) (a : Vec F S65x4096 .f32) : Vec F S65x4096 .f32 :=
  k1_pay1 (k1_pay10 x0) (rows1 i x1) (k1_pay11 x0 x2 (rows1 i x1) x3 x4) (k1_pay12 x5) (k1_pay13 x6) a

def epi1 (x2 : Vec F S4096x65 .f32) (x7 : Vec F S128x64 .f32) (x8 x9 x10 : Vec F S1x64 .f32) (x11 : Vec F S64x1 .f32)
    (x12 : Vec F S1x1 .f32) (a : Vec F S65x4096 .f32) : Vec F S4096x1 .f32 :=
  k1_pay2 (k1_pay3 x2) (k1_pay4 x9) (k1_pay5 x10) (k1_pay6 a x2 x7 x8) (k1_pay7 a x2 x7 x8) (k1_pay8 (F := F)) x11 x12

def acc1 (c : Dev nD) : ℕ → Vec F S65x4096 .f32
  | 0 => k1_pay9 (F := F)
  | n + 1 =>
    if h : n < cfg1.N then
      step1 (grid1.coords ⟨n, h⟩) (iblk1 V c 0 ⟨n, h⟩) (iblk1 V c 1 ⟨n, h⟩) (iblk1 V c 2 ⟨n, h⟩) (iblk1 V c 3 ⟨n, h⟩)
        (iblk1 V c 4 ⟨n, h⟩) (iblk1 V c 5 ⟨n, h⟩) (iblk1 V c 6 ⟨n, h⟩) (acc1 c n)
    else acc1 c n

theorem acc1_succ (c : Dev nD) (t : Fin cfg1.N) :
    acc1 V c (t.val + 1) = step1 (grid1.coords t) (iblk1 V c 0 t) (iblk1 V c 1 t) (iblk1 V c 2 t) (iblk1 V c 3 t)
      (iblk1 V c 4 t) (iblk1 V c 5 t) (iblk1 V c 6 t) (acc1 V c t.val) := by
  obtain ⟨n, hn⟩ := t
  exact dif_pos hn

def out1 (c : Dev nD) : Vec F S4096x1 .f32 :=
  epi1 (iblk1 V c 2 t1_15) (iblk1 V c 7 t1_15) (iblk1 V c 8 t1_15) (iblk1 V c 9 t1_15) (iblk1 V c 10 t1_15)
    (iblk1 V c 11 t1_15) (iblk1 V c 12 t1_15) (acc1 V c 16)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1
theorem hcond1_1 : ∀ t : Fin cfg1.N, cond1_1 (grid1.coords t) ↔ t.val = 15 :=
  (by decide +kernel : ∀ t : Fin grid1.N, cond1_1 (grid1.coords t) ↔ t.val = 15)

theorem idleAt1_13 : ∀ t : Fin cfg1.N, ¬cond1_1 (grid1.coords t) → cfg1.idle 13 (grid1.coords t) = true := by decide +kernel
theorem noFlush1_13 : ∀ t : Fin cfg1.N, ¬cond1_1 (grid1.coords t) → (cfg1.win 13).flush t = false := by decide +kernel
theorem liveAt1_13 : ∀ t : Fin cfg1.N, cond1_1 (grid1.coords t) → cfg1.idle 13 (grid1.coords t) = false := by decide +kernel

abbrev scM1 : Memref sig .tc .vmem S65x4096 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

-- The region's scratch is the accumulator and a rest the body never touches.
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ rest1 (F := F) c) := by
  simp only [owns_whole]
  exact Pipeline.scopedRest_split_of_list spec1 c [cc1_scratch0] (by decide) (by decide)

-- Between panels the accumulator holds `acc1` once a panel has run; before the first it holds anything.
def Phi1 (c : Dev nD) (n : ℕ) : sProp 𝕄 :=
  iprop(((∃ a, ⌜n ≠ 0 → a = acc1 V c n⌝ ∗ owns (c : Thread nD τ) scM1 fullShare a) ∗ rest1 (F := F) c) ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1 V c
  Φ t := Phi1 V c t.val
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := rfl

theorem after1_13 (c : Dev nD) (t : Fin cfg1.N) : (dat1 V c).after 13 t = out1 V c := by dsimp only [dat1]

-- The body only reads its inputs: it finds each where it leaves it.
theorem before1 (c : Dev nD) (w : Fin cfg1.W) (hw : w ≠ 13) (t : Fin cfg1.N) (d) :
    (dat1 V c).before w t d = (dat1 V c).after w t := by
  fin_cases w <;> first
    | exact absurd rfl hw
    | exact ((dat1 V c).before_in_eq_fetched _ rfl (fun _ => rfl) (fun _ _ _ => rfl) (fun _ => rfl) t d).trans rfl

-- `acc1_succ`, over what the body leaves in the windows.
theorem acc1_step (c : Dev nD) (t : Fin cfg1.N) :
    acc1 V c (t.val + 1) = step1 (grid1.coords t) ((dat1 V c).after 0 t) ((dat1 V c).after 1 t) ((dat1 V c).after 2 t)
      ((dat1 V c).after 3 t) ((dat1 V c).after 4 t) ((dat1 V c).after 5 t) ((dat1 V c).after 6 t) (acc1 V c t.val) := by
  dsimp only [dat1]; exact acc1_succ V c t

end Cert.KernelIdeal.R1

end
-- ==== Proof.R1Run.lean ====
import proofs.«107338_g5892695130345_cont_sun_m_578_37_alg».proof.Proof.R1Data
import Idealize.ShloMosaic.Lib.Pipeline.Value
import Idealize.ShloMosaic.Lib.Pipeline.TableIdle

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (E : Set ℕ) (i : grid1.Coords) (arg1 : Memref sig .tc .vmem S512x4096 .f32) (harg1 : arg1.IsWhole) (arg2 : Memref sig .tc .vmem S8192x64 .f32) (harg2 : arg2.IsWhole) (arg3 : Memref sig .tc .vmem S4096x65 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S128x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x1 .f32) (harg12 : arg12.IsWhole) (arg13 : Memref sig .tc .vmem S1x1 .f32) (harg13 : arg13.IsWhole) (arg14 : Memref sig .tc .vmem S4096x1 .f32) (harg14 : arg14.IsWhole) (arg15 : Memref sig .tc .vmem S65x4096 .f32) (harg15 : arg15.IsWhole)
  (x0 : Vec F S512x4096 .f32) (x1 : Vec F S8192x64 .f32) (x2 : Vec F S4096x65 .f32) (x3 : Vec F S128x64 .f32) (x4 : Vec F S1x64 .f32) (x5 : Vec F S1x64 .f32) (x6 : Vec F S1x64 .f32) (x7 : Vec F S128x64 .f32) (x8 : Vec F S1x64 .f32) (x9 : Vec F S1x64 .f32) (x10 : Vec F S1x64 .f32) (x11 : Vec F S64x1 .f32) (x12 : Vec F S1x1 .f32) (d : Vec F S4096x1 .f32) (a : Vec F S65x4096 .f32)

-- The thirteen input buffers at their contents: the body only reads them.
def ins1 : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12)

-- A whole-buffer store made last leaves its payload, whatever was stored before.
theorem read_store {S : Shape} (m : Memref sig .tc .vmem S .f32) (f) {off : Fin S.rank → Nat} (h : off = fun _ => 0) (inb) (w : Vec F S .f32) (L) :
    m.view.read (Elt F) (m.view.writes (Elt F) f (⟨Rect.unit off S.size inb, w⟩ :: L)) = w :=
  (View.read_writes_eq_canon _ _ _ fun y => ⟨_, List.mem_cons.mpr (Or.inl rfl), View.mem_set_unit_zero h inb y⟩).trans
    (View.canon_cons_unit_zero h inb w L)

-- One panel: the accumulator, zeroed first at the first panel, takes one step; at the last panel the output block takes the read-out of the new accumulator.
theorem run1 (h01 : ¬(cond1_0 i ∧ cond1_1 i)) (K : PUnit → sProp 𝕄) :
    iprop(ins1 c arg1 arg2 arg3 arg4 arg5 arg6 arg7 arg8 arg9 arg10 arg11 arg12 arg13 x0 x1 x2 x3 x4 x5 x6 x7 x8 x9 x10 x11 x12 ∗ owns (c : Thread nD τ) arg14 fullShare d ∗ owns (c : Thread nD τ) arg15 fullShare a
        ∗ (iprop(ins1 c arg1 arg2 arg3 arg4 arg5 arg6 arg7 arg8 arg9 arg10 arg11 arg12 arg13 x0 x1 x2 x3 x4 x5 x6 x7 x8 x9 x10 x11 x12
            ∗ owns (c : Thread nD τ) arg14 fullShare (if cond1_1 i then epi1 x2 x7 x8 x9 x10 x11 x12 (step1 i x0 x1 x2 x3 x4 x5 x6 (if cond1_0 i then k1_pay9 (F := F) else a)) else d)
            ∗ owns (c : Thread nD τ) arg15 fullShare (step1 i x0 x1 x2 x3 x4 x5 x6 (if cond1_0 i then k1_pay9 (F := F) else a))) -∗ K ⟨⟩))
      ⊢ wp frame (wpE (defs₀ (F := F)) Variants.none c none) E (cc1__p2_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  by_cases hc0 : cond1_0 i <;> by_cases hc1 : cond1_1 i <;> (first | rw [if_pos hc0] | rw [if_neg hc0]) <;>
    (first | rw [if_pos hc1] | rw [if_neg hc1])
  · exact absurd ⟨hc0, hc1⟩ h01
  all_goals
    simp only [cc1__p2_body_eq_skeleton, ins1, owns_eq_rep]; unfold cc1__p2_body_skel
    iintro ⟨⟨H0, H1, H2, H3, H4, H5, H6, H7, H8, H9, H10, H11, H12⟩, H13, HS, Hk⟩
    sl_exec (disch := first | exact hc0 | exact hc1)
    sl_step
    iapply Hk
    iframe H0 H1 H2 H3 H4 H5 H6 H7 H8 H9 H10 H11 H12
    first | iframe H13 | isplitl [H13]
  all_goals
    iapply rep_of_owns; unfold owns; iexists _; isplitr; swap; · iassumption
    ipureintro; sl_unfold_run_names; rw [read_store _ _ hz2]
    simp only [epi1, step1, rows1, View.readAt_eq_ld, View.read_rep, View.ld_unit_zero (S := S512x4096) hz2, View.ld_unit_zero (S := S4096x65) hz2, View.ld_unit_zero (S := S128x64) hz2, View.ld_unit_zero (S := S1x64) hz2, View.ld_unit_zero (S := S64x1) hz2, View.ld_unit_zero (S := S1x1) hz2, View.ld_unit_zero (S := S65x4096) hz2,
      View.readCov_unit_zero (S := S65x4096) _ hz2]

end Cert.KernelIdeal.R1

end
-- ==== Proof.R1Obl.lean ====
import proofs.«107338_g5892695130345_cont_sun_m_578_37_alg».proof.Proof.R1Run

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem leaves1 (c : Dev nD) (t : Fin cfg1.N) (w : Fin cfg1.W) (h : cfg1.idle w (grid1.coords t) = false) :
    (dat1 V c).leavesExact w t = owns (c : Thread nD τ) ((cfg1.win w).stage (cfg1.slots t w)) fullShare ((dat1 V c).after w t) := by
  unfold Dat.leavesExact; rw [h]

-- The read-out is of the last panel's blocks and of the accumulator one step past the panels before.
theorem out1_at (c : Dev nD) (t : Fin cfg1.N) (ht : cond1_1 (grid1.coords t)) :
    (dat1 V c).after 13 t = epi1 ((dat1 V c).after 2 t) ((dat1 V c).after 7 t) ((dat1 V c).after 8 t) ((dat1 V c).after 9 t) ((dat1 V c).after 10 t)
      ((dat1 V c).after 11 t) ((dat1 V c).after 12 t) (acc1 V c (t.val + 1)) := by
  obtain rfl : t = t1_15 := Fin.ext ((hcond1_1 t).mp ht)
  dsimp only [dat1]; rfl

theorem body_obligation1 (c : Dev nD) : BodyObligation (dat1 (F := F) V c) (defs₀ (F := F)) Variants.none () Set.univ := fun t => by
  show iprop(Phi1 V c t.val ∗ _ ∗ bigSep Finset.univ fun w : Fin cfg1.W => iprop(∃ d, owns (c : Thread nD τ) ((cfg1.win w).stage (cfg1.slots t w)) fullShare ((dat1 V c).before w t d)))
    ⊢ wp _ _ _ (bodyAt1 t) fun _ => iprop(Phi1 V c (t.val + 1) ∗ (dat1 V c).owesAt () t.castSucc ∗ bigSep Finset.univ fun w : Fin cfg1.W => (dat1 V c).leavesExact w t)
  rw [bigSep_W1, bigSep_W1]
  unfold Phi1 bodyAt1
  simp (disch := first | decide | exact rfl) only [before1, leaves1]
  by_cases h1 : cond1_1 (grid1.coords t)
  on_goal 1 => rw [leaves1 V c t 13 (liveAt1_13 t h1), out1_at V c t h1]
  on_goal 2 => rw [Dat.leavesExact_idle _ 13 t (idleAt1_13 t h1) (noFlush1_13 t h1)]
  all_goals
    rw [acc1_step]
    iintro ⟨⟨⟨⟨%a, %ha, HS⟩, Hr⟩, Hg⟩, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%d, H13⟩⟩
    have hA : (if cond1_0 (grid1.coords t) then k1_pay9 (F := F) else a) = acc1 V c t.val := by
      by_cases h0 : t.val = 0
      · rw [if_pos ((hcond1_0 t).mpr h0), h0]; rfl
      · rw [if_neg (mt (hcond1_0 t).mp h0), ha h0]
    iapply run1 c Set.univ (grid1.coords t) _ _ _ _ _ _ _ _ _ _ _ _ _ _ _ _ _ _ _ _ _ _ _ _ _ _ _ _ _ _ ((dat1 V c).after 0 t) ((dat1 V c).after 1 t) ((dat1 V c).after 2 t) ((dat1 V c).after 3 t) ((dat1 V c).after 4 t) ((dat1 V c).after 5 t) ((dat1 V c).after 6 t) ((dat1 V c).after 7 t) ((dat1 V c).after 8 t) ((dat1 V c).after 9 t) ((dat1 V c).after 10 t) ((dat1 V c).after 11 t) ((dat1 V c).after 12 t) ((dat1 V c).before 13 t d) a
      (fun h => by have := (hcond1_0 t).mp h.1; have := (hcond1_1 t).mp h.2; omega) _
    rw [hA]; first | rw [if_pos h1] | rw [if_neg h1]
    unfold ins1
    iframe H0 H1 H2 H3 H4 H5 H6 H7 H8 H9 H10 H11 H12 H13 HS
    iintro ⟨⟨H0, H1, H2, H3, H4, H5, H6, H7, H8, H9, H10, H11, H12⟩, H13, HS⟩
    iframe Hr Hg Ho H0 H1 H2 H3 H4 H5 H6 H7 H8 H9 H10 H11 H12
    isplitl [HS]
    · iexists _; iframe HS; ipureintro; exact fun _ => rfl
    first | iexact H13 | (iexists d; iexact H13)

theorem phi1_in (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [scopedRest1_split]
  show _ ⊢ Phi1 V c 0
  unfold Phi1
  iintro ⟨Hp, ⟨%a, HS⟩, Hr⟩
  iframe Hp Hr
  iexists a; iframe HS
  ipureintro; exact fun h => absurd rfl h

theorem phi1_out (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [scopedRest1_split]
  show Phi1 V c _ ⊢ _
  unfold Phi1
  iintro ⟨⟨⟨%a, -, HS⟩, Hr⟩, Hp⟩
  iframe Hp Hr
  iexists a; iexact HS

theorem q1_all (c : Dev nD) (w : Fin cfg1.W) : (dat1 V c).q w = fullShare := rfl

end Cert.KernelIdeal.R1

end
-- ==== Proof.KRun.lean ====
import proofs.«107338_g5892695130345_cont_sun_m_578_37_alg».proof.Proof.RunCond
import proofs.«107338_g5892695130345_cont_sun_m_578_37_alg».proof.Proof.R0Share
import proofs.«107338_g5892695130345_cont_sun_m_578_37_alg».proof.Proof.R0Obl
import proofs.«107338_g5892695130345_cont_sun_m_578_37_alg».proof.Proof.R1Obl
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.R0Share

variable {F : FTy → Type} [FloatOps F]

local notation "𝕄" => MT nD τ sig Unit (Elt F) ℕ (UR sig nD τ) ℕ

abbrev Entry (F : FTy → Type) [FloatOps F] : Type := (c : Dev nD) → (b : Ref sig .tc) → Buf (Elt F) ((c : Thread nD τ).loc b)

theorem update_update_self {α : Type} [DecidableEq α] {β : α → Type} (f : ∀ a, β a) (a a' : α) (h : a' = a) (x : β a') :
    Function.update f a (Function.update f a' x a) = Function.update f a' x := by
  subst h; rw [Function.update_self]

variable (m : (ℓ : Loc nD τ sig) → Buf (Elt F) ℓ)

abbrev E1 : Entry F := fun c b => Gen.V1 m c b

def updArr0 (c : Dev nD) (W : Valuation τ sig (Elt F)) (w : Fin cfg0.W)
    (x : Buf (Elt F) ((cfg0.win w).arr.view.loc (c.tc : Thread nD τ))) : Valuation τ sig (Elt F) :=
  Function.update W (Proc.devRef .tc (Pipeline.arrRef spec0 w)) x

def W2 (c : Dev nD) : Valuation τ sig (Elt F) := updArr0 c (Gen.V1 m c) 8 ((R0.dat0 (E1 m) c).arrAt 8 cfg0.N)

def outsA : Gen.Outs (F := F) := fun _ r c => W2 m c r

theorem V2_outsA (c : Dev nD) : Gen.V2 m (outsA m) c = W2 m c := by
  show Function.update (Gen.V1 m c) (Proc.devRef .tc main_v12) (W2 m c (Proc.devRef .tc main_v12)) = W2 m c
  unfold W2 updArr0
  exact update_update_self _ _ _ (by decide) _

abbrev E3 : Entry F := fun c b => Gen.V3 m (outsA m) c b

def updArr1 (c : Dev nD) (W : Valuation τ sig (Elt F)) (w : Fin cfg1.W)
    (x : Buf (Elt F) ((cfg1.win w).arr.view.loc (c.tc : Thread nD τ))) : Valuation τ sig (Elt F) :=
  Function.update W (Proc.devRef .tc (Pipeline.arrRef spec1 w)) x

def W4 (c : Dev nD) : Valuation τ sig (Elt F) := updArr1 c (Gen.V3 m (outsA m) c) 13 ((R1.dat1 (E3 m) c).arrAt 13 cfg1.N)

def outs : Gen.Outs (F := F) := fun J r c => if J = 4 then W4 m c r else W2 m c r

theorem V2_outs (c : Dev nD) : Gen.V2 m (outs m) c = W2 m c := V2_outsA m c

theorem V3_outs (c : Dev nD) : Gen.V3 m (outs m) c = Gen.V3 m (outsA m) c := by
  show StableHlo.after hostOps1 (Gen.V2 m (outs m) c) = StableHlo.after hostOps1 (Gen.V2 m (outsA m) c)
  rw [V2_outs, V2_outsA]

theorem V4_outs (c : Dev nD) : Gen.V4 m (outs m) c = W4 m c := by
  show Function.update (Gen.V3 m (outs m) c) (Proc.devRef .tc main_v39) (W4 m c (Proc.devRef .tc main_v39)) = W4 m c
  rw [V3_outs]
  unfold W4 updArr1
  exact update_update_self _ _ _ (by decide) _

def pdats : (p : Fin 2) → (c : Dev nD) → Dat τ (Elt F) Unit ℕ (UR sig nD τ) ℕ (cfgs p) c
  | ⟨0, _⟩ => fun c => R0.dat0 (E1 m) c
  | ⟨1, _⟩ => fun c => R1.dat1 (E3 m) c

theorem pd0 (c : Dev nD) : pdats m 0 c = R0.dat0 (E1 m) c := rfl
theorem pd1 (c : Dev nD) : pdats m 1 c = R1.dat1 (E3 m) c := rfl

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

theorem hG0 (c : Dev nD) (w : Fin cfg0.W) :
    (R0.dat0 (E1 m) c).arrAt w cfg0.N = W2 m c (Proc.devRef .tc (Pipeline.arrRef spec0 w)) := by
  by_cases hw : w = 8
  · subst hw; unfold W2 updArr0; rw [Function.update_self]
  · have hin : (cfg0.win w).isOut = false := by revert w; decide
    have hne : (Proc.devRef .tc (Pipeline.arrRef spec0 w) : DevRef τ sig) ≠ Proc.devRef .tc (Pipeline.arrRef spec0 8) := by
      revert w; decide
    unfold W2 updArr0
    rw [Function.update_of_ne hne, (R0.dat0 (E1 m) c).arrAt_in w hin, R0.A_eq0 (E1 m)]

theorem hrest0 (c : Dev nD) (b : Ref sig .tc) (hb : b ∉ Finset.univ.image (Pipeline.arrRef spec0)) :
    W2 m c (Proc.devRef .tc b) = Gen.V1 m c (Proc.devRef .tc b) := by
  unfold W2 updArr0
  exact Function.update_of_ne (fun e => hb (Finset.mem_image.mpr ⟨8, Finset.mem_univ _, (Proc.devRef_injective _ e).symm⟩)) _ _

def reg0 : RegionSeg (pcfgs (F := F)) Gen.adm (pdats m) () defs₀ Variants.none L lv 0 where
  win := winFacts₀0
  block_pos := block_pos0
  stage_whole := stage_whole0
  K := PEmpty
  osem k := k.elim
  ho := Pipeline.OwnSemFacts.none _
  hbody c := (R0.body_obligation0 (E1 m) c).loose
  hwaits := Pipeline.hwaits_of_owed_zero _ _ _ _ L lv 0 fun c t => R0.owed0 (E1 m) c t
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest spec0 c (E1 m c)
  hentry c := by
    rw [Pipeline.ownSems0_none, pd0 m c]
    have hsplit : (StableHlo.held (c : Thread nD τ) (Pipeline.ucRefs τ sig) (Gen.V1 m c) : sProp 𝕄)
        ⊢ iprop((R0.dat0 (E1 m) c).arrays ((R0.dat0 (E1 m) c).arrAt · 0)
            ∗ Pipeline.unscopedRest spec0 c (E1 m c)) := by
      rw [← Pipeline.unscopedBufs_held c (Gen.V1 m c),
        Pipeline.unscopedBufs_split₀ cfgs 0 winFacts₀0.arr_unscoped c (E1 m c)]
      exact sep_mono (arrays0_of_arrBufs (R0.dat0 (E1 m) c) (R0.q0_0 (E1 m) c) (R0.q0_1 (E1 m) c) (R0.q0_ge (E1 m) c) (E1 m c) _ (fun w => R0.A_eq0 (E1 m) c w)) .rfl
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr
    · ipureintro; intro x _; exact Or.inl (Set.mem_univ _)
    rw [R0.owed0 (E1 m)]; iexact HO
  hin c := by
    rw [pd0 m c]
    iintro ⟨Hp, -, Hr⟩
    iapply (R0.phi0_in (E1 m) c)
    iframe
  hout c := by
    rw [Pipeline.ownSems0_none, pd0 m c]
    iintro H
    ihave H' := (R0.phi0_out (E1 m) c) $$ H
    icases H' with ⟨Hp, Hr⟩
    iframe; iempintro
  hexit c := by
    rw [pd0 m c]
    have hjoin : (iprop((R0.dat0 (E1 m) c).arrays ((R0.dat0 (E1 m) c).arrAt · cfg0.N)
          ∗ Pipeline.unscopedRest spec0 c (E1 m c)) : sProp 𝕄)
        ⊢ StableHlo.held (c : Thread nD τ) (Pipeline.ucRefs τ sig) (Gen.V2 m (outs m) c) := by
      rw [V2_outs, ← Pipeline.unscopedBufs_held c (W2 m c),
        Pipeline.unscopedBufs_split₀ cfgs 0 winFacts₀0.arr_unscoped c (fun b => W2 m c b)]
      refine sep_mono (arrBufs_of_arrays0 (R0.dat0 (E1 m) c) (R0.q0_0 (E1 m) c) (R0.q0_1 (E1 m) c) (R0.q0_ge (E1 m) c) (fun b => W2 m c b) _ (hG0 m c)) (Entails.of_eq ?_)
      unfold Pipeline.unscopedRest
      exact bigSep_congr fun b hb => congrArg (fun f => (((c : Thread nD τ).loc b) ↦{fullShare} f : sProp 𝕄)) (hrest0 m c b (Finset.mem_sdiff.mp hb).2).symm
    unfold Pipeline.Dat.owesAt Pipeline.owesWithin
    rw [R0.owed0 (E1 m)]
    iintro ⟨Ha, HO, HY, Hrest⟩
    imodintro
    isplitl [Ha Hrest]
    · iapply hjoin; iframe
    isplitl [HY]; · iexact HY
    icases HO with ⟨%W, -, HO⟩; iexists W; iexact HO

theorem hG1 (c : Dev nD) (w : Fin cfg1.W) :
    (R1.dat1 (E3 m) c).arrAt w cfg1.N = W4 m c (Proc.devRef .tc (Pipeline.arrRef spec1 w)) := by
  by_cases hw : w = 13
  · subst hw; unfold W4 updArr1; rw [Function.update_self]
  · have hin : (cfg1.win w).isOut = false := by revert w; decide
    have hne : (Proc.devRef .tc (Pipeline.arrRef spec1 w) : DevRef τ sig) ≠ Proc.devRef .tc (Pipeline.arrRef spec1 13) := by
      revert w; decide
    unfold W4 updArr1
    rw [Function.update_of_ne hne, (R1.dat1 (E3 m) c).arrAt_in w hin, R1.A_eq1 (E3 m)]

theorem hrest1 (c : Dev nD) (b : Ref sig .tc) (hb : b ∉ Finset.univ.image (Pipeline.arrRef spec1)) :
    W4 m c (Proc.devRef .tc b) = Gen.V3 m (outsA m) c (Proc.devRef .tc b) := by
  unfold W4 updArr1
  exact Function.update_of_ne (fun e => hb (Finset.mem_image.mpr ⟨13, Finset.mem_univ _, (Proc.devRef_injective _ e).symm⟩)) _ _

set_option backward.isDefEq.respectTransparency.types false in

def reg1 : RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (R1.body_obligation1 (E3 m) c).loose
  hwaits := Pipeline.hwaits_of_owed_zero _ _ _ _ L lv 1 fun c t => R1.owed1 (E3 m) c t
  pre c := iprop(StableHlo.held (c : Thread nD τ) (Pipeline.ucRefs τ sig) (Gen.V3 m (outs m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest spec1 c (E3 m c)
  hentry c := by
    rw [Pipeline.ownSems0_none, V3_outs, pd1 m c]
    have hsplit := Pipeline.arrays_of_unscopedBufs (p := 1) (pcfgs (F := F)) Gen.adm (pdats m) launch1.win launch1.arr_whole c
      ((R1.dat1 (E3 m) c).share_full fun w => R1.q1_all (E3 m) c w) (E3 m c) fun w => R1.A_eq1 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    iframe Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr
    · ipureintro; intro x _; exact Or.inl (Set.mem_univ _)
    rw [R1.owed1 (E3 m)]; iexact HO
  hin c := by
    rw [pd1 m c]
    iintro ⟨Hp, -, Hr⟩
    iapply (R1.phi1_in (E3 m) c)
    iframe
  hout c := by
    rw [Pipeline.ownSems0_none, pd1 m c]
    iintro H
    ihave H' := (R1.phi1_out (E3 m) c) $$ H
    icases H' with ⟨Hp, Hr⟩
    iframe; iempintro
  hexit c := by
    rw [V4_outs, pd1 m c]
    have hjoin := Pipeline.unscopedBufs_of_arrays (p := 1) (pcfgs (F := F)) Gen.adm
      launch1.win launch1.arr_whole c (pdats m) ((R1.dat1 (E3 m) c).share_full fun w => R1.q1_all (E3 m) c w)
      (E3 m c) (fun b => W4 m c b) ((R1.dat1 (E3 m) c).arrAt · cfg1.N) (hG1 m c) (hrest1 m c)
    rw [Pipeline.unscopedBufs_held, pd1 m c] at hjoin
    unfold Pipeline.Dat.owesAt Pipeline.owesWithin
    rw [R1.owed1 (E3 m)]
    iintro ⟨Ha, HO, HY, Hrest⟩
    imodintro
    isplitl [Ha Hrest]
    · iapply hjoin; iframe
    isplitl [HY]; · iexact HY
    icases HO with ⟨%W, -, HO⟩; iexists W; iexact HO

set_option backward.isDefEq.respectTransparency.types false in
theorem run_main (ρ : Dev nD → PrngReg) :
    θ_run defs (onTc (τ := τ) (main (F := F))) ⟨m, fun _ => 0, ρ⟩ (fun r => ∀ c : Dev nD,
      r.2.mem ((c.tc : Thread nD τ).loc main_v40) = Gen.V5 m (outs m) c main_v40 ∧ Kept m r.2.mem c) := by
  refine Pipeline.θ_run_regions_kit_dev (pcfgs (F := F)) adm (pdats m) () cellOf_inj emb₁ defs₀ Variants.none L lv m ρ main
    (segs m (outs m) Variants.none L lv (fun _ c => Rst c) () (pdats m) (reg0 m) (reg1 m))
    (fun c Q => by
      rewrite [main_chain c, Seg.run_eq_chain,
        show (segs m (outs m) Variants.none L lv (fun _ c => Rst c) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V5 m (outs m) c))
    (hch := fun c => ⟨.rfl, .rfl, .rfl, .rfl, .rfl, sep_mono .rfl (by iintro ⟨-, HO⟩; iexact HO)⟩)
    (hinit := ?_) (QY := fun c s => s.mem ((c.tc : Thread nD τ).loc main_v40) = V5 m (outs m) c main_v40 ∧ Kept m s.mem c)
    (hfin := fun c s' => ?_) (hQ := fun _ h => h)
  · exact Pipeline.initEach L lv fun c => by
      iintro ⟨⟨Hb, -, HO, -, Hp, -⟩, -⟩
      imodintro
      isplitl [Hb]; · iapply (Entails.of_eq (Pipeline.unscopedBufs_held c (V0 m c))); iexact Hb
      isplitl [Hp]; · iexists _; iexact Hp
      iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · iframe
    icases Hr with ⟨%h, HSI⟩
    imodintro
    isplitr
    · ipureintro
      have k := fun (b : Ref sig .tc) hb => h (Proc.devRef .tc b) (Finset.mem_filter.mpr ⟨StableHlo.devRef_mem_tcRefs b, hb⟩)
      exact ⟨k main_v40 (by decide), (k main_arg0 (by decide)).trans (V5_main_arg0 m (outs m) c),
        (k main_arg1 (by decide)).trans (V5_main_arg1 m (outs m) c),
        (k main_arg2 (by decide)).trans (V5_main_arg2 m (outs m) c),
        (k main_arg3 (by decide)).trans (V5_main_arg3 m (outs m) c),
        (k main_arg4 (by decide)).trans (V5_main_arg4 m (outs m) c),
        (k main_arg5 (by decide)).trans (V5_main_arg5 m (outs m) c),
        (k main_arg6 (by decide)).trans (V5_main_arg6 m (outs m) c),
        (k main_arg7 (by decide)).trans (V5_main_arg7 m (outs m) c),
        (k main_arg8 (by decide)).trans (V5_main_arg8 m (outs m) c),
        (k main_arg9 (by decide)).trans (V5_main_arg9 m (outs m) c),
        (k main_arg10 (by decide)).trans (V5_main_arg10 m (outs m) c),
        (k main_arg11 (by decide)).trans (V5_main_arg11 m (outs m) c),
        (k main_arg12 (by decide)).trans (V5_main_arg12 m (outs m) c)⟩
    · iexact HSI

end Cert.KernelIdeal.Run

end
-- ==== Proof.Model.lean ====
import Mathlib.Analysis.SpecialFunctions.Sqrt
import Mathlib.Analysis.SpecialFunctions.Exp
import Mathlib.Algebra.BigOperators.Fin

noncomputable section

namespace HGNet

open Finset

structure Consts where
  eps6 : ℝ
  eps5 : ℝ
  beta : ℝ
  n64 : ℝ

variable (κ : Consts)

-- A degree floored at eps6.
def clipDeg (s : ℝ) : ℝ := max κ.eps6 s

def mean64 (h : Fin 64 → ℝ) : ℝ := (∑ k, h k) / κ.n64

def var64 (h : Fin 64 → ℝ) : ℝ := (∑ k, (h k - mean64 κ h) * (h k - mean64 κ h)) / κ.n64

-- A row of 64 centred, scaled by the root of its variance plus eps5, then gain and shift.
def layerNorm (h g b : Fin 64 → ℝ) (d : Fin 64) : ℝ :=
  (h d - mean64 κ h) / Real.sqrt (var64 κ h + κ.eps5) * g d + b d

def cat (self msg : Fin 64 → ℝ) (k : Fin 128) : ℝ :=
  if h : k.val < 64 then self ⟨k.val, h⟩ else msg ⟨k.val - 64, by omega⟩

def mlp (x : Fin 128 → ℝ) (W : Fin 64 → Fin 128 → ℝ) (b : Fin 64 → ℝ) (d : Fin 64) : ℝ :=
  max ((∑ k, x k * W d k) + b d) 0

-- One residual update: the own features plus the normalised rectified affine image of own features and message.
def upd (self msg : Fin 64 → ℝ) (W : Fin 64 → Fin 128 → ℝ) (b g bt : Fin 64 → ℝ) (d : Fin 64) : ℝ :=
  self d + layerNorm κ (mlp (cat self msg) W b) g bt d

variable (A : Fin 8192 → Fin 4096 → ℝ)

def edgeDeg (j : Fin 4096) : ℝ := clipDeg κ (∑ i, A i j)
def nodeDeg (i : Fin 8192) : ℝ := clipDeg κ (∑ j, A i j)

def edgeMsg (n : Fin 8192 → Fin 64 → ℝ) (j : Fin 4096) (d : Fin 64) : ℝ := (∑ i, A i j * n i d) / edgeDeg κ A j
def nodeMsg (e : Fin 4096 → Fin 64 → ℝ) (i : Fin 8192) (d : Fin 64) : ℝ := (∑ j, A i j * e j d) / nodeDeg κ A i

structure Params where
  eW : Fin 2 → Fin 64 → Fin 128 → ℝ
  eb : Fin 2 → Fin 64 → ℝ
  eg : Fin 2 → Fin 64 → ℝ
  ebt : Fin 2 → Fin 64 → ℝ
  nW : Fin 2 → Fin 64 → Fin 128 → ℝ
  nb : Fin 2 → Fin 64 → ℝ
  ng : Fin 2 → Fin 64 → ℝ
  nbt : Fin 2 → Fin 64 → ℝ
  dW : Fin 64 → ℝ
  db : ℝ

variable (P : Params) (n0 : Fin 8192 → Fin 64 → ℝ) (e0 : Fin 4096 → Fin 64 → ℝ)

def e1 (j : Fin 4096) : Fin 64 → ℝ := upd κ (e0 j) (edgeMsg κ A n0 j) (P.eW 0) (P.eb 0) (P.eg 0) (P.ebt 0)
def n1 (i : Fin 8192) : Fin 64 → ℝ := upd κ (n0 i) (nodeMsg κ A (e1 κ A P n0 e0) i) (P.nW 0) (P.nb 0) (P.ng 0) (P.nbt 0)
def e2 (j : Fin 4096) : Fin 64 → ℝ :=
  upd κ (e1 κ A P n0 e0 j) (edgeMsg κ A (n1 κ A P n0 e0) j) (P.eW 1) (P.eb 1) (P.eg 1) (P.ebt 1)

def logit (j : Fin 4096) : ℝ := (∑ d, e2 κ A P n0 e0 j d * P.dW d) + P.db

-- The result: the logistic of beta times the read-out of the edge features after the second round.
def probs (j : Fin 4096) : ℝ := 1 / (1 + Real.exp (-(κ.beta * logit κ A P n0 e0 j)))

end HGNet

end
-- ==== Proof.Emb.lean ====
import Idealize.ShloMosaic.PureOps.Ideal
import Idealize.ShloMosaic.Lib.ValueIdx
import proofs.«107338_g5892695130345_cont_sun_m_578_37_alg».proof.Proof.Model

noncomputable section

namespace HGNet

open Idealize.ShloMosaic

namespace Emb

def vec {a : Nat} (f : Fin a → ℝ) : (⟨1, ![a]⟩ : Shape).Idx → EReal := fun i => ((f (i 0) : ℝ) : EReal)
def mat {a b : Nat} (f : Fin a → Fin b → ℝ) : (⟨2, ![a, b]⟩ : Shape).Idx → EReal := fun i => ((f (i 0) (i 1) : ℝ) : EReal)
def ten {a b c : Nat} (f : Fin a → Fin b → Fin c → ℝ) : (⟨3, ![a, b, c]⟩ : Shape).Idx → EReal :=
  fun i => ((f (i 0) (i 1) (i 2) : ℝ) : EReal)

end Emb

-- The constants, as the real values of the float words both programs spell.
def κ0 : Consts where
  eps6 := (Ideal.ofBits .f32 0x358637BD#32).toReal
  eps5 := (Ideal.ofBits .f32 0x3727C5AC#32).toReal
  beta := (Ideal.ofBits .f32 0x3F333333#32).toReal
  n64 := (Ideal.ofBits .f32 0x42800000#32).toReal

end HGNet

end
-- ==== Proof.IdealReal.lean ====
import Idealize.ShloMosaic.PureOps.Ideal
import Idealize.ShloMosaic.PureOps.Ideal.Laws
import Idealize.ShloMosaic.Lib.IdealHost
import Idealize.ShloMosaic.Lib.ValueIdx
import proofs.«107338_g5892695130345_cont_sun_m_578_37_alg».proof.Proof.Emb

noncomputable section

namespace HGNet.IdealReal

open Idealize.ShloMosaic

section Scalars
variable (x y : ℝ)

theorem add_coe : (x : EReal) + (y : EReal) = ((x + y : ℝ) : EReal) := (EReal.coe_add x y).symm
theorem sub_coe : (x : EReal) - (y : EReal) = ((x - y : ℝ) : EReal) := (EReal.coe_sub x y).symm
theorem mul_coe : (x : EReal) * (y : EReal) = ((x * y : ℝ) : EReal) := (EReal.coe_mul x y).symm
theorem neg_coe : -(x : EReal) = ((-x : ℝ) : EReal) := (EReal.coe_neg x).symm

-- The coercion is monotone, so it commutes with the maximum.
theorem max_coe : Max.max (x : EReal) (y : EReal) = ((Max.max x y : ℝ) : EReal) :=
  (EReal.coe_strictMono.monotone.map_max (a := x) (b := y)).symm

theorem div_coe {y : ℝ} (hy : y ≠ 0) : Ideal.div (x : EReal) (y : EReal) = ((x / y : ℝ) : EReal) := by
  rw [Ideal.div_coe hy, ← EReal.coe_mul, mul_one_div]

theorem exp_coe : Ideal.exp (x : EReal) = ((Real.exp x : ℝ) : EReal) := rfl

theorem sqrt_coe {x : ℝ} (hx : 0 ≤ x) : Ideal.sqrt (x : EReal) = ((Real.sqrt x : ℝ) : EReal) := by
  rw [Ideal.sqrt_coe, if_neg (not_lt.2 hx)]

theorem rsqrt_coe {x : ℝ} (hx : 0 < x) : Ideal.rsqrt (x : EReal) = ((1 / Real.sqrt x : ℝ) : EReal) := by
  rw [Ideal.rsqrt_coe, if_neg (not_lt.2 hx.le), if_neg hx.ne', one_div]

theorem logistic_coe : Ideal.logistic (x : EReal) = ((1 / (1 + Real.exp (-x)) : ℝ) : EReal) := by
  rw [Ideal.logistic_coe, one_div]

end Scalars

theorem sum_coe {ι : Type*} [Fintype ι] (f : ι → ℝ) : (∑ k, ((f k : ℝ) : EReal)) = ((∑ k, f k : ℝ) : EReal) := by
  classical
  induction (Finset.univ : Finset ι) using Finset.induction_on with
  | empty => simp
  | insert a s ha ih => rw [Finset.sum_insert ha, Finset.sum_insert ha, ih, EReal.coe_add]

-- An extended real equal to a coerced real is the coercion of its real part.
theorem coe_toReal_of_eq {x : EReal} {r : ℝ} (h : x = (r : EReal)) : x = ((x.toReal : ℝ) : EReal) := by
  rw [h, EReal.toReal_coe]
theorem toReal_pos_of_eq {x : EReal} {r : ℝ} (h : x = (r : EReal)) (hr : 0 < r) : 0 < x.toReal := by
  rw [h, EReal.toReal_coe]; exact hr

theorem ofBits_eps6_val : Ideal.ofBits .f32 0x358637BD#32 = ((8796093 * (2 ^ 43)⁻¹ : ℝ) : EReal) := by
  simp [Ideal.ofBits, Ideal.ieee, -EReal.coe_mul]
theorem eps6_pos : 0 < κ0.eps6 := toReal_pos_of_eq ofBits_eps6_val (by positivity)
theorem ofBits_eps6 : Ideal.ofBits .f32 0x358637BD#32 = ((κ0.eps6 : ℝ) : EReal) := coe_toReal_of_eq ofBits_eps6_val

theorem ofBits_eps5_val : Ideal.ofBits .f32 0x3727C5AC#32 = ((10995116 * (2 ^ 40)⁻¹ : ℝ) : EReal) := by
  simp [Ideal.ofBits, Ideal.ieee, -EReal.coe_mul]
theorem eps5_pos : 0 < κ0.eps5 := toReal_pos_of_eq ofBits_eps5_val (by positivity)
theorem ofBits_eps5 : Ideal.ofBits .f32 0x3727C5AC#32 = ((κ0.eps5 : ℝ) : EReal) := coe_toReal_of_eq ofBits_eps5_val

theorem ofBits_beta : Ideal.ofBits .f32 0x3F333333#32 = ((κ0.beta : ℝ) : EReal) :=
  coe_toReal_of_eq (r := 11744051 * (2 ^ 24)⁻¹) (by simp [Ideal.ofBits, Ideal.ieee, -EReal.coe_mul])

theorem ofBits_n64_val : Ideal.ofBits .f32 0x42800000#32 = ((64 : ℝ) : EReal) := by
  simp [Ideal.ofBits, Ideal.ieee, -EReal.coe_mul]; norm_num
theorem n64_pos : 0 < κ0.n64 := toReal_pos_of_eq ofBits_n64_val (by norm_num)
theorem n64_ne_zero : κ0.n64 ≠ 0 := n64_pos.ne'
theorem ofBits_n64 : Ideal.ofBits .f32 0x42800000#32 = ((κ0.n64 : ℝ) : EReal) := coe_toReal_of_eq ofBits_n64_val

theorem ofBits_one : Ideal.ofBits .f32 0x3F800000#32 = ((1 : ℝ) : EReal) := by
  rw [Ideal.ofBits_one_f32, EReal.coe_one]
theorem ofBits_zero : Ideal.ofBits .f32 0x00000000#32 = ((0 : ℝ) : EReal) := by
  rw [Ideal.ofBits_zero_f32, EReal.coe_zero]

end HGNet.IdealReal

end
-- ==== Proof.LibRowNet.lean ====
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«107338_g5892695130345_cont_sun_m_578_37_alg».proof.Proof.IdealReal

noncomputable section

namespace HGNet.RowNet

open Idealize.ShloMosaic Idealize.ShloMosaic.ValueIdx HGNet

theorem mat_ext {a b : Nat} {α : Type} {x y : (⟨2, ![a, b]⟩ : Shape).Idx → α} (h : ∀ p q, x (ix2 p q) = y (ix2 p q)) :
    x = y :=
  funext fun j => (congrArg x (eq_ix2 j)).trans ((h _ _).trans (congrArg y (eq_ix2 j)).symm)

theorem mat_apply {a b : Nat} (f : Fin a → Fin b → ℝ) (p : Fin a) (q : Fin b) :
    Emb.mat f (ix2 p q) = ((f p q : ℝ) : EReal) := rfl

theorem mat_congr {a b : Nat} {f g : Fin a → Fin b → ℝ} (h : ∀ p q, f p q = g p q) : Emb.mat f = Emb.mat g := by
  have : f = g := funext fun p => funext fun q => h p q
  rw [this]

section Pointwise
variable {a b : Nat} {φ : FTy} (X Y : Fin a → Fin b → ℝ)

theorem addf_mat : addf (F := Ideal) (φ := φ) (Emb.mat X) (Emb.mat Y) = Emb.mat (fun p q => X p q + Y p q) :=
  funext fun _ => IdealReal.add_coe _ _
theorem subf_mat : subf (F := Ideal) (φ := φ) (Emb.mat X) (Emb.mat Y) = Emb.mat (fun p q => X p q - Y p q) :=
  funext fun _ => IdealReal.sub_coe _ _
theorem mulf_mat : mulf (F := Ideal) (φ := φ) (Emb.mat X) (Emb.mat Y) = Emb.mat (fun p q => X p q * Y p q) :=
  funext fun _ => IdealReal.mul_coe _ _
theorem maximumf_mat :
    maximumf (F := Ideal) (φ := φ) (Emb.mat X) (Emb.mat Y) = Emb.mat (fun p q => max (X p q) (Y p q)) :=
  funext fun _ => IdealReal.max_coe _ _
theorem divf_mat (hY : ∀ p q, Y p q ≠ 0) :
    divf (F := Ideal) (φ := φ) (Emb.mat X) (Emb.mat Y) = Emb.mat (fun p q => X p q / Y p q) :=
  funext fun _ => IdealReal.div_coe _ (hY _ _)
theorem rsqrt_mat (hX : ∀ p q, 0 < X p q) :
    rsqrt (F := Ideal) (φ := φ) (Emb.mat X) = Emb.mat (fun p q => 1 / Real.sqrt (X p q)) :=
  funext fun _ => IdealReal.rsqrt_coe (hX _ _)
theorem logistic_mat :
    logistic (F := Ideal) (φ := φ) (Emb.mat X) = Emb.mat (fun p q => 1 / (1 + Real.exp (-(X p q)))) :=
  funext fun _ => IdealReal.logistic_coe _
theorem truncf_id {s : Shape} {ψ : FTy} (x : FVec Ideal s φ) (h : ψ.bits < φ.bits) :
    truncf (F := Ideal) ψ x h = x := rfl

end Pointwise

theorem broadcast_mat {a b : Nat} (r : ℝ) :
    broadcast (⟨2, ![a, b]⟩ : Shape) ((r : ℝ) : EReal) = Emb.mat (fun (_ : Fin a) (_ : Fin b) => r) := rfl

theorem scalar_eps6 : Scalar.ofBits (F := Ideal) .f32 0x358637BD#32 = ((κ0.eps6 : ℝ) : EReal) := IdealReal.ofBits_eps6
theorem scalar_eps5 : Scalar.ofBits (F := Ideal) .f32 0x3727C5AC#32 = ((κ0.eps5 : ℝ) : EReal) := IdealReal.ofBits_eps5
theorem scalar_n64 : Scalar.ofBits (F := Ideal) .f32 0x42800000#32 = ((κ0.n64 : ℝ) : EReal) := IdealReal.ofBits_n64
theorem scalar_one : Scalar.ofBits (F := Ideal) .f32 0x3F800000#32 = ((1 : ℝ) : EReal) := IdealReal.ofBits_one
theorem scalar_zero : Scalar.ofBits (F := Ideal) .f32 0x00000000#32 = ((0 : ℝ) : EReal) := IdealReal.ofBits_zero

section Layout
variable {a b : Nat}

-- A coordinate of a broadcast's source: zero if that axis has size one, else the target's coordinate.
theorem val_eq_ite {n : Nat} (i : Fin n) : i.val = if n = 1 then 0 else i.val := by
  split
  · have := i.isLt; omega
  · rfl

theorem sliceLead_mat {m : Nat} (X : Fin a → Fin b → ℝ)
    (h : (⟨2, ![a, b]⟩ : Shape).Slices ![0, 0] ⟨2, ![a, m]⟩) (hm : m ≤ b) :
    extractStridedSlice ⟨2, ![a, m]⟩ ![0, 0] (Emb.mat X) h = Emb.mat (fun p (j : Fin m) => X p (Fin.castLE hm j)) :=
  mat_ext fun p j => slice2_axis1_apply 0 (Emb.mat X) h p j (Fin.castLE hm j) (by simp)

theorem sliceCol_mat {o : Nat} (X : Fin a → Fin b → ℝ)
    (h : (⟨2, ![a, b]⟩ : Shape).Slices ![0, o] ⟨2, ![a, 1]⟩) (ho : o < b) :
    extractStridedSlice ⟨2, ![a, 1]⟩ ![0, o] (Emb.mat X) h = Emb.mat (fun p (_ : Fin 1) => X p ⟨o, ho⟩) :=
  mat_ext fun p j => slice2_axis1_apply o (Emb.mat X) h p j ⟨o, ho⟩ (by
    have := j.isLt
    show o = o + j.val
    omega)

theorem broadcastCol_mat (c : Fin a → Fin 1 → ℝ) (h : (⟨2, ![a, 1]⟩ : Shape).Broadcasts ⟨2, ![a, b]⟩) :
    broadcastTo ⟨2, ![a, b]⟩ (Emb.mat c) h = Emb.mat (fun p (_ : Fin b) => c p 0) :=
  mat_ext fun p q => by
    refine broadcastTo_apply (Emb.mat c) h (ix2 p q) (ix2 p (0 : Fin 1)) fun ax => ?_
    match ax with
    | ⟨0, _⟩ => exact val_eq_ite p
    | ⟨1, _⟩ => rfl

theorem broadcastRow_mat (r : Fin 1 → Fin b → ℝ) (h : (⟨2, ![1, b]⟩ : Shape).Broadcasts ⟨2, ![a, b]⟩) :
    broadcastTo ⟨2, ![a, b]⟩ (Emb.mat r) h = Emb.mat (fun (_ : Fin a) q => r 0 q) :=
  mat_ext fun p q => broadcastTo_1b_ab_apply (Emb.mat r) h p q

theorem transpose_mat (X : Fin a → Fin b → ℝ) (h : (⟨2, ![a, b]⟩ : Shape).Transposes [1, 0] ⟨2, ![b, a]⟩) :
    transpose ⟨2, ![b, a]⟩ [1, 0] (Emb.mat X) h = Emb.mat (fun j i => X i j) :=
  mat_ext fun j i => transpose_ix2_apply (Emb.mat X) h j i

theorem concat_mat {n1 n2 n : Nat} (X : Fin a → Fin n1 → ℝ) (Y : Fin a → Fin n2 → ℝ) (hn : n = n1 + n2)
    (h : Shape.Concatenates [(⟨2, ![a, n1]⟩ : Shape), ⟨2, ![a, n2]⟩] ⟨2, ![a, n]⟩ 1) :
    concatenate ⟨2, ![a, n]⟩ 1 [⟨⟨2, ![a, n1]⟩, Emb.mat X⟩, ⟨⟨2, ![a, n2]⟩, Emb.mat Y⟩] h
      = Emb.mat (fun p (k : Fin n) => if hk : k.val < n1 then X p ⟨k.val, hk⟩
          else Y p ⟨k.val - n1, by have := k.isLt; omega⟩) :=
  mat_ext fun p k => by
    by_cases hk : k.val < n1
    · rw [mat_apply, dif_pos hk]
      exact concatenate_pair_apply_left (1 : Fin 2) (Emb.mat X) (Emb.mat Y) h (ix2 p k) rfl (ix2 p ⟨k.val, hk⟩) fun
        | ⟨0, _⟩ => rfl
        | ⟨1, _⟩ => rfl
    · rw [mat_apply, dif_neg hk]
      exact concatenate_pair_apply_right (1 : Fin 2) (Emb.mat X) (Emb.mat Y) h (ix2 p k) rfl rfl
        (ix2 p ⟨k.val - n1, by have := k.isLt; omega⟩) (fun
          | ⟨0, _⟩, _ => rfl
          | ⟨1, _⟩, hax => absurd rfl hax) (by show (k.val - n1) + n1 = k.val; omega)

theorem rowSum_mat (X : Fin a → Fin b → ℝ) (hr : (⟨2, ![a, b]⟩ : Shape).Reduces [1] ⟨1, ![a]⟩)
    (hφ : FKind.Formats .f32) (hacc : (0x00000000#32 : BitVec 32) = FKind.add.neutral .f32 hφ)
    (hs : (⟨1, ![a]⟩ : Shape).ShapeCasts ⟨2, ![a, 1]⟩) :
    shapeCast ⟨2, ![a, 1]⟩ (multiReduction (F := Ideal) .add [1] ⟨1, ![a]⟩ (Emb.mat X) 0x00000000#32 hr hφ hacc) hs
      = Emb.mat (fun p (_ : Fin 1) => ∑ k : Fin b, X p k) :=
  mat_ext fun p u => by
    refine (shapeCast_apply _ hs (ix2 p u) (ix1 p) ?_).trans ?_
    · rw [Shape.rowMajor_val_one, Shape.rowMajor_val_two]
      show p.val = p.val * 1 + u.val
      have := u.isLt; omega
    · refine (Ideal.multiReduction_add_single (Emb.mat X) _ hr hφ hacc (ix1 p)).trans ?_
      show (∑ k : Fin b, Emb.mat X (hr.lift (ix1 p) k)) = (((∑ k : Fin b, X p k : ℝ)) : EReal)
      rw [← IdealReal.sum_coe]
      refine Finset.sum_congr rfl fun k _ => ?_
      rw [(eq_ix2 (hr.lift (ix1 p) k)).trans rfl]; rfl

end Layout

-- A product of two matrices read at (i, d): the sum over the shared axis.
theorem plainDot_apply {M K N : Nat} {φ₁ φ₂ : FTy} (lhs : FVec Ideal ⟨2, ![M, K]⟩ φ₁) (rhs : FVec Ideal ⟨2, ![K, N]⟩ φ₂)
    (i : Fin M) (d : Fin N) :
    Host.dotGeneral (DotDims.plain M K N) none lhs rhs (ix2 i d) = ∑ k : Fin K, lhs (ix2 i k) * rhs (ix2 k d) := by
  show FloatOps.dotGeneral (DotDims.plain M K N) none .single lhs rhs (ix2 i d) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  exact congrArg₂ (· * ·) (congrArg lhs ((eq_ix2 _).trans (congrArg (ix2 i) (Fin.ext hk))))
    (congrArg rhs ((eq_ix2 _).trans (congrArg (ix2 · d) (Fin.ext hk))))

section Product
variable (M K N : Nat)

-- Into a zero accumulator the product is the plain sum of products, hence the real matrix product.
theorem matmul_mat {φ₁ φ₂ : FTy} (D : DotDims ⟨2, ![M, K]⟩ ⟨2, ![K, N]⟩ ⟨2, ![M, N]⟩) (hD : D = DotDims.plain M K N)
    (X : Fin M → Fin K → ℝ) (Y : Fin K → Fin N → ℝ) :
    matmul (F := Ideal) (φ₁ := φ₁) (φ₂ := φ₂) D none (Emb.mat X) (Emb.mat Y)
        (constant (F := Ideal) ⟨2, ![M, N]⟩ .f32 0x00000000#32)
      = Emb.mat (fun p q => ∑ k : Fin K, X p k * Y k q) := by
  subst hD
  rw [matmul_zero_eq_dotGeneral]
  exact mat_ext fun p q => by
    rw [plainDot_apply]
    simp only [mat_apply, IdealReal.mul_coe]
    rw [IdealReal.sum_coe]

end Product

end HGNet.RowNet

end
-- ==== Proof.KHost.lean ====
import proofs.«107338_g5892695130345_cont_sun_m_578_37_alg».proof.Proof.Gen.KernelIdeal.Regions
import proofs.«107338_g5892695130345_cont_sun_m_578_37_alg».proof.Proof.LibRowNet

noncomputable section

namespace Cert.KernelIdeal.HostVal

open Idealize.ShloMosaic Idealize.ShloMosaic.TcCoe Idealize.ShloMosaic.ValueIdx
open Cert.KernelIdeal Cert.KernelIdeal.Gen
open HGNet HGNet.RowNet

variable (m : (ℓ : Loc nD τ sig) → Buf (Elt Ideal) ℓ) (c : Dev nD) (P : HGNet.Params) (outs : Gen.Outs (F := Ideal))

-- Plane l of a stack of two 64 x 128 matrices, transposed: at (k, d) the stack at (l, d, k).
theorem plane_mat (o : Nat) (l : Fin 2) (hl : l.val = o) {Y : S2x64x128.Idx → EReal} {X : Fin 2 → Fin 64 → Fin 128 → ℝ}
    (h : Y = Emb.ten X) (hs : S2x64x128.Slices ![o, 0, 0] S1x64x128) (hc : S1x64x128.ShapeCasts S64x128)
    (ht : S64x128.Transposes [1, 0] S128x64) :
    transpose S128x64 [1, 0] (shapeCast S64x128 (extractStridedSlice S1x64x128 ![o, 0, 0] Y hs) hc) ht
      = Emb.mat (fun k d => X l d k) := by
  subst h
  refine mat_ext fun k d => (transpose_ix2_apply _ ht k d).trans ((shapeCast_1ab_ab_apply _ hc d k).trans ?_)
  refine extractStridedSlice_apply _ _ hs _ (ix3 l d k) fun a => ?_
  match a with
  | ⟨0, _⟩ => exact hl
  | ⟨1, _⟩ => exact (Nat.zero_add _).symm
  | ⟨2, _⟩ => exact (Nat.zero_add _).symm

-- Row l of a 2 x 64 matrix as a 1 x 64 row.
theorem row_mat (o : Nat) (l : Fin 2) (hl : l.val = o) {Y : S2x64.Idx → EReal} {X : Fin 2 → Fin 64 → ℝ}
    (h : Y = Emb.mat X) (hs : S2x64.Slices ![o, 0] S1x64) (hc : S1x64.ShapeCasts S64) (hc' : S64.ShapeCasts S1x64) :
    shapeCast S1x64 (shapeCast S64 (extractStridedSlice S1x64 ![o, 0] Y hs) hc) hc' = Emb.mat (fun _ d => X l d) := by
  subst h
  exact mat_ext fun u d => (shapeCast_a_1a_apply _ hc' u d).trans ((shapeCast_1a_a_apply _ hc d).trans
    (slice2_axis0_apply o _ hs 0 d l hl))

-- An array that nothing before region 1 writes still holds its initial contents.
theorem V2_arg (r : Ref sig .tc) (h1 : r ∉ Gen.hostOps0_W) (h2 : r ∉ ([main_v12] : List (Ref sig .tc))) :
    Gen.V2 m outs c r = m ((c : Thread nD τ).loc r) :=
  (Gen.V2_of m outs c r h2).trans (Gen.V1_of m c r h1)

theorem V1_v2 (h : m ((c : Thread nD τ).loc main_arg3) = Emb.ten P.eW) :
    Gen.V1 m c main_v2 = Emb.mat (fun (k : Fin 128) (d : Fin 64) => P.eW 0 d k) := by
  dsimp only [Gen.V1, Gen.hostOps0]; after_results; exact plane_mat 0 0 rfl h _ _ _

theorem V1_v5 (h : m ((c : Thread nD τ).loc main_arg4) = Emb.mat P.eb) :
    Gen.V1 m c main_v5 = Emb.mat (fun (_ : Fin 1) (d : Fin 64) => P.eb 0 d) := by
  dsimp only [Gen.V1, Gen.hostOps0]; after_results; exact row_mat 0 0 rfl h _ _ _

theorem V1_v8 (h : m ((c : Thread nD τ).loc main_arg5) = Emb.mat P.eg) :
    Gen.V1 m c main_v8 = Emb.mat (fun (_ : Fin 1) (d : Fin 64) => P.eg 0 d) := by
  dsimp only [Gen.V1, Gen.hostOps0]; after_results; exact row_mat 0 0 rfl h _ _ _

theorem V1_v11 (h : m ((c : Thread nD τ).loc main_arg6) = Emb.mat P.ebt) :
    Gen.V1 m c main_v11 = Emb.mat (fun (_ : Fin 1) (d : Fin 64) => P.ebt 0 d) := by
  dsimp only [Gen.V1, Gen.hostOps0]; after_results; exact row_mat 0 0 rfl h _ _ _

theorem V3_v15 (h : m ((c : Thread nD τ).loc main_arg7) = Emb.ten P.nW) :
    Gen.V3 m outs c main_v15 = Emb.mat (fun (k : Fin 128) (d : Fin 64) => P.nW 0 d k) := by
  dsimp only [Gen.V3, Gen.hostOps1]; after_results
  exact plane_mat 0 0 rfl ((V2_arg m c outs main_arg7 (by decide) (by decide)).trans h) _ _ _

theorem V3_v18 (h : m ((c : Thread nD τ).loc main_arg8) = Emb.mat P.nb) :
    Gen.V3 m outs c main_v18 = Emb.mat (fun (_ : Fin 1) (d : Fin 64) => P.nb 0 d) := by
  dsimp only [Gen.V3, Gen.hostOps1]; after_results
  exact row_mat 0 0 rfl ((V2_arg m c outs main_arg8 (by decide) (by decide)).trans h) _ _ _

theorem V3_v21 (h : m ((c : Thread nD τ).loc main_arg9) = Emb.mat P.ng) :
    Gen.V3 m outs c main_v21 = Emb.mat (fun (_ : Fin 1) (d : Fin 64) => P.ng 0 d) := by
  dsimp only [Gen.V3, Gen.hostOps1]; after_results
  exact row_mat 0 0 rfl ((V2_arg m c outs main_arg9 (by decide) (by decide)).trans h) _ _ _

theorem V3_v24 (h : m ((c : Thread nD τ).loc main_arg10) = Emb.mat P.nbt) :
    Gen.V3 m outs c main_v24 = Emb.mat (fun (_ : Fin 1) (d : Fin 64) => P.nbt 0 d) := by
  dsimp only [Gen.V3, Gen.hostOps1]; after_results
  exact row_mat 0 0 rfl ((V2_arg m c outs main_arg10 (by decide) (by decide)).trans h) _ _ _

theorem V3_v27 (h : m ((c : Thread nD τ).loc main_arg3) = Emb.ten P.eW) :
    Gen.V3 m outs c main_v27 = Emb.mat (fun (k : Fin 128) (d : Fin 64) => P.eW 1 d k) := by
  dsimp only [Gen.V3, Gen.hostOps1]; after_results
  exact plane_mat 1 1 rfl ((V2_arg m c outs main_arg3 (by decide) (by decide)).trans h) _ _ _

theorem V3_v30 (h : m ((c : Thread nD τ).loc main_arg4) = Emb.mat P.eb) :
    Gen.V3 m outs c main_v30 = Emb.mat (fun (_ : Fin 1) (d : Fin 64) => P.eb 1 d) := by
  dsimp only [Gen.V3, Gen.hostOps1]; after_results
  exact row_mat 1 1 rfl ((V2_arg m c outs main_arg4 (by decide) (by decide)).trans h) _ _ _

theorem V3_v33 (h : m ((c : Thread nD τ).loc main_arg5) = Emb.mat P.eg) :
    Gen.V3 m outs c main_v33 = Emb.mat (fun (_ : Fin 1) (d : Fin 64) => P.eg 1 d) := by
  dsimp only [Gen.V3, Gen.hostOps1]; after_results
  exact row_mat 1 1 rfl ((V2_arg m c outs main_arg5 (by decide) (by decide)).trans h) _ _ _

theorem V3_v36 (h : m ((c : Thread nD τ).loc main_arg6) = Emb.mat P.ebt) :
    Gen.V3 m outs c main_v36 = Emb.mat (fun (_ : Fin 1) (d : Fin 64) => P.ebt 1 d) := by
  dsimp only [Gen.V3, Gen.hostOps1]; after_results
  exact row_mat 1 1 rfl ((V2_arg m c outs main_arg6 (by decide) (by decide)).trans h) _ _ _

theorem V3_v37 (h : m ((c : Thread nD τ).loc main_arg11) = Emb.mat (fun (_ : Fin 1) (d : Fin 64) => P.dW d)) :
    Gen.V3 m outs c main_v37 = Emb.mat (fun (d : Fin 64) (_ : Fin 1) => P.dW d) := by
  dsimp only [Gen.V3, Gen.hostOps1]; after_results
  refine (congrArg (shapeCast S64x1 · shapeCasts_S1x64_S64x1)
    ((V2_arg m c outs main_arg11 (by decide) (by decide)).trans h)).trans (mat_ext fun d u => ?_)
  exact shapeCast_apply _ _ _ (ix2 (0 : Fin 1) d) (by
    rw [Shape.rowMajor_val_two, Shape.rowMajor_val_two]; show 0 * 64 + d.val = d.val * 1 + u.val; omega)

theorem V3_v38 (h : m ((c : Thread nD τ).loc main_arg12) = Emb.vec (fun (_ : Fin 1) => P.db)) :
    Gen.V3 m outs c main_v38 = Emb.mat (fun (_ _ : Fin 1) => P.db) := by
  dsimp only [Gen.V3, Gen.hostOps1]; after_results
  exact (congrArg (shapeCast S1x1 · shapeCasts_S1_S1x1)
    ((V2_arg m c outs main_arg12 (by decide) (by decide)).trans h)).trans (mat_ext fun u v => shapeCast_a_1a_apply _ _ u v)

theorem V3_arg (r : Ref sig .tc) (h0 : r ∉ Gen.hostOps0_W) (h1 : r ∉ ([main_v12] : List (Ref sig .tc)))
    (h2 : r ∉ Gen.hostOps1_W) : Gen.V3 m outs c r = m ((c : Thread nD τ).loc r) :=
  (Gen.V3_of m outs c r h2).trans (V2_arg m c outs r h0 h1)

theorem V3_v12 : Gen.V3 m outs c main_v12 = outs 2 main_v12 c :=
  (Gen.V3_of m outs c main_v12 (by decide)).trans (Function.update_self _ _ _)

-- The program's result: region 1's 4096 x 1 output read as a vector of 4096.
theorem V5_v40 {X : Fin 4096 → Fin 1 → ℝ} (h : outs 4 main_v39 c = Emb.mat X) :
    Gen.V5 m outs c main_v40 = Emb.vec (fun j => X j 0) := by
  have e : Gen.V5 m outs c main_v40 = shapeCast S4096 (Gen.V4 m outs c main_v39) shapeCasts_S4096x1_S4096 := by
    dsimp only [Gen.V5, Gen.hostOps2]; after_results; rfl
  rw [e, show Gen.V4 m outs c main_v39 = _ from Function.update_self _ _ _, h]
  exact funext fun i => shapeCast_apply _ _ _ (ix2 (i 0) (0 : Fin 1)) (by
    rw [Shape.rowMajor_val_two, Shape.rowMajor_val_one]; show (i 0).val * 1 + 0 = (i 0).val; omega)

end Cert.KernelIdeal.HostVal

end
-- ==== Proof.R0Val.lean ====
import proofs.«107338_g5892695130345_cont_sun_m_578_37_alg».proof.Proof.R0Data
import Idealize.ShloMosaic.Lib.Pipeline.Value

noncomputable section

namespace Cert.KernelIdeal.R0

open Idealize.ShloMosaic Idealize.ShloMosaic.TcCoe
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

theorem hz2' : (![0, 0] : Fin 2 → Nat) = fun _ => 0 := funext fun a => by fin_cases a <;> rfl

-- A window over its whole array: its block at any point is the array.
theorem iblk0_2_eq (c : Dev nD) (t : Fin cfg0.N) : iblk0 V c 2 t = V c main_arg1 :=
  Memref.read_access_unit_zero (Elt F) main_arg1 (funext fun a => mul_eq_zero_of_left (by fin_cases a <;> rfl) _) _ (V c main_arg1)
theorem iblk0_3_eq (c : Dev nD) (t : Fin cfg0.N) : iblk0 V c 3 t = V c main_arg2 :=
  Memref.read_access_unit_zero (Elt F) main_arg2 (funext fun a => mul_eq_zero_of_left (by fin_cases a <;> rfl) _) _ (V c main_arg2)
theorem iblk0_4_eq (c : Dev nD) (t : Fin cfg0.N) : iblk0 V c 4 t = V c main_v2 :=
  Memref.read_access_unit_zero (Elt F) main_v2 (funext fun a => mul_eq_zero_of_left (by fin_cases a <;> rfl) _) _ (V c main_v2)
theorem iblk0_5_eq (c : Dev nD) (t : Fin cfg0.N) : iblk0 V c 5 t = V c main_v5 :=
  Memref.read_access_unit_zero (Elt F) main_v5 (funext fun a => mul_eq_zero_of_left (by fin_cases a <;> rfl) _) _ (V c main_v5)
theorem iblk0_6_eq (c : Dev nD) (t : Fin cfg0.N) : iblk0 V c 6 t = V c main_v8 :=
  Memref.read_access_unit_zero (Elt F) main_v8 (funext fun a => mul_eq_zero_of_left (by fin_cases a <;> rfl) _) _ (V c main_v8)
theorem iblk0_7_eq (c : Dev nD) (t : Fin cfg0.N) : iblk0 V c 7 t = V c main_v11 :=
  Memref.read_access_unit_zero (Elt F) main_v11 (funext fun a => mul_eq_zero_of_left (by fin_cases a <;> rfl) _) _ (V c main_v11)

-- The epilogue loads whole buffers and its one store is the whole block: it leaves its payload.
theorem epi0_eq (a : Vec F S65x4096 .f32) (x3 : Vec F S4096x64 .f32) (x4 : Vec F S128x64 .f32) (x5 x6 x7 : Vec F S1x64 .f32) :
    epi0 a x3 x4 x5 x6 x7 = k0_pay5 x3 (k0_pay6 x6) (k0_pay7 x7) (k0_pay8 a x3 x4 x5) (k0_pay9 a x3 x4 x5) := by
  unfold epi0
  rw [View.canon_unit_zero hz2']
  simp only [View.ld_unit_zero (S := S4096x64) hz2', View.ld_unit_zero (S := S128x64) hz2', View.ld_unit_zero (S := S1x64) hz2',
    View.ld_unit_zero (S := S65x4096) hz2']

-- The last point's block covers the output array, which therefore ends holding what the epilogue stored.
theorem arrAt0_out (c : Dev nD) : (dat0 V c).arrAt 8 cfg0.N = out0 V c :=
  (dat0 V c).arrAt_eq_of_cover 8 (out0 V c) (fun t hf => by
      have hN : cfg0.N = 16 := N_0
      obtain rfl : t = t0_15 := Fin.ext (show t.val = 15 by have := (flush0_8 t).mp hf; have := t.isLt; omega)
      show (cfg0.win 8).cut (grid0.coords t0_15) ((dat0 V c).after 8 t0_15) = _
      rw [after0_8]
      exact (Memref.read_access_unit_zero (Elt F) main_v12 (funext fun a => mul_eq_zero_of_left (by fin_cases a <;> rfl) _) _ (out0 V c)).symm)
    fun i => ⟨t0_15, (flush0_8 t0_15).mpr rfl, by
      show i ∈ ((View.whole main_v12).slice (win0_8.rect t0_15)).set
      rw [View.set_slice_whole]
      exact View.mem_set_unit_zero (funext fun a => mul_eq_zero_of_left (by fin_cases a <;> rfl) _) _ i⟩

end Cert.KernelIdeal.R0

end
-- ==== Proof.R1Val.lean ====
import proofs.«107338_g5892695130345_cont_sun_m_578_37_alg».proof.Proof.R1Data
import Idealize.ShloMosaic.Lib.Pipeline.Value

noncomputable section

namespace Cert.KernelIdeal.R1

open Idealize.ShloMosaic Idealize.ShloMosaic.TcCoe
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

-- A window over its whole array: its block at any point is the array.
theorem iblk1_1_eq (c : Dev nD) (t : Fin cfg1.N) : iblk1 V c 1 t = V c main_arg1 :=
  Memref.read_access_unit_zero (Elt F) main_arg1 (funext fun a => mul_eq_zero_of_left (by fin_cases a <;> rfl) _) _ (V c main_arg1)
theorem iblk1_2_eq (c : Dev nD) (t : Fin cfg1.N) : iblk1 V c 2 t = V c main_v12 :=
  Memref.read_access_unit_zero (Elt F) main_v12 (funext fun a => mul_eq_zero_of_left (by fin_cases a <;> rfl) _) _ (V c main_v12)
theorem iblk1_3_eq (c : Dev nD) (t : Fin cfg1.N) : iblk1 V c 3 t = V c main_v15 :=
  Memref.read_access_unit_zero (Elt F) main_v15 (funext fun a => mul_eq_zero_of_left (by fin_cases a <;> rfl) _) _ (V c main_v15)
theorem iblk1_4_eq (c : Dev nD) (t : Fin cfg1.N) : iblk1 V c 4 t = V c main_v18 :=
  Memref.read_access_unit_zero (Elt F) main_v18 (funext fun a => mul_eq_zero_of_left (by fin_cases a <;> rfl) _) _ (V c main_v18)
theorem iblk1_5_eq (c : Dev nD) (t : Fin cfg1.N) : iblk1 V c 5 t = V c main_v21 :=
  Memref.read_access_unit_zero (Elt F) main_v21 (funext fun a => mul_eq_zero_of_left (by fin_cases a <;> rfl) _) _ (V c main_v21)
theorem iblk1_6_eq (c : Dev nD) (t : Fin cfg1.N) : iblk1 V c 6 t = V c main_v24 :=
  Memref.read_access_unit_zero (Elt F) main_v24 (funext fun a => mul_eq_zero_of_left (by fin_cases a <;> rfl) _) _ (V c main_v24)
theorem iblk1_7_eq (c : Dev nD) (t : Fin cfg1.N) : iblk1 V c 7 t = V c main_v27 :=
  Memref.read_access_unit_zero (Elt F) main_v27 (funext fun a => mul_eq_zero_of_left (by fin_cases a <;> rfl) _) _ (V c main_v27)
theorem iblk1_8_eq (c : Dev nD) (t : Fin cfg1.N) : iblk1 V c 8 t = V c main_v30 :=
  Memref.read_access_unit_zero (Elt F) main_v30 (funext fun a => mul_eq_zero_of_left (by fin_cases a <;> rfl) _) _ (V c main_v30)
theorem iblk1_9_eq (c : Dev nD) (t : Fin cfg1.N) : iblk1 V c 9 t = V c main_v33 :=
  Memref.read_access_unit_zero (Elt F) main_v33 (funext fun a => mul_eq_zero_of_left (by fin_cases a <;> rfl) _) _ (V c main_v33)
theorem iblk1_10_eq (c : Dev nD) (t : Fin cfg1.N) : iblk1 V c 10 t = V c main_v36 :=
  Memref.read_access_unit_zero (Elt F) main_v36 (funext fun a => mul_eq_zero_of_left (by fin_cases a <;> rfl) _) _ (V c main_v36)
theorem iblk1_11_eq (c : Dev nD) (t : Fin cfg1.N) : iblk1 V c 11 t = V c main_v37 :=
  Memref.read_access_unit_zero (Elt F) main_v37 (funext fun a => mul_eq_zero_of_left (by fin_cases a <;> rfl) _) _ (V c main_v37)
theorem iblk1_12_eq (c : Dev nD) (t : Fin cfg1.N) : iblk1 V c 12 t = V c main_v38 :=
  Memref.read_access_unit_zero (Elt F) main_v38 (funext fun a => mul_eq_zero_of_left (by fin_cases a <;> rfl) _) _ (V c main_v38)

theorem flushed1_eq (c : Dev nD) (t : Fin cfg1.N) (hf : (cfg1.win 13).flush t = true) :
    (dat1 V c).flushed 13 t = ((cfg1.win 13).blk t).view.read (Elt F) (out1 V c) := by
  have hN : cfg1.N = 16 := N_1
  obtain rfl : t = t1_15 := Fin.ext (show t.val = 15 by have := (flush1_13 t).mp hf; have := t.isLt; omega)
  show (cfg1.win 13).cut (grid1.coords t1_15) ((dat1 V c).after 13 t1_15) = _
  rw [after1_13]
  exact (Memref.read_access_unit_zero (Elt F) main_v39 (funext fun a => mul_eq_zero_of_left (by fin_cases a <;> rfl) _) _ (out1 V c)).symm

-- The last point's block covers the result array, which therefore ends holding the read-out.
theorem arrAt1_out (c : Dev nD) : (dat1 V c).arrAt 13 cfg1.N = out1 V c :=
  (dat1 V c).arrAt_eq_of_cover 13 (out1 V c) (flushed1_eq V c) fun i =>
    ⟨t1_15, (flush1_13 t1_15).mpr rfl, by
      show i ∈ ((View.whole main_v39).slice (win1_13.rect t1_15)).set
      rw [View.set_slice_whole]
      exact View.mem_set_unit_zero (funext fun a => mul_eq_zero_of_left (by fin_cases a <;> rfl) _) _ i⟩

end Cert.KernelIdeal.R1

end
-- ==== Proof.LibRowReal.lean ====
import proofs.«107338_g5892695130345_cont_sun_m_578_37_alg».proof.Proof.Model

noncomputable section

namespace HGNet

open Finset

variable (κ : Consts)

-- A row of 64 features followed by a one.
def aug1 (f : Fin 64 → ℝ) (d : Fin 65) : ℝ := if h : d.val < 64 then f ⟨d.val, h⟩ else 1

-- A gathered row of 65 sums: the message is a leading sum over the floored last entry, the degree.
def msgAug (T : Fin 65 → ℝ) (d : Fin 64) : ℝ := T (Fin.castLE (by decide) d) / clipDeg κ (T ⟨64, by decide⟩)

def hid (self : Fin 64 → ℝ) (T : Fin 65 → ℝ) (W : Fin 128 → Fin 64 → ℝ) (b : Fin 64 → ℝ) : Fin 64 → ℝ :=
  mlp (cat self (msgAug κ T)) (fun d k => W k d) b

def updAug (self : Fin 64 → ℝ) (T : Fin 65 → ℝ) (W : Fin 128 → Fin 64 → ℝ) (b g bt : Fin 64 → ℝ) : Fin 64 → ℝ :=
  upd κ self (msgAug κ T) (fun d k => W k d) b g bt

theorem updAug_apply (self : Fin 64 → ℝ) (T : Fin 65 → ℝ) (W : Fin 128 → Fin 64 → ℝ) (b g bt : Fin 64 → ℝ) (d : Fin 64) :
    updAug κ self T W b g bt d = self d + layerNorm κ (hid κ self T W b) g bt d := rfl

theorem clipDeg_ne_zero (h6 : 0 < κ.eps6) (s : ℝ) : max κ.eps6 s ≠ 0 := (lt_of_lt_of_le h6 (le_max_left _ _)).ne'

theorem varOffset_pos (hn : 0 < κ.n64) (h5 : 0 < κ.eps5) (x : Fin 64 → ℝ) :
    0 < (∑ k, x k * x k) / κ.n64 + κ.eps5 :=
  add_pos_of_nonneg_of_pos (div_nonneg (Finset.sum_nonneg fun k _ => mul_self_nonneg (x k)) hn.le) h5

theorem msgAug_recip (T : Fin 65 → ℝ) (d : Fin 64) :
    T (Fin.castLE (by decide) d) * (1 / max κ.eps6 (T ⟨64, by decide⟩)) = msgAug κ T d := by
  unfold msgAug clipDeg; rw [mul_one_div]

-- Multiplying by a reciprocal agrees with dividing.
theorem hid_recip (self : Fin 64 → ℝ) (T : Fin 65 → ℝ) (W : Fin 128 → Fin 64 → ℝ) (b : Fin 64 → ℝ) (q : Fin 64) :
    max ((∑ k : Fin 128, (if hk : k.val < 64 then self ⟨k.val, hk⟩
            else T (Fin.castLE (by decide) (⟨k.val - 64, by have := k.isLt; omega⟩ : Fin 64))
              * (1 / max κ.eps6 (T ⟨64, by decide⟩))) * W k q) + b q) 0
      = hid κ self T W b q := by
  unfold hid mlp cat
  refine congrArg (fun x => max (x + b q) 0) (Finset.sum_congr rfl fun k _ => ?_)
  by_cases hk : k.val < 64
  · rw [dif_pos hk, dif_pos hk]
  · rw [dif_neg hk, dif_neg hk]; exact congrArg (· * W k q) (msgAug_recip κ T _)

-- Multiplying by an inverse root agrees with dividing by the root.
theorem layerNorm_rsqrt (h g b : Fin 64 → ℝ) (d : Fin 64) :
    (h d - (∑ k, h k) / κ.n64)
        * (1 / Real.sqrt ((∑ k, (h k - (∑ k, h k) / κ.n64) * (h k - (∑ k, h k) / κ.n64)) / κ.n64 + κ.eps5)) * g d + b d
      = layerNorm κ h g b d := by
  unfold layerNorm var64 mean64; rw [mul_one_div]

end HGNet

end
-- ==== Proof.KV0Pay.lean ====
import proofs.«107338_g5892695130345_cont_sun_m_578_37_alg».proof.Proof.Gen.KernelIdeal.Skeleton
import proofs.«107338_g5892695130345_cont_sun_m_578_37_alg».proof.Proof.LibRowNet
import proofs.«107338_g5892695130345_cont_sun_m_578_37_alg».proof.Proof.LibRowReal

noncomputable section

namespace Cert.KernelIdeal.KV0

open Idealize.ShloMosaic Idealize.ShloMosaic.ValueIdx
open Cert.KernelIdeal Cert.KernelIdeal.Gen
open HGNet HGNet.RowNet
open scoped BigOperators

-- A coerced real matrix read at an index whose coordinates are those of (p, q).
theorem mat_at {a b : Nat} (X : Fin a → Fin b → ℝ) {i : (⟨2, ![a, b]⟩ : Shape).Idx} {p : Fin a} {q : Fin b}
    (h0 : (i 0).val = p.val) (h1 : (i 1).val = q.val) : Emb.mat X i = ((X p q : ℝ) : EReal) :=
  congrArg₂ (fun u v => ((X u v : ℝ) : EReal)) (Fin.ext h0) (Fin.ext h1)

theorem pay1_real : (k0_pay1 (F := Ideal)) = Emb.mat (fun (_ : Fin 65) (_ : Fin 4096) => (0 : ℝ)) := by
  unfold k0_pay1
  dsimp only
  rw [scalar_zero, broadcast_mat, shapeCast_self]

-- The transposed block with its row of ones: entry (d, r) is feature d of node r, and one for d = 64.
theorem pay2_real (N : Fin 512 → Fin 64 → ℝ) :
    k0_pay2 (F := Ideal) (Emb.mat N) = Emb.mat (fun (d : Fin 65) (r : Fin 512) => aug1 (N r) d) := by
  unfold k0_pay2
  dsimp only
  rw [truncf_id, scalar_one, broadcast_mat, concat_mat (n1 := 64) (n2 := 1) (n := 65) _ _ rfl, transpose_mat]
  rfl

-- Either half's store: the accumulator plus the product with the half block.
theorem pay3_real (X : Fin 512 → Fin 2048 → ℝ) (N : Fin 512 → Fin 64 → ℝ) (a : Fin 65 → Fin 2048 → ℝ) :
    k0_pay3 (F := Ideal) (Emb.mat X) (Emb.mat N) (Emb.mat a)
      = Emb.mat (fun (d : Fin 65) (q : Fin 2048) => a d q + ∑ r : Fin 512, aug1 (N r) d * X r q) := by
  unfold k0_pay3
  dsimp only
  rw [pay2_real, truncf_id, matmul_mat 65 512 2048 dot_S65x512_S512x2048_S65x2048_1_0_0_1_n_n rfl, addf_mat, shapeCast_self]

theorem pay4_real (X : Fin 512 → Fin 2048 → ℝ) (N : Fin 512 → Fin 64 → ℝ) (a : Fin 65 → Fin 2048 → ℝ) :
    k0_pay4 (F := Ideal) (Emb.mat X) (Emb.mat N) (Emb.mat a)
      = Emb.mat (fun (d : Fin 65) (q : Fin 2048) => a d q + ∑ r : Fin 512, aug1 (N r) d * X r q) :=
  pay3_real X N a

end Cert.KernelIdeal.KV0

end
-- ==== Proof.KV0Sum.lean ====
import Mathlib.Algebra.BigOperators.Fin
import Mathlib.Algebra.BigOperators.Group.Finset.Basic
import Mathlib.Data.Real.Basic
import Mathlib.Tactic.Ring

namespace Cert.KernelIdeal.KV0

open scoped BigOperators

theorem sum_panel_eq (n : ℕ) (hn : n < 16) (F : Fin 8192 → ℝ) :
    (∑ r : Fin 512, F ⟨512 * n + r.val, by have := r.isLt; omega⟩)
      = ∑ i : Fin 8192, (if 512 * n ≤ i.val ∧ i.val < 512 * (n + 1) then F i else 0) := by
  rw [← Finset.sum_filter]
  refine Finset.sum_bij (fun r _ => (⟨512 * n + r.val, by have := r.isLt; omega⟩ : Fin 8192)) ?_ ?_ ?_ ?_
  · intro r _
    have := r.isLt
    simp only [Finset.mem_filter, Finset.mem_univ, true_and]
    constructor <;> omega
  · intro r _ r' _ h
    have := congrArg Fin.val h
    simp only at this
    exact Fin.ext (by omega)
  · intro i hi
    simp only [Finset.mem_filter, Finset.mem_univ, true_and] at hi
    exact ⟨⟨i.val - 512 * n, by omega⟩, Finset.mem_univ _, Fin.ext (by simp only; omega)⟩
  · intro r _
    rfl

theorem sum_panel (n : ℕ) (hn : n < 16) (F : Fin 8192 → ℝ) :
    (∑ i : Fin 8192, (if i.val < 512 * n then F i else 0))
        + ∑ r : Fin 512, F ⟨512 * n + r.val, by have := r.isLt; omega⟩
      = ∑ i : Fin 8192, (if i.val < 512 * (n + 1) then F i else 0) := by
  rw [sum_panel_eq n hn F, ← Finset.sum_add_distrib]
  refine Finset.sum_congr rfl fun i _ => ?_
  by_cases h1 : i.val < 512 * n
  · have h2 : i.val < 512 * (n + 1) := by omega
    have h3 : ¬(512 * n ≤ i.val ∧ i.val < 512 * (n + 1)) := by omega
    rw [if_pos h1, if_neg h3, if_pos h2, add_zero]
  · by_cases h2 : i.val < 512 * (n + 1)
    · have h3 : 512 * n ≤ i.val ∧ i.val < 512 * (n + 1) := by omega
      rw [if_neg h1, if_pos h3, if_pos h2, zero_add]
    · have h3 : ¬(512 * n ≤ i.val ∧ i.val < 512 * (n + 1)) := by omega
      rw [if_neg h1, if_neg h3, if_neg h2, add_zero]

theorem sum_all (F : Fin 8192 → ℝ) :
    (∑ i : Fin 8192, (if i.val < 512 * 16 then F i else 0)) = ∑ i : Fin 8192, F i :=
  Finset.sum_congr rfl fun i _ => if_pos (by have := i.isLt; omega)

end Cert.KernelIdeal.KV0
-- ==== Proof.KV0Acc.lean ====
import proofs.«107338_g5892695130345_cont_sun_m_578_37_alg».proof.Proof.R0Val
import proofs.«107338_g5892695130345_cont_sun_m_578_37_alg».proof.Proof.KV0Pay
import proofs.«107338_g5892695130345_cont_sun_m_578_37_alg».proof.Proof.KV0Sum

noncomputable section

namespace Cert.KernelIdeal.KV0

open Idealize.ShloMosaic Idealize.ShloMosaic.TcCoe Idealize.ShloMosaic.ValueIdx
open Idealize.ShloMosaic.Pipeline (Dat Cfg Window)
open Cert.KernelIdeal Cert.KernelIdeal.Gen
open HGNet HGNet.RowNet
open scoped BigOperators

variable (V : (c : Dev nD) → (b : Ref sig .tc) → Buf (Elt Ideal) ((c : Thread nD τ).loc b)) (c : Dev nD)
  (A : Fin 8192 → Fin 4096 → ℝ) (n0 : Fin 8192 → Fin 64 → ℝ)

theorem t_lt (t : Fin cfg0.N) : t.val < 16 := lt_of_lt_of_eq t.isLt Gen.N_0
theorem coord_lt (i : grid0.Coords) : (i 0).val < 16 := (i 0).isLt

def rowIx (p : ℕ) (hp : p < 16) (r : Fin 512) : Fin 8192 := ⟨512 * p + r.val, by have := r.isLt; omega⟩
def colL (q : Fin 2048) : Fin 4096 := ⟨q.val, by have := q.isLt; omega⟩
def colR (q : Fin 2048) : Fin 4096 := ⟨2048 + q.val, by have := q.isLt; omega⟩

theorem coords_val : ∀ t : Fin cfg0.N, (grid0.coords t 0).val = t.val := (by decide +kernel : ∀ t : Fin grid0.N, _)
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 1 :=
  (by decide +kernel : ∀ t : Fin grid0.N, _)

-- Windows 0 and 1 at point t: rows 512 t .. 512 t + 511 of the incidence matrix, left and right column half.
theorem iblk0_0_real (hA : V c main_arg0 = Emb.mat A) (t : Fin cfg0.N) :
    (R0.iblk0 V c 0 t : Vec Ideal S512x2048 .f32)
      = Emb.mat (fun (r : Fin 512) (q : Fin 2048) => A (rowIx t.val (t_lt t) r) (colL q)) :=
  mat_ext fun r q => by
    show V c main_arg0 (((cfg0.win 0).blk t).view.emb (ix2 r q)) = _
    rw [hA]
    exact mat_at A (by show win0_0.index t 0 * 512 + 1 * r.val = 512 * t.val + r.val; rw [(idx0 t).1]; omega)
      (by show win0_0.index t 1 * 2048 + 1 * q.val = q.val; rw [(idx0 t).2]; omega)

theorem iblk0_1_real (hA : V c main_arg0 = Emb.mat A) (t : Fin cfg0.N) :
    (R0.iblk0 V c 1 t : Vec Ideal S512x2048 .f32)
      = Emb.mat (fun (r : Fin 512) (q : Fin 2048) => A (rowIx t.val (t_lt t) r) (colR q)) :=
  mat_ext fun r q => by
    show V c main_arg0 (((cfg0.win 1).blk t).view.emb (ix2 r q)) = _
    rw [hA]
    exact mat_at A (by show win0_1.index t 0 * 512 + 1 * r.val = 512 * t.val + r.val; rw [(idx1 t).1]; omega)
      (by show win0_1.index t 1 * 2048 + 1 * q.val = 2048 + q.val; rw [(idx1 t).2]; omega)

-- One point: every entry of the accumulator gains the panel's sum; the two stores tile the accumulator.
theorem step0_real (i : grid0.Coords) (Ap : Fin 512 → Fin 4096 → ℝ) (N : Fin 8192 → Fin 64 → ℝ)
    (a : Fin 65 → Fin 4096 → ℝ) :
    R0.step0 (F := Ideal) i (Emb.mat fun r q => Ap r (colL q)) (Emb.mat fun r q => Ap r (colR q)) (Emb.mat N) (Emb.mat a)
      = Emb.mat (fun (d : Fin 65) (j : Fin 4096) =>
          a d j + ∑ r : Fin 512, aug1 (N (rowIx (i 0).val (coord_lt i) r)) d * Ap r j) := by
  have hB : ∀ X : Fin 512 → Fin 2048 → ℝ,
      View.ld (Val := Elt Ideal) (e' := .f32) (Emb.mat X : Vec Ideal S512x2048 .f32) R0.rB = Emb.mat X :=
    fun X => View.ld_unit_zero R0.hz2' _ _
  have hE : View.ld (Val := Elt Ideal) (e' := .f32) (Emb.mat N : Vec Ideal S8192x64 .f32) (R0.rE i)
      = Emb.mat (fun (r : Fin 512) (k : Fin 64) => N (rowIx (i 0).val (coord_lt i) r) k) :=
    mat_ext fun r k => mat_at N
      (by show k0_off1 i 0 + 1 * r.val = 512 * (i 0).val + r.val; rw [Gen.k0_off1_eq i]
          show 512 * (i 0).val + 1 * r.val = 512 * (i 0).val + r.val; omega)
      (by show k0_off1 i 1 + 1 * k.val = k.val; rw [Gen.k0_off1_eq i]; show 0 + 1 * k.val = k.val; omega)
  have hembL : ∀ (d : Fin 65) (q : Fin 2048), R0.rL.emb (ix2 d q) = ix2 d (colL q) := fun d q =>
    funext fun b => Fin.ext (by
      match b with
      | ⟨0, _⟩ => show 0 + 1 * d.val = d.val; omega
      | ⟨1, _⟩ => show 0 + 1 * q.val = q.val; omega)
  have hembR : ∀ (d : Fin 65) (q : Fin 2048), R0.rR.emb (ix2 d q) = ix2 d (colR q) := fun d q =>
    funext fun b => Fin.ext (by
      match b with
      | ⟨0, _⟩ => show 0 + 1 * d.val = d.val; omega
      | ⟨1, _⟩ => show 2048 + 1 * q.val = 2048 + q.val; omega)
  have hL : View.ld (Val := Elt Ideal) (e' := .f32) (Emb.mat a : Vec Ideal S65x4096 .f32) R0.rL
      = Emb.mat (fun (d : Fin 65) (q : Fin 2048) => a d (colL q)) :=
    mat_ext fun d q => congrArg (Emb.mat a) (hembL d q)
  have hR : View.ld (Val := Elt Ideal) (e' := .f32) (Emb.mat a : Vec Ideal S65x4096 .f32) R0.rR
      = Emb.mat (fun (d : Fin 65) (q : Fin 2048) => a d (colR q)) :=
    mat_ext fun d q => congrArg (Emb.mat a) (hembR d q)
  have e3 := (congr (congr (congrArg (k0_pay3 (F := Ideal)) (hB fun r q => Ap r (colL q))) hE) hL).trans (pay3_real _ _ _)
  have e4 := (congr (congr (congrArg (k0_pay4 (F := Ideal)) (hB fun r q => Ap r (colR q))) hE) hR).trans (pay4_real _ _ _)
  unfold R0.step0
  refine funext fun y => View.canon_apply_of_pieces (Val := Elt Ideal) (S := S65x4096) (e := .f32)
    (Emb.mat (fun (d : Fin 65) (j : Fin 4096) =>
      a d j + ∑ r : Fin 512, aug1 (N (rowIx (i 0).val (coord_lt i) r)) d * Ap r j)) _ (fun p hp x => ?_) y ?_
  · simp only [List.mem_cons, List.not_mem_nil, or_false] at hp
    rcases hp with rfl | rfl
    · refine (congrFun e4 x).trans ?_
      obtain ⟨d, q, rfl⟩ : ∃ (d : Fin 65) (q : Fin 2048), x = ix2 d q := ⟨x 0, x 1, eq_ix2 x⟩
      show _ = Emb.mat _ (R0.rR.emb (ix2 d q))
      rw [hembR d q]
      rfl
    · refine (congrFun e3 x).trans ?_
      obtain ⟨d, q, rfl⟩ : ∃ (d : Fin 65) (q : Fin 2048), x = ix2 d q := ⟨x 0, x 1, eq_ix2 x⟩
      show _ = Emb.mat _ (R0.rL.emb (ix2 d q))
      rw [hembL d q]
      rfl
  · obtain ⟨d, j, rfl⟩ : ∃ (d : Fin 65) (j : Fin 4096), y = ix2 d j := ⟨y 0, y 1, eq_ix2 y⟩
    by_cases hj : j.val < 2048
    · refine ⟨_, List.mem_cons_of_mem _ (List.mem_cons_self), ?_⟩
      refine (Rect.mem_set_unit (inb := Gen.inb_S65x4096_S65x2048_0_0)).mpr fun b => ?_
      match b with
      | ⟨0, _⟩ => exact ⟨Nat.zero_le _, by show d.val < 0 + 65; have := d.isLt; omega⟩
      | ⟨1, _⟩ => exact ⟨Nat.zero_le _, by show j.val < 0 + 2048; omega⟩
    · refine ⟨_, List.mem_cons_self, ?_⟩
      refine (Rect.mem_set_unit (inb := Gen.inb_S65x4096_S65x2048_0_2048)).mpr fun b => ?_
      match b with
      | ⟨0, _⟩ => exact ⟨Nat.zero_le _, by show d.val < 0 + 65; have := d.isLt; omega⟩
      | ⟨1, _⟩ => exact ⟨by show 2048 ≤ j.val; omega, by show j.val < 2048 + 2048; have := j.isLt; omega⟩

-- After t points the accumulator holds the sums over the first 512 t nodes.
theorem acc0_aug (hA : V c main_arg0 = Emb.mat A) (hn : V c main_arg1 = Emb.mat n0) :
    ∀ t, t ≤ 16 → R0.acc0 (F := Ideal) V c t
      = Emb.mat (fun (d : Fin 65) (j : Fin 4096) =>
          ∑ i : Fin 8192, (if i.val < 512 * t then aug1 (n0 i) d * A i j else 0))
  | 0, _ => by
    show (k0_pay1 (F := Ideal)) = _
    rw [pay1_real]
    exact mat_congr fun d j => (Finset.sum_eq_zero fun i _ => if_neg (by omega)).symm
  | n + 1, h => by
    have hn16 : n < 16 := by omega
    have hn' : n < cfg0.N := lt_of_lt_of_eq hn16 Gen.N_0.symm
    refine (dif_pos hn').trans ?_
    refine (congr (congr (congr (congrArg (R0.step0 (F := Ideal) (grid0.coords ⟨n, hn'⟩))
      (iblk0_0_real V c A hA ⟨n, hn'⟩)) (iblk0_1_real V c A hA ⟨n, hn'⟩)) ((R0.iblk0_2_eq V c ⟨n, hn'⟩).trans hn))
      (acc0_aug hA hn n (by omega))).trans ?_
    refine (step0_real _ (fun r j => A (rowIx n hn16 r) j) _ _).trans (mat_congr fun d j => ?_)
    rw [← sum_panel n hn16 (fun i => aug1 (n0 i) d * A i j)]
    refine congrArg (_ + ·) (Finset.sum_congr rfl fun r _ => ?_)
    rw [show rowIx ((grid0.coords ⟨n, hn'⟩) 0).val (coord_lt _) r = rowIx n hn16 r from
      Fin.ext (by show 512 * ((grid0.coords ⟨n, hn'⟩) 0).val + r.val = 512 * n + r.val; rw [coords_val ⟨n, hn'⟩])]
    rfl

theorem acc0_all (hA : V c main_arg0 = Emb.mat A) (hn : V c main_arg1 = Emb.mat n0) :
    R0.acc0 (F := Ideal) V c 16 = Emb.mat (fun (d : Fin 65) (j : Fin 4096) => ∑ i : Fin 8192, aug1 (n0 i) d * A i j) :=
  (acc0_aug V c A n0 hA hn 16 le_rfl).trans (mat_congr fun d j => sum_all _)

end Cert.KernelIdeal.KV0

end
-- ==== Proof.KV0Epi.lean ====
import proofs.«107338_g5892695130345_cont_sun_m_578_37_alg».proof.Proof.KV0Pay

noncomputable section

namespace Cert.KernelIdeal.KV0

open Idealize.ShloMosaic Idealize.ShloMosaic.ValueIdx
open Cert.KernelIdeal Cert.KernelIdeal.Gen
open HGNet HGNet.RowNet HGNet.IdealReal
open scoped BigOperators

theorem rowSum_mat' {a b : Nat} (X : Fin a → Fin b → ℝ) (hr : (⟨2, ![a, b]⟩ : Shape).Reduces [1] ⟨1, ![a]⟩)
    (hφ : FKind.Formats .f32) (hacc : (0x00000000#32 : BitVec 32) = 0x00000000#32)
    (hs : (⟨1, ![a]⟩ : Shape).ShapeCasts ⟨2, ![a, 1]⟩) :
    shapeCast ⟨2, ![a, 1]⟩ (multiReduction (F := Ideal) .add [1] ⟨1, ![a]⟩ (Emb.mat X) 0x00000000#32 hr hφ hacc) hs
      = Emb.mat (fun p (_ : Fin 1) => ∑ k : Fin b, X p k) :=
  rowSum_mat X hr hφ hacc hs

theorem pay8_mat (S : Fin 65 → Fin 4096 → ℝ) (E : Fin 4096 → Fin 64 → ℝ) (W : Fin 128 → Fin 64 → ℝ)
    (B : Fin 1 → Fin 64 → ℝ) :
    k0_pay8 (F := Ideal) (Emb.mat S) (Emb.mat E) (Emb.mat W) (Emb.mat B)
      = Emb.mat (fun (j : Fin 4096) (d : Fin 64) =>
          hid κ0 (E j) (fun i => S i j) W (B 0) d - mean64 κ0 (hid κ0 (E j) (fun i => S i j) W (B 0))) := by
  unfold k0_pay8
  dsimp only
  rw [transpose_mat, sliceCol_mat _ _ (by decide), scalar_eps6, broadcast_mat, maximumf_mat, scalar_one, broadcast_mat,
    divf_mat _ _ (fun _ _ => clipDeg_ne_zero κ0 eps6_pos _), sliceLead_mat _ _ (by decide), broadcastCol_mat, mulf_mat,
    concat_mat (n1 := 64) (n2 := 64) (n := 128) _ _ rfl, shapeCast_self, shapeCast_self, matmul_mat 4096 128 64 dot_S4096x128_S128x64_S4096x64_1_0_0_1_n_n rfl, broadcastRow_mat, addf_mat,
    scalar_zero, broadcast_mat, maximumf_mat, rowSum_mat', scalar_n64, broadcast_mat,
    divf_mat _ _ (fun _ _ => n64_ne_zero), broadcastCol_mat, subf_mat]
  refine mat_congr fun p q => ?_
  unfold hid mlp cat msgAug mean64 clipDeg
  simp only [mul_one_div]

theorem pay9_mat (S : Fin 65 → Fin 4096 → ℝ) (E : Fin 4096 → Fin 64 → ℝ) (W : Fin 128 → Fin 64 → ℝ)
    (B : Fin 1 → Fin 64 → ℝ) :
    k0_pay9 (F := Ideal) (Emb.mat S) (Emb.mat E) (Emb.mat W) (Emb.mat B)
      = Emb.mat (fun (j : Fin 4096) (_ : Fin 1) =>
          1 / Real.sqrt (var64 κ0 (hid κ0 (E j) (fun i => S i j) W (B 0)) + κ0.eps5)) := by
  unfold k0_pay9
  dsimp only
  rw [pay8_mat, mulf_mat, rowSum_mat', scalar_n64, broadcast_mat, divf_mat _ _ (fun _ _ => n64_ne_zero), scalar_eps5,
    broadcast_mat, addf_mat, rsqrt_mat _ (fun p _ => varOffset_pos κ0 n64_pos eps5_pos _)]
  refine mat_congr fun p q => ?_
  unfold var64
  rfl

theorem pay5_mat (E : Fin 4096 → Fin 64 → ℝ) (G BT : Fin 1 → Fin 64 → ℝ) (D : Fin 4096 → Fin 64 → ℝ)
    (R : Fin 4096 → Fin 1 → ℝ) :
    k0_pay5 (F := Ideal) (Emb.mat E) (Emb.mat G) (Emb.mat BT) (Emb.mat D) (Emb.mat R)
      = Emb.mat (fun (j : Fin 4096) (k : Fin 65) =>
          if hk : k.val < 64 then E j ⟨k.val, hk⟩ + (D j ⟨k.val, hk⟩ * R j 0 * G 0 ⟨k.val, hk⟩ + BT 0 ⟨k.val, hk⟩)
          else 1) := by
  unfold k0_pay5
  dsimp only
  rw [broadcastCol_mat, broadcastRow_mat, broadcastRow_mat, mulf_mat, mulf_mat, addf_mat, addf_mat, scalar_one,
    broadcast_mat, concat_mat (n1 := 64) (n2 := 1) (n := 65) _ _ rfl]

theorem epi_mat (S : Fin 65 → Fin 4096 → ℝ) (E : Fin 4096 → Fin 64 → ℝ) (W : Fin 128 → Fin 64 → ℝ)
    (B G BT : Fin 1 → Fin 64 → ℝ) :
    k0_pay5 (F := Ideal) (Emb.mat E) (k0_pay6 (Emb.mat G)) (k0_pay7 (Emb.mat BT))
        (k0_pay8 (Emb.mat S) (Emb.mat E) (Emb.mat W) (Emb.mat B)) (k0_pay9 (Emb.mat S) (Emb.mat E) (Emb.mat W) (Emb.mat B))
      = Emb.mat (fun (j : Fin 4096) (k : Fin 65) =>
          if hk : k.val < 64 then updAug κ0 (E j) (fun i => S i j) W (B 0) (G 0) (BT 0) ⟨k.val, hk⟩ else 1) := by
  unfold k0_pay6 k0_pay7
  rw [shapeCast_self, shapeCast_self, pay8_mat, pay9_mat, pay5_mat]
  refine mat_congr fun p k => ?_
  split
  · rename_i hk
    rw [updAug_apply]
    refine congrArg (E p ⟨k.val, hk⟩ + ·) ?_
    unfold layerNorm
    rw [mul_one_div]
  · rfl

theorem aug1_lead (f : Fin 64 → ℝ) (d : Fin 64) : aug1 f (Fin.castLE (by decide) d) = f d := dif_pos d.isLt
theorem aug1_last (f : Fin 64 → ℝ) : aug1 f ⟨64, by decide⟩ = 1 := dif_neg (Nat.lt_irrefl 64)

-- The message read off an edge's augmented sums is the model's degree-normalised message.
theorem msgAug_sums (A : Fin 8192 → Fin 4096 → ℝ) (n0 : Fin 8192 → Fin 64 → ℝ) (j : Fin 4096) :
    msgAug κ0 (fun i : Fin 65 => ∑ n : Fin 8192, aug1 (n0 n) i * A n j) = edgeMsg κ0 A n0 j :=
  funext fun d => congrArg₂ (fun x y => x / clipDeg κ0 y)
    (Finset.sum_congr rfl fun n _ => (congrArg (· * A n j) (aug1_lead (n0 n) d)).trans (mul_comm _ _))
    (Finset.sum_congr rfl fun n _ => (congrArg (· * A n j) (aug1_last (n0 n))).trans (one_mul _))

theorem updAug_sums (A : Fin 8192 → Fin 4096 → ℝ) (n0 : Fin 8192 → Fin 64 → ℝ) (e0 : Fin 4096 → Fin 64 → ℝ)
    (P : Params) (j : Fin 4096) :
    updAug κ0 (e0 j) (fun i : Fin 65 => ∑ n : Fin 8192, aug1 (n0 n) i * A n j)
        (fun (k : Fin 128) (d : Fin 64) => P.eW 0 d k) (P.eb 0) (P.eg 0) (P.ebt 0)
      = e1 κ0 A P n0 e0 j := by
  unfold updAug e1
  rw [msgAug_sums]

end Cert.KernelIdeal.KV0

end
-- ==== Proof.KV0Out.lean ====
import proofs.«107338_g5892695130345_cont_sun_m_578_37_alg».proof.Proof.KV0Acc
import proofs.«107338_g5892695130345_cont_sun_m_578_37_alg».proof.Proof.KV0Epi

noncomputable section

namespace Cert.KernelIdeal.KV0

open Idealize.ShloMosaic Idealize.ShloMosaic.TcCoe Idealize.ShloMosaic.ValueIdx
open Cert.KernelIdeal Cert.KernelIdeal.Gen
open HGNet HGNet.RowNet
open scoped BigOperators

variable (V : (c : Dev nD) → (b : Ref sig .tc) → Buf (Elt Ideal) ((c : Thread nD τ).loc b)) (c : Dev nD)
  (A : Fin 8192 → Fin 4096 → ℝ) (n0 : Fin 8192 → Fin 64 → ℝ) (e0 : Fin 4096 → Fin 64 → ℝ) (P : HGNet.Params)

-- The stored window: the round-0 edge update in columns 0..63 and ones in column 64.
theorem out0_real (hA : V c main_arg0 = Emb.mat A) (hn : V c main_arg1 = Emb.mat n0)
    (he : V c main_arg2 = Emb.mat e0)
    (hW : V c main_v2 = Emb.mat (fun (k : Fin 128) (d : Fin 64) => P.eW 0 d k))
    (hb : V c main_v5 = Emb.mat (fun (_ : Fin 1) (d : Fin 64) => P.eb 0 d))
    (hg : V c main_v8 = Emb.mat (fun (_ : Fin 1) (d : Fin 64) => P.eg 0 d))
    (hbt : V c main_v11 = Emb.mat (fun (_ : Fin 1) (d : Fin 64) => P.ebt 0 d)) :
    R0.out0 (F := Ideal) V c
      = Emb.mat (fun (j : Fin 4096) (d : Fin 65) => if h : d.val < 64 then e1 κ0 A P n0 e0 j ⟨d, h⟩ else 1) := by
  unfold R0.out0
  rw [R0.epi0_eq, R0.iblk0_3_eq, R0.iblk0_4_eq, R0.iblk0_5_eq, R0.iblk0_6_eq, R0.iblk0_7_eq, he, hW, hb, hg, hbt,
    acc0_all V c A n0 hA hn, epi_mat]
  refine mat_congr fun j k => ?_
  split
  · exact congrFun (updAug_sums A n0 e0 P j) _
  · rfl

end Cert.KernelIdeal.KV0

end
-- ==== Proof.KV1Pay.lean ====
import proofs.«107338_g5892695130345_cont_sun_m_578_37_alg».proof.Proof.Gen.KernelIdeal.Skeleton
import proofs.«107338_g5892695130345_cont_sun_m_578_37_alg».proof.Proof.KV0Epi

noncomputable section

namespace Cert.KernelIdeal.KV1

open Idealize.ShloMosaic Idealize.ShloMosaic.ValueIdx
open Cert.KernelIdeal Cert.KernelIdeal.Gen
open HGNet HGNet.RowNet
open scoped BigOperators

theorem off_word : ∀ n : Fin 16, (Scalar.indexCast (Scalar.muli (BitVec.ofNat 32 n.val) 512#32)).toNat = 512 * n.val := by
  decide

theorem off1_0 (i : grid1.Coords) : k1_off1 i 0 = 512 * (i 0).val := off_word (i 0)
theorem off1_1 (i : grid1.Coords) : k1_off1 i 1 = 0 := rfl

theorem pay9_real : k1_pay9 (F := Ideal) = Emb.mat (fun (_ : Fin 65) (_ : Fin 4096) => (0 : ℝ)) := by
  unfold k1_pay9
  dsimp only
  rw [scalar_zero, broadcast_mat, shapeCast_self]

theorem pay11_real (Ap : Fin 512 → Fin 4096 → ℝ) (E : Fin 4096 → Fin 65 → ℝ) (Nr : Fin 512 → Fin 64 → ℝ)
    (W : Fin 128 → Fin 64 → ℝ) (b : Fin 1 → Fin 64 → ℝ) :
    k1_pay11 (F := Ideal) (Emb.mat Ap) (Emb.mat E) (Emb.mat Nr) (Emb.mat W) (Emb.mat b)
      = Emb.mat (fun p q => hid κ0 (Nr p) (fun c => ∑ k, Ap p k * E k c) W (b 0) q) := by
  unfold k1_pay11 k1_pay10
  dsimp only
  simp only [truncf_id, shapeCast_self]
  rw [shapeCast_self (Emb.mat E)]
  rw [matmul_mat 512 4096 65 dot_S512x4096_S4096x65_S512x65_1_0_0_1_n_n rfl]
  rw [sliceCol_mat _ _ (by decide), sliceLead_mat _ _ (by decide)]
  rw [scalar_eps6, scalar_one, scalar_zero]
  simp only [broadcast_mat]
  rw [maximumf_mat, divf_mat _ _ (fun _ _ => clipDeg_ne_zero κ0 IdealReal.eps6_pos _), broadcastCol_mat, mulf_mat,
    concat_mat (n1 := 64) (n2 := 64) (n := 128) _ _ rfl, matmul_mat 512 128 64 dot_S512x128_S128x64_S512x64_1_0_0_1_n_n rfl, broadcastRow_mat, addf_mat,
    maximumf_mat]
  exact mat_congr fun p q => hid_recip κ0 (Nr p) (fun c => ∑ k, Ap p k * E k c) W (b 0) q

theorem pay1_real (Ap : Fin 512 → Fin 4096 → ℝ) (Nr H : Fin 512 → Fin 64 → ℝ) (g bt : Fin 1 → Fin 64 → ℝ)
    (acc : Fin 65 → Fin 4096 → ℝ) :
    k1_pay1 (F := Ideal) (Emb.mat Ap) (Emb.mat Nr) (Emb.mat H) (Emb.mat g) (Emb.mat bt) (Emb.mat acc)
      = Emb.mat (fun d j => acc d j
          + ∑ p : Fin 512, aug1 (fun q => Nr p q + layerNorm κ0 (H p) (g 0) (bt 0) q) d * Ap p j) := by
  unfold k1_pay1
  dsimp only
  rw [scalar_n64, scalar_eps5, scalar_one]
  simp only [broadcast_mat, truncf_id]
  rw [KV0.rowSum_mat', divf_mat _ _ (fun _ _ => IdealReal.n64_ne_zero), broadcastCol_mat, subf_mat, mulf_mat, KV0.rowSum_mat',
    divf_mat _ _ (fun _ _ => IdealReal.n64_ne_zero), addf_mat,
    rsqrt_mat _ (fun p _ => varOffset_pos κ0 IdealReal.n64_pos IdealReal.eps5_pos _),
    broadcastCol_mat, mulf_mat, broadcastRow_mat, mulf_mat, broadcastRow_mat, addf_mat, addf_mat,
    concat_mat (n1 := 64) (n2 := 1) (n := 65) _ _ rfl, transpose_mat, matmul_mat 65 512 4096 dot_S65x512_S512x4096_S65x4096_1_0_0_1_n_n rfl, addf_mat,
    shapeCast_self]
  refine mat_congr fun d j => congrArg (acc d j + ·) (Finset.sum_congr rfl fun p _ => congrArg (· * Ap p j) ?_)
  unfold aug1
  by_cases hd : d.val < 64
  · rw [dif_pos hd, dif_pos hd]
    exact congrArg (Nr p ⟨d.val, hd⟩ + ·) (layerNorm_rsqrt κ0 (H p) (g 0) (bt 0) ⟨d.val, hd⟩)
  · rw [dif_neg hd, dif_neg hd]

def hidE (acc : Fin 65 → Fin 4096 → ℝ) (E : Fin 4096 → Fin 65 → ℝ) (W : Fin 128 → Fin 64 → ℝ) (b : Fin 1 → Fin 64 → ℝ)
    (j : Fin 4096) : Fin 64 → ℝ :=
  hid κ0 (fun d => E j (Fin.castLE (by decide) d)) (fun c => acc c j) W (b 0)

def cenE (acc : Fin 65 → Fin 4096 → ℝ) (E : Fin 4096 → Fin 65 → ℝ) (W : Fin 128 → Fin 64 → ℝ) (b : Fin 1 → Fin 64 → ℝ)
    (j : Fin 4096) (q : Fin 64) : ℝ :=
  hidE acc E W b j q - (∑ k, hidE acc E W b j k) / κ0.n64

theorem pay3_real (E : Fin 4096 → Fin 65 → ℝ) :
    k1_pay3 (F := Ideal) (Emb.mat E) = Emb.mat (fun j (d : Fin 64) => E j (Fin.castLE (by decide) d)) := by
  unfold k1_pay3
  dsimp only
  rw [shapeCast_self (Emb.mat E), sliceLead_mat _ _ (by decide)]

theorem pay8_real : k1_pay8 (F := Ideal) = Emb.mat (fun (_ : Fin 4096) (_ : Fin 1) => κ0.eps5) := by
  unfold k1_pay8
  dsimp only
  rw [scalar_eps5, broadcast_mat]

theorem pay6_real (acc : Fin 65 → Fin 4096 → ℝ) (E : Fin 4096 → Fin 65 → ℝ) (W : Fin 128 → Fin 64 → ℝ)
    (b : Fin 1 → Fin 64 → ℝ) :
    k1_pay6 (F := Ideal) (Emb.mat acc) (Emb.mat E) (Emb.mat W) (Emb.mat b) = Emb.mat (cenE acc E W b) :=
  (congrArg (k0_pay8 (F := Ideal) (Emb.mat acc) · (Emb.mat W) (Emb.mat b)) (pay3_real E)).trans (KV0.pay8_mat acc _ W b)

theorem pay7_real (acc : Fin 65 → Fin 4096 → ℝ) (E : Fin 4096 → Fin 65 → ℝ) (W : Fin 128 → Fin 64 → ℝ)
    (b : Fin 1 → Fin 64 → ℝ) :
    k1_pay7 (F := Ideal) (Emb.mat acc) (Emb.mat E) (Emb.mat W) (Emb.mat b)
      = Emb.mat (fun j (_ : Fin 1) => (∑ k, cenE acc E W b j k * cenE acc E W b j k) / κ0.n64) := by
  unfold k1_pay7
  dsimp only
  rw [pay6_real, mulf_mat, KV0.rowSum_mat', scalar_n64, broadcast_mat,
    divf_mat _ _ (fun _ _ => IdealReal.n64_ne_zero)]

theorem pay2_real (e1 cen : Fin 4096 → Fin 64 → ℝ) (g bt : Fin 1 → Fin 64 → ℝ) (var : Fin 4096 → Fin 1 → ℝ)
    (dW : Fin 64 → Fin 1 → ℝ) (db : Fin 1 → Fin 1 → ℝ) (hv : ∀ j u, 0 < var j u + κ0.eps5) :
    k1_pay2 (F := Ideal) (Emb.mat e1) (Emb.mat g) (Emb.mat bt) (Emb.mat cen) (Emb.mat var)
        (Emb.mat (fun (_ : Fin 4096) (_ : Fin 1) => κ0.eps5)) (Emb.mat dW) (Emb.mat db)
      = Emb.mat (fun j q => 1 / (1 + Real.exp (-(κ0.beta
          * ((∑ d, (e1 j d + (cen j d * (1 / Real.sqrt (var j 0 + κ0.eps5)) * g 0 d + bt 0 d)) * dW d q) + db 0 q))))) := by
  unfold k1_pay2
  dsimp only
  rw [addf_mat, rsqrt_mat _ hv, broadcastCol_mat, mulf_mat, broadcastRow_mat, mulf_mat, broadcastRow_mat, addf_mat, addf_mat,
    shapeCast_self (Emb.mat dW), matmul_mat 4096 64 1 dot_S4096x64_S64x1_S4096x1_1_0_0_1_n_n rfl,
    shapeCast_self (Emb.mat db), broadcastRow_mat, addf_mat, show FloatOps.ofBits (F := Ideal) .f32 0x3F333333#32 = ((κ0.beta : ℝ) : EReal) from IdealReal.ofBits_beta, broadcast_mat, mulf_mat, logistic_mat]

end Cert.KernelIdeal.KV1

end
-- ==== Proof.KV1.lean ====
import proofs.«107338_g5892695130345_cont_sun_m_578_37_alg».proof.Proof.R1Val
import proofs.«107338_g5892695130345_cont_sun_m_578_37_alg».proof.Proof.KV1Pay
import proofs.«107338_g5892695130345_cont_sun_m_578_37_alg».proof.Proof.KV0Sum

noncomputable section

namespace Cert.KernelIdeal.KV1

open Idealize.ShloMosaic Idealize.ShloMosaic.TcCoe Idealize.ShloMosaic.ValueIdx
open Idealize.ShloMosaic.Pipeline (Dat Cfg Window)
open Cert.KernelIdeal Cert.KernelIdeal.Gen
open HGNet HGNet.RowNet
open scoped BigOperators

theorem rows1_real (i : grid1.Coords) (n : ℕ) (hn : n < 16) (hi : (i 0).val = n) (N0 : Fin 8192 → Fin 64 → ℝ) :
    R1.rows1 (F := Ideal) i (Emb.mat N0)
      = Emb.mat (fun (p : Fin 512) (q : Fin 64) => N0 ⟨512 * n + p.val, by have := p.isLt; omega⟩ q) := by
  unfold R1.rows1
  exact mat_ext fun p q => KV0.mat_at N0 (by show k1_off1 i 0 + 1 * p.val = 512 * n + p.val; rw [off1_0]; omega)
    (by show k1_off1 i 1 + 1 * q.val = q.val; rw [off1_1]; omega)

section Model
variable (A : Fin 8192 → Fin 4096 → ℝ) (n0 : Fin 8192 → Fin 64 → ℝ) (e0 : Fin 4096 → Fin 64 → ℝ) (P : HGNet.Params)

-- A node's update from its row gathered out of the ones-augmented edge table is the model's round-0 node update.
theorem updAug_node (i : Fin 8192) :
    updAug κ0 (n0 i) (fun c => ∑ k, A i k * aug1 (e1 κ0 A P n0 e0 k) c) (fun k d => P.nW 0 d k) (P.nb 0) (P.ng 0) (P.nbt 0)
      = n1 κ0 A P n0 e0 i := by
  have hm : msgAug κ0 (fun c => ∑ k, A i k * aug1 (e1 κ0 A P n0 e0 k) c) = nodeMsg κ0 A (e1 κ0 A P n0 e0) i :=
    funext fun d => congrArg₂ (fun x y => x / clipDeg κ0 y)
      (Finset.sum_congr rfl fun k _ => congrArg (A i k * ·) (KV0.aug1_lead _ d))
      (Finset.sum_congr rfl fun k _ => (congrArg (A i k * ·) (KV0.aug1_last _)).trans (mul_one _))
  show upd κ0 (n0 i) (msgAug κ0 _) (P.nW 0) (P.nb 0) (P.ng 0) (P.nbt 0) = _
  rw [hm]
  rfl

-- An edge's update from its first-round row and its column of the finished accumulator is the model's round-1 edge update.
theorem updAug_edge (j : Fin 4096) :
    updAug κ0 (fun d => aug1 (e1 κ0 A P n0 e0 j) (Fin.castLE (by decide) d))
        (fun c => ∑ i : Fin 8192, aug1 (n1 κ0 A P n0 e0 i) c * A i j) (fun k d => P.eW 1 d k) (P.eb 1) (P.eg 1) (P.ebt 1)
      = e2 κ0 A P n0 e0 j := by
  show upd κ0 _ (msgAug κ0 _) (P.eW 1) (P.eb 1) (P.eg 1) (P.ebt 1) = _
  rw [show (fun d => aug1 (e1 κ0 A P n0 e0 j) (Fin.castLE (by decide) d)) = e1 κ0 A P n0 e0 j from
    funext fun d => KV0.aug1_lead _ d, KV0.msgAug_sums]
  rfl

end Model

variable (V : (c : Dev nD) → (b : Ref sig .tc) → Buf (Elt Ideal) ((c : Thread nD τ).loc b)) (c : Dev nD)
  (A : Fin 8192 → Fin 4096 → ℝ) (n0 : Fin 8192 → Fin 64 → ℝ) (e0 : Fin 4096 → Fin 64 → ℝ) (P : HGNet.Params)

theorem t_lt (t : Fin cfg1.N) : t.val < 16 := lt_of_lt_of_eq t.isLt Gen.N_1

theorem coords_val : ∀ t : Fin cfg1.N, (grid1.coords t 0).val = t.val := (by decide +kernel : ∀ t : Fin grid1.N, _)
theorem idx0 : ∀ t : Fin cfg1.N, win1_0.index t (0 : Fin 2) = t.val ∧ win1_0.index t (1 : Fin 2) = 0 :=
  (by decide +kernel : ∀ t : Fin grid1.N, _)

theorem iblk1_0_real (hA : V c main_arg0 = Emb.mat A) (t : Fin cfg1.N) :
    (R1.iblk1 V c 0 t : Vec Ideal S512x4096 .f32)
      = Emb.mat (fun (r : Fin 512) (j : Fin 4096) => A ⟨512 * t.val + r.val, by have := r.isLt; have := t_lt t; omega⟩ j) := by
  refine mat_ext fun r q => ?_
  show V c main_arg0 (((cfg1.win 0).blk t).view.emb (ix2 r q)) = _
  rw [hA]
  exact KV0.mat_at A (by show win1_0.index t 0 * 512 + 1 * r.val = 512 * t.val + r.val; rw [(idx0 t).1]; omega)
    (by show win1_0.index t 1 * 4096 + 1 * q.val = q.val; rw [(idx0 t).2]; omega)

theorem out1_real (hA : V c main_arg0 = Emb.mat A) (hn : V c main_arg1 = Emb.mat n0)
    (h12 : V c main_v12 = Emb.mat (fun (j : Fin 4096) (d : Fin 65) => if h : d.val < 64 then e1 κ0 A P n0 e0 j ⟨d, h⟩ else 1))
    (h15 : V c main_v15 = Emb.mat (fun (k : Fin 128) (d : Fin 64) => P.nW 0 d k))
    (h18 : V c main_v18 = Emb.mat (fun (_ : Fin 1) (d : Fin 64) => P.nb 0 d))
    (h21 : V c main_v21 = Emb.mat (fun (_ : Fin 1) (d : Fin 64) => P.ng 0 d))
    (h24 : V c main_v24 = Emb.mat (fun (_ : Fin 1) (d : Fin 64) => P.nbt 0 d))
    (h27 : V c main_v27 = Emb.mat (fun (k : Fin 128) (d : Fin 64) => P.eW 1 d k))
    (h30 : V c main_v30 = Emb.mat (fun (_ : Fin 1) (d : Fin 64) => P.eb 1 d))
    (h33 : V c main_v33 = Emb.mat (fun (_ : Fin 1) (d : Fin 64) => P.eg 1 d))
    (h36 : V c main_v36 = Emb.mat (fun (_ : Fin 1) (d : Fin 64) => P.ebt 1 d))
    (h37 : V c main_v37 = Emb.mat (fun (d : Fin 64) (_ : Fin 1) => P.dW d))
    (h38 : V c main_v38 = Emb.mat (fun (_ _ : Fin 1) => P.db)) :
    R1.out1 (F := Ideal) V c = Emb.mat (fun (j : Fin 4096) (_ : Fin 1) => probs κ0 A P n0 e0 j) := by
  have hacc : ∀ t ≤ 16, R1.acc1 (F := Ideal) V c t = Emb.mat (fun (d : Fin 65) (j : Fin 4096) =>
      ∑ i : Fin 8192, (if i.val < 512 * t then aug1 (n1 κ0 A P n0 e0 i) d * A i j else 0)) := by
    intro t
    induction t with
    | zero =>
      intro _
      show k1_pay9 (F := Ideal) = _
      rw [pay9_real]
      exact mat_congr fun d j => (Finset.sum_eq_zero fun i _ => if_neg (by omega)).symm
    | succ n ih =>
      intro hle
      have hn' : n < 16 := by omega
      have hN : n < cfg1.N := lt_of_lt_of_eq hn' Gen.N_1.symm
      refine (R1.acc1_succ V c ⟨n, hN⟩).trans ?_
      unfold R1.step1 k1_pay10 k1_pay12 k1_pay13
      rw [truncf_id, shapeCast_self, shapeCast_self, iblk1_0_real V c A hA, R1.iblk1_1_eq, R1.iblk1_2_eq, R1.iblk1_3_eq, R1.iblk1_4_eq, R1.iblk1_5_eq,
        R1.iblk1_6_eq, hn, h12, h15, h18, h21, h24, ih (by omega), rows1_real _ n hn' (coords_val ⟨n, hN⟩), pay11_real,
        pay1_real]
      refine mat_congr fun d j => ?_
      rw [← KV0.sum_panel n hn' (fun i => aug1 (n1 κ0 A P n0 e0 i) d * A i j)]
      refine congrArg (_ + ·) (Finset.sum_congr rfl fun p _ => ?_)
      exact congrArg (fun f => aug1 f d * A ⟨512 * n + p.val, by have := p.isLt; omega⟩ j)
        (updAug_node A n0 e0 P ⟨512 * n + p.val, by have := p.isLt; omega⟩)
  unfold R1.out1 R1.epi1 k1_pay4 k1_pay5
  rw [shapeCast_self, shapeCast_self, R1.iblk1_2_eq, R1.iblk1_7_eq, R1.iblk1_8_eq, R1.iblk1_9_eq, R1.iblk1_10_eq, R1.iblk1_11_eq, R1.iblk1_12_eq,
    h12, h27, h30, h33, h36, h37, h38, (hacc 16 le_rfl).trans (mat_congr fun d j => KV0.sum_all _), pay3_real,
    pay6_real, pay7_real, pay8_real,
    pay2_real _ _ _ _ _ _ _ (fun j _ => varOffset_pos κ0 IdealReal.n64_pos IdealReal.eps5_pos (cenE _ _ _ _ j))]
  refine mat_congr fun j q => ?_
  unfold probs logit
  refine congrArg (fun s => 1 / (1 + Real.exp (-(κ0.beta * (s + P.db))))) (Finset.sum_congr rfl fun d _ => ?_)
  exact congrArg (· * P.dW d) ((congrArg (_ + ·) (layerNorm_rsqrt κ0 (hidE _ _ _ _ j) _ _ d)).trans
    (congrFun (updAug_edge A n0 e0 P j) d))

end Cert.KernelIdeal.KV1

end
-- ==== Proof.KVal.lean ====
import proofs.«107338_g5892695130345_cont_sun_m_578_37_alg».proof.Proof.KHost
import proofs.«107338_g5892695130345_cont_sun_m_578_37_alg».proof.Proof.KRun
import proofs.«107338_g5892695130345_cont_sun_m_578_37_alg».proof.Proof.R0Val
import proofs.«107338_g5892695130345_cont_sun_m_578_37_alg».proof.Proof.R1Val
import proofs.«107338_g5892695130345_cont_sun_m_578_37_alg».proof.Proof.KV0Out
import proofs.«107338_g5892695130345_cont_sun_m_578_37_alg».proof.Proof.KV1

noncomputable section

namespace Cert.KernelIdeal.Val

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)
  (A : Fin 8192 → Fin 4096 → ℝ) (n0 : Fin 8192 → Fin 64 → ℝ) (e0 : Fin 4096 → Fin 64 → ℝ) (P : HGNet.Params)

-- Region 0 leaves the round-0 edge features beside a column of ones, region 1 the probabilities, read at the end as a vector.
theorem result
    (h0 : m ((c : Thread nD τ).loc main_arg0) = HGNet.Emb.mat A)
    (h1 : m ((c : Thread nD τ).loc main_arg1) = HGNet.Emb.mat n0)
    (h2 : m ((c : Thread nD τ).loc main_arg2) = HGNet.Emb.mat e0)
    (h3 : m ((c : Thread nD τ).loc main_arg3) = HGNet.Emb.ten P.eW)
    (h4 : m ((c : Thread nD τ).loc main_arg4) = HGNet.Emb.mat P.eb)
    (h5 : m ((c : Thread nD τ).loc main_arg5) = HGNet.Emb.mat P.eg)
    (h6 : m ((c : Thread nD τ).loc main_arg6) = HGNet.Emb.mat P.ebt)
    (h7 : m ((c : Thread nD τ).loc main_arg7) = HGNet.Emb.ten P.nW)
    (h8 : m ((c : Thread nD τ).loc main_arg8) = HGNet.Emb.mat P.nb)
    (h9 : m ((c : Thread nD τ).loc main_arg9) = HGNet.Emb.mat P.ng)
    (h10 : m ((c : Thread nD τ).loc main_arg10) = HGNet.Emb.mat P.nbt)
    (h11 : m ((c : Thread nD τ).loc main_arg11) = HGNet.Emb.mat (fun (_ : Fin 1) (d : Fin 64) => P.dW d))
    (h12 : m ((c : Thread nD τ).loc main_arg12) = HGNet.Emb.vec (fun (_ : Fin 1) => P.db)) :
    Gen.V5 m (Run.outs m) c main_v40 = HGNet.Emb.vec (HGNet.probs HGNet.κ0 A P n0 e0) := by
  have v12 := (HostVal.V3_v12 m c (Run.outsA m)).trans <| (Run.hG0 m c 8).symm.trans <|
    (R0.arrAt0_out (Run.E1 m) c).trans <| KV0.out0_real (Run.E1 m) c A n0 e0 P
      ((Gen.V1_of m c main_arg0 (by decide)).trans h0) ((Gen.V1_of m c main_arg1 (by decide)).trans h1)
      ((Gen.V1_of m c main_arg2 (by decide)).trans h2) (HostVal.V1_v2 m c P h3) (HostVal.V1_v5 m c P h4)
      (HostVal.V1_v8 m c P h5) (HostVal.V1_v11 m c P h6)
  exact HostVal.V5_v40 m c (Run.outs m) <| (Run.hG1 m c 13).symm.trans <|
    (R1.arrAt1_out (Run.E3 m) c).trans <| KV1.out1_real (Run.E3 m) c A n0 e0 P
      ((HostVal.V3_arg m c _ main_arg0 (by decide) (by decide) (by decide)).trans h0)
      ((HostVal.V3_arg m c _ main_arg1 (by decide) (by decide) (by decide)).trans h1) v12
      (HostVal.V3_v15 m c P _ h7) (HostVal.V3_v18 m c P _ h8) (HostVal.V3_v21 m c P _ h9) (HostVal.V3_v24 m c P _ h10)
      (HostVal.V3_v27 m c P _ h3) (HostVal.V3_v30 m c P _ h4) (HostVal.V3_v33 m c P _ h5) (HostVal.V3_v36 m c P _ h6)
      (HostVal.V3_v37 m c P _ h11) (HostVal.V3_v38 m c P _ h12)

end Cert.KernelIdeal.Val

end
-- ==== Proof.RefOut.lean ====
import proofs.«107338_g5892695130345_cont_sun_m_578_37_alg».proof.ReferenceIdeal

noncomputable section

namespace Cert.ReferenceIdeal.Hand

open Cert.ReferenceIdeal Idealize.ShloMosaic
open Cert.ReferenceIdeal.Facts₀ Cert.ReferenceIdeal.Facts

abbrev Arr (F : FTy → Type) (s : Shape) : Type := (⟨s, .f32⟩ : BufTy).Contents (Elt F)

variable {F : FTy → Type} [FloatOps F] [Facts]

def zero : Arr F S_ := constant S_ .f32 0x00000000#32
def eps6 : Arr F S_ := constant S_ .f32 0x358637BD#32
def eps5 : Arr F S_ := constant S_ .f32 0x3727C5AC#32
def c64 : Arr F S_ := constant S_ .f32 0x42800000#32
def beta : Arr F S_ := constant S_ .f32 0x3F333333#32
def one : Arr F S_ := constant S_ .f32 0x3F800000#32
def qnan : Arr F S_ := constant S_ .f32 0x7FC00000#32
-- The variance's divisor: 64 less the integer 0 made a float.
def nCorr : Arr F S_ :=
  subf (c64 : Arr F S_) (sitofp .f32 (constantI S_ 32 0#32 : (⟨S_, .i32⟩ : BufTy).Contents (Elt F)))

-- Block o of a stacked weight, transposed to 128 × 64.
def wAt (o : Nat) (h : S2x64x128.Slices ![o, 0, 0] S1x64x128) (a : Arr F S2x64x128) : Arr F S128x64 :=
  transpose S128x64 [1, 0] (shapeCast S64x128 (extractStridedSlice S1x64x128 ![o, 0, 0] a h) shapeCasts_S1x64x128_S64x128)
    transposes_S64x128_S128x64_1_0
def w0 (a : Arr F S2x64x128) : Arr F S128x64 := wAt 0 slices_S2x64x128_S1x64x128_0_0_0 a
def w1 (a : Arr F S2x64x128) : Arr F S128x64 := wAt 1 slices_S2x64x128_S1x64x128_1_0_0 a
-- Row o of a 2 × 64 parameter, as a vector.
def rowAt (o : Nat) (h : S2x64.Slices ![o, 0] S1x64) (a : Arr F S2x64) : Arr F S64 :=
  shapeCast S64 (extractStridedSlice S1x64 ![o, 0] a h) shapeCasts_S1x64_S64
def row0 (a : Arr F S2x64) : Arr F S64 := rowAt 0 slices_S2x64_S1x64_0_0 a
def row1 (a : Arr F S2x64) : Arr F S64 := rowAt 1 slices_S2x64_S1x64_1_0 a

def degE (a0 : Arr F S8192x4096) : Arr F S4096 :=
  maximumf (broadcastInDim S4096 ![] bcast_S_S4096 (eps6 : Arr F S_))
    (Host.reduceAdd a0 (zero : Arr F S_) reducesTo_S8192x4096_S4096_d0 h_S_)
def degN (a0 : Arr F S8192x4096) : Arr F S8192 :=
  maximumf (broadcastInDim S8192 ![] bcast_S_S8192 (eps6 : Arr F S_))
    (Host.reduceAdd a0 (zero : Arr F S_) reducesTo_S8192x4096_S8192_d1 h_S_)

-- The shape relations one update of R rows of 64 features uses.
structure RowFacts (R : Nat) : Prop where
  col : (⟨2, ![R, 1]⟩ : Shape).BroadcastsInDim ⟨2, ![R, 64]⟩ ![0, 1]
  vcol : (⟨1, ![R]⟩ : Shape).BroadcastsInDim ⟨2, ![R, 1]⟩ ![0]
  s1 : S_.BroadcastsInDim ⟨2, ![R, 1]⟩ ![]
  s64 : S_.BroadcastsInDim ⟨2, ![R, 64]⟩ ![]
  row : S1x64.BroadcastsInDim ⟨2, ![R, 64]⟩ ![0, 1]
  red : (⟨2, ![R, 64]⟩ : Shape).ReducesTo [1] ⟨1, ![R]⟩
  cat : Shape.Concatenates [(⟨2, ![R, 64]⟩ : Shape), ⟨2, ![R, 64]⟩] ⟨2, ![R, 128]⟩ 1

theorem factsE : RowFacts 4096 :=
  ⟨bcast_S4096x1_S4096x64_0_1, bcast_S4096_S4096x1_0, bcast_S_S4096x1, bcast_S_S4096x64, bcast_S1x64_S4096x64_0_1,
    reducesTo_S4096x64_S4096_d1, concatenates_S4096x64_S4096x64_S4096x128_d1⟩
theorem factsN : RowFacts 8192 :=
  ⟨bcast_S8192x1_S8192x64_0_1, bcast_S8192_S8192x1_0, bcast_S_S8192x1, bcast_S_S8192x64, bcast_S1x64_S8192x64_0_1,
    reducesTo_S8192x64_S8192_d1, concatenates_S8192x64_S8192x64_S8192x128_d1⟩

section Rows
variable {R : Nat} (f : RowFacts R)

-- The gathered sums M x, each row over that row's degree.
def msg {K : Nat} (M : Arr F ⟨2, ![R, K]⟩) (x : Arr F ⟨2, ![K, 64]⟩) (d : Arr F ⟨1, ![R]⟩) : Arr F ⟨2, ![R, 64]⟩ :=
  Host.divf (Host.dotGeneral (DotDims.plain R K 64) none M x)
    (broadcastInDim ⟨2, ![R, 64]⟩ ![0, 1] f.col (broadcastInDim ⟨2, ![R, 1]⟩ ![0] f.vcol d))
-- A vector of 64 laid along every row.
def rowOf (b : Arr F S64) : Arr F ⟨2, ![R, 64]⟩ :=
  broadcastInDim ⟨2, ![R, 64]⟩ ![0, 1] f.row (broadcastInDim S1x64 ![1] bcast_S64_S1x64_1 b)
def aff (self msg : Arr F ⟨2, ![R, 64]⟩) (W : Arr F S128x64) (b : Arr F S64) : Arr F ⟨2, ![R, 64]⟩ :=
  addf (Host.dotGeneral (DotDims.plain R 128 64) none
    (concatenate ⟨2, ![R, 128]⟩ 1 [⟨⟨2, ![R, 64]⟩, self⟩, ⟨⟨2, ![R, 64]⟩, msg⟩] f.cat) W) (rowOf f b)
def relu (x : Arr F ⟨2, ![R, 64]⟩) : Arr F ⟨2, ![R, 64]⟩ :=
  maximumf x (broadcastInDim ⟨2, ![R, 64]⟩ ![] f.s64 (zero : Arr F S_))
def mean (h : Arr F ⟨2, ![R, 64]⟩) : Arr F ⟨2, ![R, 1]⟩ :=
  Host.divf (broadcastInDim ⟨2, ![R, 1]⟩ ![0] f.vcol (Host.reduceAdd h (zero : Arr F S_) f.red h_S_))
    (broadcastInDim ⟨2, ![R, 1]⟩ ![] f.s1 (c64 : Arr F S_))
def dev (h : Arr F ⟨2, ![R, 64]⟩) : Arr F ⟨2, ![R, 64]⟩ :=
  subf h (broadcastInDim ⟨2, ![R, 64]⟩ ![0, 1] f.col (mean f h))
-- The select keeps the quotient where the divisor is positive, else the not-a-number word.
def var (h : Arr F ⟨2, ![R, 64]⟩) : Arr F ⟨2, ![R, 1]⟩ :=
  select (broadcastInDim ⟨2, ![R, 1]⟩ ![] f.s1 (cmpf .ogt (nCorr : Arr F S_) (zero : Arr F S_)))
    (Host.divf
      (broadcastInDim ⟨2, ![R, 1]⟩ ![0] f.vcol (Host.reduceAdd (mulf (dev f h) (dev f h)) (zero : Arr F S_) f.red h_S_))
      (broadcastInDim ⟨2, ![R, 1]⟩ ![] f.s1 (nCorr : Arr F S_)))
    (broadcastInDim ⟨2, ![R, 1]⟩ ![] f.s1 (qnan : Arr F S_))
def norm (h : Arr F ⟨2, ![R, 64]⟩) (g b : Arr F S64) : Arr F ⟨2, ![R, 64]⟩ :=
  addf (mulf (Host.divf (dev f h) (broadcastInDim ⟨2, ![R, 64]⟩ ![0, 1] f.col
    (Host.sqrt (addf (var f h) (broadcastInDim ⟨2, ![R, 1]⟩ ![] f.s1 (eps5 : Arr F S_)))))) (rowOf f g)) (rowOf f b)
def upd (self msg : Arr F ⟨2, ![R, 64]⟩) (W : Arr F S128x64) (b g bt : Arr F S64) : Arr F ⟨2, ![R, 64]⟩ :=
  addf self (norm f (relu f (aff f self msg W b)) g bt)

end Rows

def msgE (a0 : Arr F S8192x4096) (n : Arr F S8192x64) (d : Arr F S4096) : Arr F S4096x64 :=
  msg factsE (transpose S4096x8192 [1, 0] a0 transposes_S8192x4096_S4096x8192_1_0) n d
def msgN (a0 : Arr F S8192x4096) (e : Arr F S4096x64) (d : Arr F S8192) : Arr F S8192x64 := msg factsN a0 e d
def affE : Arr F S4096x64 → Arr F S4096x64 → Arr F S128x64 → Arr F S64 → Arr F S4096x64 := aff factsE
def affN : Arr F S8192x64 → Arr F S8192x64 → Arr F S128x64 → Arr F S64 → Arr F S8192x64 := aff factsN
def reluE : Arr F S4096x64 → Arr F S4096x64 := relu factsE
def reluN : Arr F S8192x64 → Arr F S8192x64 := relu factsN
def meanE : Arr F S4096x64 → Arr F S4096x1 := mean factsE
def meanN : Arr F S8192x64 → Arr F S8192x1 := mean factsN
def devE : Arr F S4096x64 → Arr F S4096x64 := dev factsE
def varE : Arr F S4096x64 → Arr F S4096x1 := var factsE
def varN : Arr F S8192x64 → Arr F S8192x1 := var factsN
def normE : Arr F S4096x64 → Arr F S64 → Arr F S64 → Arr F S4096x64 := norm factsE
def normN : Arr F S8192x64 → Arr F S64 → Arr F S64 → Arr F S8192x64 := norm factsN

def e1 (a0 : Arr F S8192x4096) (a1 : Arr F S8192x64) (a2 : Arr F S4096x64) (a3 : Arr F S2x64x128) (a4 a5 a6 : Arr F S2x64) :
    Arr F S4096x64 :=
  upd factsE a2 (msgE a0 a1 (degE a0)) (w0 a3) (row0 a4) (row0 a5) (row0 a6)
def n1 (a0 : Arr F S8192x4096) (a1 : Arr F S8192x64) (e : Arr F S4096x64) (a7 : Arr F S2x64x128) (a8 a9 a10 : Arr F S2x64) :
    Arr F S8192x64 :=
  upd factsN a1 (msgN a0 e (degN a0)) (w0 a7) (row0 a8) (row0 a9) (row0 a10)
def e2 (a0 : Arr F S8192x4096) (n : Arr F S8192x64) (e : Arr F S4096x64) (a3 : Arr F S2x64x128) (a4 a5 a6 : Arr F S2x64) :
    Arr F S4096x64 :=
  upd factsE e (msgE a0 n (degE a0)) (w1 a3) (row1 a4) (row1 a5) (row1 a6)

def logit (e : Arr F S4096x64) (a11 : Arr F S1x64) (a12 : Arr F S1) : Arr F S4096x1 :=
  addf
    (Host.dotGeneral dot_S4096x64_S64x1_S4096x1_1_0_0_1_n_n none e (transpose S64x1 [1, 0] a11 transposes_S1x64_S64x1_1_0))
    (broadcastInDim S4096x1 ![0, 1] bcast_S1x1_S4096x1_0_1 (broadcastInDim S1x1 ![1] bcast_S1_S1x1_1 a12))
-- One over one plus the exponential of the negated scaled read-out.
def sigm (z : Arr F S4096x1) : Arr F S4096x1 :=
  Host.divf (broadcastInDim S4096x1 ![] bcast_S_S4096x1 (one : Arr F S_))
    (addf (broadcastInDim S4096x1 ![] bcast_S_S4096x1 (one : Arr F S_))
      (Host.exp (Host.negf (mulf (broadcastInDim S4096x1 ![] bcast_S_S4096x1 (beta : Arr F S_)) z))))

def out (a0 : Arr F S8192x4096) (a1 : Arr F S8192x64) (a2 : Arr F S4096x64) (a3 : Arr F S2x64x128) (a4 a5 a6 : Arr F S2x64)
    (a7 : Arr F S2x64x128) (a8 a9 a10 : Arr F S2x64) (a11 : Arr F S1x64) (a12 : Arr F S1) : Arr F S4096 :=
  shapeCast S4096
    (sigm (logit (e2 a0 (n1 a0 a1 (e1 a0 a1 a2 a3 a4 a5 a6) a7 a8 a9 a10) (e1 a0 a1 a2 a3 a4 a5 a6) a3 a4 a5 a6) a11 a12))
    shapeCasts_S4096x1_S4096

end Cert.ReferenceIdeal.Hand

end
-- ==== Proof.RefRunAux.lean ====
import proofs.«107338_g5892695130345_cont_sun_m_578_37_alg».proof.Proof.RefOut
import Idealize.ShloMosaic.Lib.StableHlo.Run

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

/-- A row's variance over 4096 rows with the integer correction `c` of its divisor as a parameter; at `c = 0` it is `varE`. -/
def varWithE (h : Arr F S4096x64) (c : (⟨S_, .i32⟩ : BufTy).Contents (Elt F)) : Arr F S4096x1 :=
  select (broadcastInDim S4096x1 ![] bcast_S_S4096x1 (cmpf .ogt (subf (c64 : Arr F S_) (sitofp .f32 c)) (zero : Arr F S_)))
    (Host.divf
      (broadcastInDim S4096x1 ![0] bcast_S4096_S4096x1_0
        (Host.reduceAdd (mulf (devE h) (devE h)) (zero : Arr F S_) reducesTo_S4096x64_S4096_d1 h_S_))
      (broadcastInDim S4096x1 ![] bcast_S_S4096x1 (subf (c64 : Arr F S_) (sitofp .f32 c))))
    (broadcastInDim S4096x1 ![] bcast_S_S4096x1 (qnan : Arr F S_))
theorem varWithE_zero (h : Arr F S4096x64) : varWithE h (constantI S_ 32 0#32) = varE h := rfl

/-- The row normalisation with the means `mu` and variances `v` as parameters; at the rows' own it is `norm`. -/
def normWith {R : ℕ} (f : RowFacts R) (h : Arr F ⟨2, ![R, 64]⟩) (mu v : Arr F ⟨2, ![R, 1]⟩) (g b : Arr F S64) : Arr F ⟨2, ![R, 64]⟩ :=
  addf (mulf (Host.divf (subf h (broadcastInDim ⟨2, ![R, 64]⟩ ![0, 1] f.col mu))
    (broadcastInDim ⟨2, ![R, 64]⟩ ![0, 1] f.col (Host.sqrt (addf v (broadcastInDim ⟨2, ![R, 1]⟩ ![] f.s1 (eps5 : Arr F S_)))))) (rowOf f g)) (rowOf f b)
theorem normWith_eq {R : ℕ} (f : RowFacts R) (h : Arr F ⟨2, ![R, 64]⟩) (g b : Arr F S64) :
    normWith f h (mean f h) (var f h) g b = norm f h g b := rfl

/-- The affine map of own features and message, split into its product and its bias. -/
def preAffN (self msg : Arr F S8192x64) (W : Arr F S128x64) : Arr F S8192x64 :=
  Host.dotGeneral dot_S8192x128_S128x64_S8192x64_1_0_0_1_n_n none
    (concatenate S8192x128 1 [⟨S8192x64, self⟩, ⟨S8192x64, msg⟩] concatenates_S8192x64_S8192x64_S8192x128_d1) W
def biasN (x : Arr F S8192x64) (b : Arr F S64) : Arr F S8192x64 :=
  addf x (broadcastInDim S8192x64 ![0, 1] bcast_S1x64_S8192x64_0_1 (broadcastInDim S1x64 ![1] bcast_S64_S1x64_1 b))
theorem biasN_preAffN (self msg : Arr F S8192x64) (W : Arr F S128x64) (b : Arr F S64) :
    biasN (preAffN self msg W) b = affN self msg W b := rfl

/-- The read-out, split into its product and its bias. -/
def dotOut (e : Arr F S4096x64) (a11 : Arr F S1x64) : Arr F S4096x1 :=
  Host.dotGeneral dot_S4096x64_S64x1_S4096x1_1_0_0_1_n_n none e (transpose S64x1 [1, 0] a11 transposes_S1x64_S64x1_1_0)
def logitWith (d : Arr F S4096x1) (a12 : Arr F S1) : Arr F S4096x1 :=
  addf d (broadcastInDim S4096x1 ![0, 1] bcast_S1x1_S4096x1_0_1 (broadcastInDim S1x1 ![1] bcast_S1_S1x1_1 a12))
theorem logitWith_dotOut (e : Arr F S4096x64) (a11 : Arr F S1x64) (a12 : Arr F S1) :
    logitWith (dotOut e a11) a12 = logit e a11 a12 := rfl

/-- One call of the rectifier over 4096 rows, as its operations over the call's buffers. -/
def reluOps (t : TRef sig ⟨S4096x64, .f32⟩) (φ : fn_relu.Bufs) : List (HloOp τ sig (Elt F)) :=
  [ TRef.nullary φ.cst zero,
    TRef.unary φ.cst φ.v0 (broadcastInDim S4096x64 ![] bcast_S_S4096x64),
    TRef.binary t φ.v0 φ.v1 maximumf ]

/-- The same over 8192 rows. -/
def relu1Ops (t : TRef sig ⟨S8192x64, .f32⟩) (φ : fn_relu_1.Bufs) : List (HloOp τ sig (Elt F)) :=
  [ TRef.nullary φ.cst zero,
    TRef.unary φ.cst φ.v0 (broadcastInDim S8192x64 ![] bcast_S_S8192x64),
    TRef.binary t φ.v0 φ.v1 maximumf ]

/-- One call of the row variance over 4096 rows (divisor 64 less the correction `c`), as its operations over the call's buffers. -/
def varOps (t : TRef sig ⟨S4096x64, .f32⟩) (c : TRef sig ⟨S_, .i32⟩) (φ : fn_var.Bufs) : List (HloOp τ sig (Elt F)) :=
  [ TRef.nullary φ.cst zero,
    TRef.binary t φ.cst φ.v0 (fun x v => Host.reduceAdd x v reducesTo_S4096x64_S4096_d1 h_S_),
    TRef.unary φ.v0 φ.v1 (broadcastInDim S4096x1 ![0] bcast_S4096_S4096x1_0),
    TRef.nullary φ.cst_0 c64,
    TRef.unary φ.cst_0 φ.v2 (broadcastInDim S4096x1 ![] bcast_S_S4096x1),
    TRef.binary φ.v1 φ.v2 φ.v3 Host.divf,
    TRef.unary φ.v3 φ.v4 (broadcastInDim S4096x64 ![0, 1] bcast_S4096x1_S4096x64_0_1),
    TRef.binary t φ.v4 φ.v5 subf,
    TRef.binary φ.v5 φ.v5 φ.v6 mulf,
    TRef.unary c φ.v7 (sitofp .f32),
    TRef.nullary φ.cst_1 c64,
    TRef.binary φ.cst_1 φ.v7 φ.v8 subf,
    TRef.nullary φ.cst_2 zero,
    TRef.binary φ.v6 φ.cst_2 φ.v9 (fun x v => Host.reduceAdd x v reducesTo_S4096x64_S4096_d1 h_S_),
    TRef.unary φ.v9 φ.v10 (broadcastInDim S4096x1 ![0] bcast_S4096_S4096x1_0),
    TRef.unary φ.v8 φ.v11 (broadcastInDim S4096x1 ![] bcast_S_S4096x1),
    TRef.binary φ.v10 φ.v11 φ.v12 Host.divf,
    TRef.nullary φ.cst_3 zero,
    TRef.binary φ.v8 φ.cst_3 φ.v13 (cmpf .ogt),
    TRef.nullary φ.cst_4 qnan,
    TRef.unary φ.cst_4 φ.call0.v0 id,
    TRef.unary φ.call0.v0 φ.call0.v1 (broadcastInDim S4096x1 ![] bcast_S_S4096x1),
    TRef.ternary φ.v13 φ.v12 φ.call0.v1 φ.call0.v2 (fun p a b => select (broadcastInDim S4096x1 ![] bcast_S_S4096x1 p) a b) ]

/-- The same over 8192 rows. -/
def var2Ops (t : TRef sig ⟨S8192x64, .f32⟩) (c : TRef sig ⟨S_, .i32⟩) (φ : fn_var_2.Bufs) : List (HloOp τ sig (Elt F)) :=
  [ TRef.nullary φ.cst zero,
    TRef.binary t φ.cst φ.v0 (fun x v => Host.reduceAdd x v reducesTo_S8192x64_S8192_d1 h_S_),
    TRef.unary φ.v0 φ.v1 (broadcastInDim S8192x1 ![0] bcast_S8192_S8192x1_0),
    TRef.nullary φ.cst_0 c64,
    TRef.unary φ.cst_0 φ.v2 (broadcastInDim S8192x1 ![] bcast_S_S8192x1),
    TRef.binary φ.v1 φ.v2 φ.v3 Host.divf,
    TRef.unary φ.v3 φ.v4 (broadcastInDim S8192x64 ![0, 1] bcast_S8192x1_S8192x64_0_1),
    TRef.binary t φ.v4 φ.v5 subf,
    TRef.binary φ.v5 φ.v5 φ.v6 mulf,
    TRef.unary c φ.v7 (sitofp .f32),
    TRef.nullary φ.cst_1 c64,
    TRef.binary φ.cst_1 φ.v7 φ.v8 subf,
    TRef.nullary φ.cst_2 zero,
    TRef.binary φ.v6 φ.cst_2 φ.v9 (fun x v => Host.reduceAdd x v reducesTo_S8192x64_S8192_d1 h_S_),
    TRef.unary φ.v9 φ.v10 (broadcastInDim S8192x1 ![0] bcast_S8192_S8192x1_0),
    TRef.unary φ.v8 φ.v11 (broadcastInDim S8192x1 ![] bcast_S_S8192x1),
    TRef.binary φ.v10 φ.v11 φ.v12 Host.divf,
    TRef.nullary φ.cst_3 zero,
    TRef.binary φ.v8 φ.cst_3 φ.v13 (cmpf .ogt),
    TRef.nullary φ.cst_4 qnan,
    TRef.unary φ.cst_4 φ.call0.v0 id,
    TRef.unary φ.call0.v0 φ.call0.v1 (broadcastInDim S8192x1 ![] bcast_S_S8192x1),
    TRef.ternary φ.v13 φ.v12 φ.call0.v1 φ.call0.v2 (fun p a b => select (broadcastInDim S8192x1 ![] bcast_S_S8192x1 p) a b) ]

end Cert.ReferenceIdeal.Hand

end
-- ==== Proof.RefRunOps0.lean ====
import proofs.«107338_g5892695130345_cont_sun_m_578_37_alg».proof.Proof.RefRunAux

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

/-- `degE` and `degN` of the incidence matrix. -/
def cA : List (HloOp τ sig (Elt F)) :=
  [ nullary main_cst zero,
    binary main_arg0 main_cst main_v0 (fun x v => Host.reduceAdd x v reducesTo_S8192x4096_S4096_d0 h_S_),
    nullary main_cst_0 eps6,
    TRef.unary (.of main_cst_0) main_call0.v0 id,
    TRef.unary main_call0.v0 main_call0.v1 (broadcastInDim S4096 ![] bcast_S_S4096),
    TRef.binary main_call0.v1 (.of main_v0) main_call0.v2 maximumf,
    nullary main_cst_1 zero,
    binary main_arg0 main_cst_1 main_v2 (fun x v => Host.reduceAdd x v reducesTo_S8192x4096_S8192_d1 h_S_),
    nullary main_cst_2 eps6,
    TRef.unary (.of main_cst_2) main_call1.v0 id,
    TRef.unary main_call1.v0 main_call1.v1 (broadcastInDim S8192 ![] bcast_S_S8192),
    TRef.binary main_call1.v1 (.of main_v2) main_call1.v2 maximumf ]

/-- First round, hyperedges, up to the rectifier: `reluE (affE …)`. -/
def cB1 : List (HloOp τ sig (Elt F)) :=
  [ unary main_arg0 main_v4 (transpose S4096x8192 [1, 0] · transposes_S8192x4096_S4096x8192_1_0),
    binary main_v4 main_arg1 main_v5 (fun l r => Host.dotGeneral dot_S4096x8192_S8192x64_S4096x64_1_0_0_1_n_n none l r),
    unary main_v1 main_v6 (broadcastInDim S4096x1 ![0] bcast_S4096_S4096x1_0),
    unary main_v6 main_v7 (broadcastInDim S4096x64 ![0, 1] bcast_S4096x1_S4096x64_0_1),
    binary main_v5 main_v7 main_v8 Host.divf,
    binary main_arg2 main_v8 main_v9 (fun a b => concatenate S4096x128 1 [⟨S4096x64, a⟩, ⟨S4096x64, b⟩] concatenates_S4096x64_S4096x64_S4096x128_d1),
    unary main_arg3 main_v10 (extractStridedSlice S1x64x128 ![0, 0, 0] · slices_S2x64x128_S1x64x128_0_0_0),
    reshape main_v10 main_v11 rfl shapeCasts_S1x64x128_S64x128,
    unary main_v11 main_v12 (transpose S128x64 [1, 0] · transposes_S64x128_S128x64_1_0),
    binary main_v9 main_v12 main_v13 (fun l r => Host.dotGeneral dot_S4096x128_S128x64_S4096x64_1_0_0_1_n_n none l r),
    unary main_arg4 main_v14 (extractStridedSlice S1x64 ![0, 0] · slices_S2x64_S1x64_0_0),
    reshape main_v14 main_v15 rfl shapeCasts_S1x64_S64,
    unary main_v15 main_v16 (broadcastInDim S1x64 ![1] bcast_S64_S1x64_1),
    unary main_v16 main_v17 (broadcastInDim S4096x64 ![0, 1] bcast_S1x64_S4096x64_0_1),
    binary main_v13 main_v17 main_v18 addf ] ++
    reluOps (.of main_v18) main_call2

/-- First round, hyperedges: the rows of gain and shift, `meanE`, `varE`. -/
def cB2 : List (HloOp τ sig (Elt F)) :=
  [ unary main_arg5 main_v20 (extractStridedSlice S1x64 ![0, 0] · slices_S2x64_S1x64_0_0),
    reshape main_v20 main_v21 rfl shapeCasts_S1x64_S64,
    unary main_arg6 main_v22 (extractStridedSlice S1x64 ![0, 0] · slices_S2x64_S1x64_0_0),
    reshape main_v22 main_v23 rfl shapeCasts_S1x64_S64,
    nullary main_cst_3 zero,
    binary main_v19 main_cst_3 main_v24 (fun x v => Host.reduceAdd x v reducesTo_S4096x64_S4096_d1 h_S_),
    unary main_v24 main_v25 (broadcastInDim S4096x1 ![0] bcast_S4096_S4096x1_0),
    nullary main_cst_4 c64,
    unary main_cst_4 main_v26 (broadcastInDim S4096x1 ![] bcast_S_S4096x1),
    binary main_v25 main_v26 main_v27 Host.divf,
    nullary main_c (constantI S_ 32 0#32) ] ++
    varOps (.of main_v19) (.of main_c) main_call3

/-- First round: the hyperedges' normalisation and residual, then the nodes' `msgN` and `preAffN`. -/
def cB3 : List (HloOp τ sig (Elt F)) :=
  [ unary main_v27 main_v29 (broadcastInDim S4096x64 ![0, 1] bcast_S4096x1_S4096x64_0_1),
    binary main_v19 main_v29 main_v30 subf,
    nullary main_cst_5 eps5,
    unary main_cst_5 main_v31 (broadcastInDim S4096x1 ![] bcast_S_S4096x1),
    binary main_v28 main_v31 main_v32 addf,
    unary main_v32 main_v33 Host.sqrt,
    unary main_v33 main_v34 (broadcastInDim S4096x64 ![0, 1] bcast_S4096x1_S4096x64_0_1),
    binary main_v30 main_v34 main_v35 Host.divf,
    unary main_v21 main_v36 (broadcastInDim S1x64 ![1] bcast_S64_S1x64_1),
    unary main_v36 main_v37 (broadcastInDim S4096x64 ![0, 1] bcast_S1x64_S4096x64_0_1),
    binary main_v35 main_v37 main_v38 mulf,
    unary main_v23 main_v39 (broadcastInDim S1x64 ![1] bcast_S64_S1x64_1),
    unary main_v39 main_v40 (broadcastInDim S4096x64 ![0, 1] bcast_S1x64_S4096x64_0_1),
    binary main_v38 main_v40 main_v41 addf,
    binary main_arg2 main_v41 main_v42 addf,
    binary main_arg0 main_v42 main_v43 (fun l r => Host.dotGeneral dot_S8192x4096_S4096x64_S8192x64_1_0_0_1_n_n none l r),
    unary main_v3 main_v44 (broadcastInDim S8192x1 ![0] bcast_S8192_S8192x1_0),
    unary main_v44 main_v45 (broadcastInDim S8192x64 ![0, 1] bcast_S8192x1_S8192x64_0_1),
    binary main_v43 main_v45 main_v46 Host.divf,
    binary main_arg1 main_v46 main_v47 (fun a b => concatenate S8192x128 1 [⟨S8192x64, a⟩, ⟨S8192x64, b⟩] concatenates_S8192x64_S8192x64_S8192x128_d1),
    unary main_arg7 main_v48 (extractStridedSlice S1x64x128 ![0, 0, 0] · slices_S2x64x128_S1x64x128_0_0_0),
    reshape main_v48 main_v49 rfl shapeCasts_S1x64x128_S64x128,
    unary main_v49 main_v50 (transpose S128x64 [1, 0] · transposes_S64x128_S128x64_1_0),
    binary main_v47 main_v50 main_v51 (fun l r => Host.dotGeneral dot_S8192x128_S128x64_S8192x64_1_0_0_1_n_n none l r) ]

/-- The window is the chain of its operations: both sides are one sequence of steps. -/
theorem main_part0_eq (c : Dev nD) : main_part0 (F := F) c = seq (cA ++ cB1 ++ cB2 ++ cB3) := rfl

variable (V : Valuation τ sig (Elt F))

theorem cA_v1 :
    after cA V (no_index (Proc.devRef .tc main_v1)) = degE (V main_arg0) := by
  unfold cA; after_results_simp; rfl
theorem cA_v3 :
    after cA V (no_index (Proc.devRef .tc main_v3)) = degN (V main_arg0) := by
  unfold cA; after_results_simp; rfl
theorem cB1_v19 :
    after cB1 V (no_index (Proc.devRef .tc main_v19)) = reluE (affE (V main_arg2) (msgE (V main_arg0) (V main_arg1) (V main_v1)) (w0 (V main_arg3)) (row0 (V main_arg4))) := by
  simp only [cB1, reluOps, List.cons_append, List.nil_append]; after_results_simp; rfl
theorem cB2_v21 :
    after cB2 V (no_index (Proc.devRef .tc main_v21)) = row0 (V main_arg5) := by
  simp only [cB2, varOps, List.cons_append, List.nil_append]; after_results_simp; rfl
theorem cB2_v23 :
    after cB2 V (no_index (Proc.devRef .tc main_v23)) = row0 (V main_arg6) := by
  simp only [cB2, varOps, List.cons_append, List.nil_append]; after_results_simp; rfl
theorem cB2_v27 :
    after cB2 V (no_index (Proc.devRef .tc main_v27)) = meanE (V main_v19) := by
  simp only [cB2, varOps, List.cons_append, List.nil_append]; after_results_simp; rfl
theorem cB2_v28 :
    after cB2 V (no_index (Proc.devRef .tc main_v28)) = varE (V main_v19) := by
  simp only [cB2, varOps, List.cons_append, List.nil_append]; after_results_simp; rfl
theorem cB3_v42 :
    after cB3 V (no_index (Proc.devRef .tc main_v42)) = addf (V main_arg2) (normWith factsE (V main_v19) (V main_v27) (V main_v28) (V main_v21) (V main_v23)) := by
  unfold cB3; after_results_simp; rfl
theorem cB3_v51 :
    after cB3 V (no_index (Proc.devRef .tc main_v51)) = preAffN (V main_arg1) (msgN (V main_arg0) (addf (V main_arg2) (normWith factsE (V main_v19) (V main_v27) (V main_v28) (V main_v21) (V main_v23))) (V main_v3)) (w0 (V main_arg7)) := by
  unfold cB3; after_results_simp; rfl

end Cert.ReferenceIdeal.Hand

end
-- ==== Proof.RefRunOps1.lean ====
import proofs.«107338_g5892695130345_cont_sun_m_578_37_alg».proof.Proof.RefRunAux

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

/-- First round, nodes: `reluN (biasN …)`. -/
def cC1 : List (HloOp τ sig (Elt F)) :=
  [ unary main_arg8 main_v52 (extractStridedSlice S1x64 ![0, 0] · slices_S2x64_S1x64_0_0),
    reshape main_v52 main_v53 rfl shapeCasts_S1x64_S64,
    unary main_v53 main_v54 (broadcastInDim S1x64 ![1] bcast_S64_S1x64_1),
    unary main_v54 main_v55 (broadcastInDim S8192x64 ![0, 1] bcast_S1x64_S8192x64_0_1),
    binary main_v51 main_v55 main_v56 addf ] ++
    relu1Ops (.of main_v56) main_call4

/-- First round, nodes: the rows of gain and shift, `meanN`, `varN`. -/
def cC2 : List (HloOp τ sig (Elt F)) :=
  [ unary main_arg9 main_v58 (extractStridedSlice S1x64 ![0, 0] · slices_S2x64_S1x64_0_0),
    reshape main_v58 main_v59 rfl shapeCasts_S1x64_S64,
    unary main_arg10 main_v60 (extractStridedSlice S1x64 ![0, 0] · slices_S2x64_S1x64_0_0),
    reshape main_v60 main_v61 rfl shapeCasts_S1x64_S64,
    nullary main_cst_6 zero,
    binary main_v57 main_cst_6 main_v62 (fun x v => Host.reduceAdd x v reducesTo_S8192x64_S8192_d1 h_S_),
    unary main_v62 main_v63 (broadcastInDim S8192x1 ![0] bcast_S8192_S8192x1_0),
    nullary main_cst_7 c64,
    unary main_cst_7 main_v64 (broadcastInDim S8192x1 ![] bcast_S_S8192x1),
    binary main_v63 main_v64 main_v65 Host.divf,
    nullary main_c_8 (constantI S_ 32 0#32) ] ++
    var2Ops (.of main_v57) (.of main_c_8) main_call5

/-- First round, nodes: normalisation and residual. -/
def cC3 : List (HloOp τ sig (Elt F)) :=
  [ unary main_v65 main_v67 (broadcastInDim S8192x64 ![0, 1] bcast_S8192x1_S8192x64_0_1),
    binary main_v57 main_v67 main_v68 subf,
    nullary main_cst_9 eps5,
    unary main_cst_9 main_v69 (broadcastInDim S8192x1 ![] bcast_S_S8192x1),
    binary main_v66 main_v69 main_v70 addf,
    unary main_v70 main_v71 Host.sqrt,
    unary main_v71 main_v72 (broadcastInDim S8192x64 ![0, 1] bcast_S8192x1_S8192x64_0_1),
    binary main_v68 main_v72 main_v73 Host.divf,
    unary main_v59 main_v74 (broadcastInDim S1x64 ![1] bcast_S64_S1x64_1),
    unary main_v74 main_v75 (broadcastInDim S8192x64 ![0, 1] bcast_S1x64_S8192x64_0_1),
    binary main_v73 main_v75 main_v76 mulf,
    unary main_v61 main_v77 (broadcastInDim S1x64 ![1] bcast_S64_S1x64_1),
    unary main_v77 main_v78 (broadcastInDim S8192x64 ![0, 1] bcast_S1x64_S8192x64_0_1),
    binary main_v76 main_v78 main_v79 addf,
    binary main_arg1 main_v79 main_v80 addf ]

/-- Second round, hyperedges, over the first round's features: `reluE (affE …)`. -/
def cD1 : List (HloOp τ sig (Elt F)) :=
  [ unary main_arg0 main_v81 (transpose S4096x8192 [1, 0] · transposes_S8192x4096_S4096x8192_1_0),
    binary main_v81 main_v80 main_v82 (fun l r => Host.dotGeneral dot_S4096x8192_S8192x64_S4096x64_1_0_0_1_n_n none l r),
    unary main_v1 main_v83 (broadcastInDim S4096x1 ![0] bcast_S4096_S4096x1_0),
    unary main_v83 main_v84 (broadcastInDim S4096x64 ![0, 1] bcast_S4096x1_S4096x64_0_1),
    binary main_v82 main_v84 main_v85 Host.divf,
    binary main_v42 main_v85 main_v86 (fun a b => concatenate S4096x128 1 [⟨S4096x64, a⟩, ⟨S4096x64, b⟩] concatenates_S4096x64_S4096x64_S4096x128_d1),
    unary main_arg3 main_v87 (extractStridedSlice S1x64x128 ![1, 0, 0] · slices_S2x64x128_S1x64x128_1_0_0),
    reshape main_v87 main_v88 rfl shapeCasts_S1x64x128_S64x128,
    unary main_v88 main_v89 (transpose S128x64 [1, 0] · transposes_S64x128_S128x64_1_0),
    binary main_v86 main_v89 main_v90 (fun l r => Host.dotGeneral dot_S4096x128_S128x64_S4096x64_1_0_0_1_n_n none l r),
    unary main_arg4 main_v91 (extractStridedSlice S1x64 ![1, 0] · slices_S2x64_S1x64_1_0),
    reshape main_v91 main_v92 rfl shapeCasts_S1x64_S64,
    unary main_v92 main_v93 (broadcastInDim S1x64 ![1] bcast_S64_S1x64_1),
    unary main_v93 main_v94 (broadcastInDim S4096x64 ![0, 1] bcast_S1x64_S4096x64_0_1),
    binary main_v90 main_v94 main_v95 addf ] ++
    reluOps (.of main_v95) main_call6

/-- Second round, hyperedges: the rows of gain and shift, `meanE`, and the zero correction of the variance's divisor. -/
def cD2a : List (HloOp τ sig (Elt F)) :=
  [ unary main_arg5 main_v97 (extractStridedSlice S1x64 ![1, 0] · slices_S2x64_S1x64_1_0),
    reshape main_v97 main_v98 rfl shapeCasts_S1x64_S64,
    unary main_arg6 main_v99 (extractStridedSlice S1x64 ![1, 0] · slices_S2x64_S1x64_1_0),
    reshape main_v99 main_v100 rfl shapeCasts_S1x64_S64,
    nullary main_cst_10 zero,
    binary main_v96 main_cst_10 main_v101 (fun x v => Host.reduceAdd x v reducesTo_S4096x64_S4096_d1 h_S_),
    unary main_v101 main_v102 (broadcastInDim S4096x1 ![0] bcast_S4096_S4096x1_0),
    nullary main_cst_11 c64,
    unary main_cst_11 main_v103 (broadcastInDim S4096x1 ![] bcast_S_S4096x1),
    binary main_v102 main_v103 main_v104 Host.divf,
    nullary main_c_12 (constantI S_ 32 0#32) ]

theorem main_part1_eq (c : Dev nD) : main_part1 (F := F) c = seq (cC1 ++ cC2 ++ cC3 ++ cD1 ++ cD2a) := rfl

variable (V : Valuation τ sig (Elt F))

theorem cC1_v57 :
    after cC1 V (no_index (Proc.devRef .tc main_v57)) = reluN (biasN (V main_v51) (row0 (V main_arg8))) := by
  simp only [cC1, relu1Ops, List.cons_append, List.nil_append]; after_results_simp; rfl
theorem cC2_v59 :
    after cC2 V (no_index (Proc.devRef .tc main_v59)) = row0 (V main_arg9) := by
  simp only [cC2, var2Ops, List.cons_append, List.nil_append]; after_results_simp; rfl
theorem cC2_v61 :
    after cC2 V (no_index (Proc.devRef .tc main_v61)) = row0 (V main_arg10) := by
  simp only [cC2, var2Ops, List.cons_append, List.nil_append]; after_results_simp; rfl
theorem cC2_v65 :
    after cC2 V (no_index (Proc.devRef .tc main_v65)) = meanN (V main_v57) := by
  simp only [cC2, var2Ops, List.cons_append, List.nil_append]; after_results_simp; rfl
theorem cC2_v66 :
    after cC2 V (no_index (Proc.devRef .tc main_v66)) = varN (V main_v57) := by
  simp only [cC2, var2Ops, List.cons_append, List.nil_append]; after_results_simp; rfl
theorem cC3_v80 :
    after cC3 V (no_index (Proc.devRef .tc main_v80)) = addf (V main_arg1) (normWith factsN (V main_v57) (V main_v65) (V main_v66) (V main_v59) (V main_v61)) := by
  unfold cC3; after_results_simp; rfl
theorem cD1_v96 :
    after cD1 V (no_index (Proc.devRef .tc main_v96)) = reluE (affE (V main_v42) (msgE (V main_arg0) (V main_v80) (V main_v1)) (w1 (V main_arg3)) (row1 (V main_arg4))) := by
  simp only [cD1, reluOps, List.cons_append, List.nil_append]; after_results_simp; rfl
theorem cD2a_v98 :
    after cD2a V (no_index (Proc.devRef .tc main_v98)) = row1 (V main_arg5) := by
  unfold cD2a; after_results_simp; rfl
theorem cD2a_v100 :
    after cD2a V (no_index (Proc.devRef .tc main_v100)) = row1 (V main_arg6) := by
  unfold cD2a; after_results_simp; rfl
theorem cD2a_v104 :
    after cD2a V (no_index (Proc.devRef .tc main_v104)) = meanE (V main_v96) := by
  unfold cD2a; after_results_simp; rfl
theorem cD2a_c_12 :
    after cD2a V (no_index (Proc.devRef .tc main_c_12)) = (constantI S_ 32 0#32 : (⟨S_, .i32⟩ : BufTy).Contents (Elt F)) := by
  unfold cD2a; after_results_simp

end Cert.ReferenceIdeal.Hand

end
-- ==== Proof.RefRunOps2.lean ====
import proofs.«107338_g5892695130345_cont_sun_m_578_37_alg».proof.Proof.RefRunAux

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

/-- Second round, hyperedges: `varWithE`. -/
def cD2b : List (HloOp τ sig (Elt F)) :=
  varOps (.of main_v96) (.of main_c_12) main_call7

/-- Second round, hyperedges: normalisation and residual. -/
def cD3 : List (HloOp τ sig (Elt F)) :=
  [ unary main_v104 main_v106 (broadcastInDim S4096x64 ![0, 1] bcast_S4096x1_S4096x64_0_1),
    binary main_v96 main_v106 main_v107 subf,
    nullary main_cst_13 eps5,
    unary main_cst_13 main_v108 (broadcastInDim S4096x1 ![] bcast_S_S4096x1),
    binary main_v105 main_v108 main_v109 addf,
    unary main_v109 main_v110 Host.sqrt,
    unary main_v110 main_v111 (broadcastInDim S4096x64 ![0, 1] bcast_S4096x1_S4096x64_0_1),
    binary main_v107 main_v111 main_v112 Host.divf,
    unary main_v98 main_v113 (broadcastInDim S1x64 ![1] bcast_S64_S1x64_1),
    unary main_v113 main_v114 (broadcastInDim S4096x64 ![0, 1] bcast_S1x64_S4096x64_0_1),
    binary main_v112 main_v114 main_v115 mulf,
    unary main_v100 main_v116 (broadcastInDim S1x64 ![1] bcast_S64_S1x64_1),
    unary main_v116 main_v117 (broadcastInDim S4096x64 ![0, 1] bcast_S1x64_S4096x64_0_1),
    binary main_v115 main_v117 main_v118 addf,
    binary main_v42 main_v118 main_v119 addf ]

/-- Second round, nodes: their update, which `out` does not use. -/
def cX : List (HloOp τ sig (Elt F)) :=
  [ binary main_arg0 main_v119 main_v120 (fun l r => Host.dotGeneral dot_S8192x4096_S4096x64_S8192x64_1_0_0_1_n_n none l r),
    unary main_v3 main_v121 (broadcastInDim S8192x1 ![0] bcast_S8192_S8192x1_0),
    unary main_v121 main_v122 (broadcastInDim S8192x64 ![0, 1] bcast_S8192x1_S8192x64_0_1),
    binary main_v120 main_v122 main_v123 Host.divf,
    binary main_v80 main_v123 main_v124 (fun a b => concatenate S8192x128 1 [⟨S8192x64, a⟩, ⟨S8192x64, b⟩] concatenates_S8192x64_S8192x64_S8192x128_d1),
    unary main_arg7 main_v125 (extractStridedSlice S1x64x128 ![1, 0, 0] · slices_S2x64x128_S1x64x128_1_0_0),
    reshape main_v125 main_v126 rfl shapeCasts_S1x64x128_S64x128,
    unary main_v126 main_v127 (transpose S128x64 [1, 0] · transposes_S64x128_S128x64_1_0),
    binary main_v124 main_v127 main_v128 (fun l r => Host.dotGeneral dot_S8192x128_S128x64_S8192x64_1_0_0_1_n_n none l r),
    unary main_arg8 main_v129 (extractStridedSlice S1x64 ![1, 0] · slices_S2x64_S1x64_1_0),
    reshape main_v129 main_v130 rfl shapeCasts_S1x64_S64,
    unary main_v130 main_v131 (broadcastInDim S1x64 ![1] bcast_S64_S1x64_1),
    unary main_v131 main_v132 (broadcastInDim S8192x64 ![0, 1] bcast_S1x64_S8192x64_0_1),
    binary main_v128 main_v132 main_v133 addf ] ++
    relu1Ops (.of main_v133) main_call8 ++
  [ unary main_arg9 main_v135 (extractStridedSlice S1x64 ![1, 0] · slices_S2x64_S1x64_1_0),
    reshape main_v135 main_v136 rfl shapeCasts_S1x64_S64,
    unary main_arg10 main_v137 (extractStridedSlice S1x64 ![1, 0] · slices_S2x64_S1x64_1_0),
    reshape main_v137 main_v138 rfl shapeCasts_S1x64_S64,
    nullary main_cst_14 zero,
    binary main_v134 main_cst_14 main_v139 (fun x v => Host.reduceAdd x v reducesTo_S8192x64_S8192_d1 h_S_),
    unary main_v139 main_v140 (broadcastInDim S8192x1 ![0] bcast_S8192_S8192x1_0),
    nullary main_cst_15 c64,
    unary main_cst_15 main_v141 (broadcastInDim S8192x1 ![] bcast_S_S8192x1),
    binary main_v140 main_v141 main_v142 Host.divf,
    nullary main_c_16 (constantI S_ 32 0#32) ] ++
    var2Ops (.of main_v134) (.of main_c_16) main_call9 ++
  [ unary main_v142 main_v144 (broadcastInDim S8192x64 ![0, 1] bcast_S8192x1_S8192x64_0_1),
    binary main_v134 main_v144 main_v145 subf,
    nullary main_cst_17 eps5,
    unary main_cst_17 main_v146 (broadcastInDim S8192x1 ![] bcast_S_S8192x1),
    binary main_v143 main_v146 main_v147 addf,
    unary main_v147 main_v148 Host.sqrt,
    unary main_v148 main_v149 (broadcastInDim S8192x64 ![0, 1] bcast_S8192x1_S8192x64_0_1),
    binary main_v145 main_v149 main_v150 Host.divf,
    unary main_v136 main_v151 (broadcastInDim S1x64 ![1] bcast_S64_S1x64_1),
    unary main_v151 main_v152 (broadcastInDim S8192x64 ![0, 1] bcast_S1x64_S8192x64_0_1),
    binary main_v150 main_v152 main_v153 mulf,
    unary main_v138 main_v154 (broadcastInDim S1x64 ![1] bcast_S64_S1x64_1),
    unary main_v154 main_v155 (broadcastInDim S8192x64 ![0, 1] bcast_S1x64_S8192x64_0_1),
    binary main_v153 main_v155 main_v156 addf,
    binary main_v80 main_v156 main_v157 addf ]

/-- `dotOut`. -/
def cR1 : List (HloOp τ sig (Elt F)) :=
  [ unary main_arg11 main_v158 (transpose S64x1 [1, 0] · transposes_S1x64_S64x1_1_0),
    binary main_v119 main_v158 main_v159 (fun l r => Host.dotGeneral dot_S4096x64_S64x1_S4096x1_1_0_0_1_n_n none l r) ]

theorem main_part2_eq (c : Dev nD) : main_part2 (F := F) c = seq (cD2b ++ cD3 ++ cX ++ cR1) := rfl

variable (V : Valuation τ sig (Elt F))

theorem cD2b_v105 :
    after cD2b V (no_index (Proc.devRef .tc main_v105)) = varWithE (V main_v96) (V main_c_12) := by
  simp only [cD2b, varOps]; after_results_simp; rfl
theorem cD3_v119 :
    after cD3 V (no_index (Proc.devRef .tc main_v119)) = addf (V main_v42) (normWith factsE (V main_v96) (V main_v104) (V main_v105) (V main_v98) (V main_v100)) := by
  unfold cD3; after_results_simp; rfl
theorem cR1_v159 :
    after cR1 V (no_index (Proc.devRef .tc main_v159)) = dotOut (V main_v119) (V main_arg11) := by
  unfold cR1; after_results_simp; rfl

end Cert.ReferenceIdeal.Hand

end
-- ==== Proof.RefRunOps3.lean ====
import proofs.«107338_g5892695130345_cont_sun_m_578_37_alg».proof.Proof.RefRunAux

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

/-- `logitWith`, then `sigm`, flattened to a vector. -/
def cR2 : List (HloOp τ sig (Elt F)) :=
  [ unary main_arg12 main_v160 (broadcastInDim S1x1 ![1] bcast_S1_S1x1_1),
    unary main_v160 main_v161 (broadcastInDim S4096x1 ![0, 1] bcast_S1x1_S4096x1_0_1),
    binary main_v159 main_v161 main_v162 addf,
    nullary main_cst_18 beta,
    unary main_cst_18 main_v163 (broadcastInDim S4096x1 ![] bcast_S_S4096x1),
    binary main_v163 main_v162 main_v164 mulf,
    unary main_v164 main_v165 Host.negf,
    unary main_v165 main_v166 Host.exp,
    nullary main_cst_19 one,
    unary main_cst_19 main_v167 (broadcastInDim S4096x1 ![] bcast_S_S4096x1),
    binary main_v167 main_v166 main_v168 addf,
    nullary main_cst_20 one,
    unary main_cst_20 main_v169 (broadcastInDim S4096x1 ![] bcast_S_S4096x1),
    binary main_v169 main_v168 main_v170 Host.divf,
    reshape main_v170 main_v171 rfl shapeCasts_S4096x1_S4096 ]

theorem main_part3_eq (c : Dev nD) : main_part3 (F := F) c = seq cR2 := rfl

variable (V : Valuation τ sig (Elt F))

theorem cR2_v171 :
    after cR2 V (no_index (Proc.devRef .tc main_v171)) = shapeCast S4096 (sigm (logitWith (V main_v159) (V main_arg12))) shapeCasts_S4096x1_S4096 := by
  unfold cR2; after_results_simp; rfl

end Cert.ReferenceIdeal.Hand

end
-- ==== Proof.RefRun.lean ====
import proofs.«107338_g5892695130345_cont_sun_m_578_37_alg».proof.Proof.RefRunOps0
import proofs.«107338_g5892695130345_cont_sun_m_578_37_alg».proof.Proof.RefRunOps1
import proofs.«107338_g5892695130345_cont_sun_m_578_37_alg».proof.Proof.RefRunOps2
import proofs.«107338_g5892695130345_cont_sun_m_578_37_alg».proof.Proof.RefRunOps3
import Idealize.ShloMosaic.Lib.StableHlo.RunLoop

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

/-- The hypotheses of a straight line's run on one operation, and: every buffer it writes has its index in `[lo, hi)`. -/
def Ok (lo hi : ℕ) (op : HloOp τ sig (Elt F)) : Prop :=
  op.bufs ⊆ tcRefs τ sig ∧ op.fresh = ∅ ∧ ∀ b ∈ op.writes, ∃ r : Ref sig .tc, b = Proc.devRef .tc r ∧ lo ≤ r.idx.val ∧ r.idx.val < hi

theorem Ok.mono {lo hi lo' hi' : ℕ} (h : lo' ≤ lo) (h' : hi ≤ hi') {op : HloOp τ sig (Elt F)} (o : Ok lo hi op) : Ok lo' hi' op :=
  ⟨o.1, o.2.1, fun b hb => let ⟨r, e, h1, h2⟩ := o.2.2 b hb; ⟨r, e, h.trans h1, h2.trans_le h'⟩⟩

/-- A buffer whose index is outside the range keeps its contents through the operations. -/
theorem keep {l : List (HloOp τ sig (Elt F))} {lo hi : ℕ} (h : l.Forall (Ok lo hi)) (V : Valuation τ sig (Elt F)) {r : Ref sig .tc}
    (hr : ¬(lo ≤ r.idx.val ∧ r.idx.val < hi)) : after l V (no_index (Proc.devRef .tc r)) = V (Proc.devRef .tc r) :=
  after_of_forall_not_mem l V fun op hop hb =>
    let ⟨_, e, hy⟩ := (List.forall_iff_forall_mem.mp h op hop).2.2 _ hb
    hr (Proc.devRef_injective _ e ▸ hy)

/-- Chunks each writing inside its own range make one line writing inside any range that holds them all. -/
theorem ok_flatten {lo hi : ℕ} : ∀ cs : List (List (HloOp τ sig (Elt F)) × ℕ × ℕ), (cs.Forall fun p => p.1.Forall (Ok p.2.1 p.2.2)) →
    (cs.Forall fun p => lo ≤ p.2.1 ∧ p.2.2 ≤ hi) → (cs.map Prod.fst).flatten.Forall (Ok lo hi)
  | [], _, _ => trivial
  | p :: cs, h, b => by
    rw [List.forall_cons] at h b
    rw [List.map_cons, List.flatten_cons, List.forall_append]
    exact ⟨h.1.imp fun _ o => o.mono b.1.1 b.1.2, ok_flatten cs h.2 b.2⟩

/-- The program's operations in fourteen chunks; the buffers are numbered in the order they are written, so each chunk writes a range of indices. -/
def chunks : List (List (HloOp τ sig (Elt F)) × ℕ × ℕ) :=
  [(cA, 13, 25), (cB1, 25, 43), (cB2, 43, 77), (cB3, 77, 101), (cC1, 101, 109), (cC2, 109, 143), (cC3, 143, 158),
    (cD1, 158, 176), (cD2a, 176, 187), (cD2b, 187, 210), (cD3, 210, 225), (cX, 225, 291), (cR1, 291, 293), (cR2, 293, 308)]

theorem chunks_ok : (chunks (F := F)).Forall fun p => p.1.Forall (Ok p.2.1 p.2.2) := by
  simp only [chunks, cA, cB1, cB2, cB3, cC1, cC2, cC3, cD1, cD2a, cD2b, cD3, cX, cR1, cR2, reluOps, relu1Ops, varOps, var2Ops, List.cons_append,
    List.nil_append, List.Forall, Ok, nullary_bufs_sub, unary_bufs_sub,
    binary_bufs_sub, ternary_bufs_sub, reshape_bufs_sub, nullary_writes, unary_writes, binary_writes, ternary_writes, reshape_writes,
    Finset.mem_singleton, forall_eq, true_and]
  and_intros <;> first | rfl | exact ⟨_, rfl, by decide⟩

def ops : List (HloOp τ sig (Elt F)) := ((chunks (F := F)).map Prod.fst).flatten

theorem ops_ok : (ops (F := F)).Forall (Ok 13 308) := ok_flatten _ chunks_ok (by simp only [chunks, List.Forall]; decide)

/-- @main is the straight line of its operations: window by window. -/
theorem main_eq (c : Dev nD) : main (F := F) c = seq ops := by
  simp only [main, main_part0_eq, main_part1_eq, main_part2_eq, main_part3_eq, ops, chunks, List.map_cons, List.map_nil, List.flatten_cons,
    List.flatten_nil, List.append_nil, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- The fold at the result buffer, read chunk by chunk from the last: the stages of `out` with the earlier chunks' values as parameters. -/
theorem ops_v171 (V : Valuation τ sig (Elt F)) :
    after ops V main_v171
      = out (V main_arg0) (V main_arg1) (V main_arg2) (V main_arg3) (V main_arg4) (V main_arg5) (V main_arg6) (V main_arg7) (V main_arg8) (V main_arg9) (V main_arg10) (V main_arg11) (V main_arg12) := by
  have h := chunks_ok (F := F)
  simp only [chunks, List.Forall] at h
  obtain ⟨a, b1, b2, b3, c1, c2, c3, d1, d2a, d2b, d3, x, r1, r2⟩ := h
  rw [ops, ← afterL_eq_after_flatten]
  simp only [chunks, List.map_cons, List.map_nil, afterL_cons, afterL_nil]
  simp (disch := decide) only [cA_v1, cA_v3, cB1_v19, cB2_v21, cB2_v23, cB2_v27, cB2_v28, cB3_v42, cB3_v51, cC1_v57, cC2_v59, cC2_v61, cC2_v65, cC2_v66, cC3_v80, cD1_v96, cD2a_v98, cD2a_v100, cD2a_v104, cD2a_c_12, cD2b_v105, cD3_v119, cR1_v159, cR2_v171,
    keep a, keep b1, keep b2, keep b3, keep c1, keep c2, keep c3, keep d1, keep d2a, keep d2b, keep d3, keep x, keep r1, keep r2]
  simp only [varWithE_zero, meanE, varE, meanN, varN, normWith_eq, biasN_preAffN, logitWith_dotOut]
  rfl

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v171) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
      have k : ∀ {r : Ref sig .tc}, ¬(13 ≤ r.idx.val ∧ r.idx.val < 308) → _ = m ((c.tc : Thread nD τ).loc r) :=
        fun hr => (h c _).trans (keep ops_ok (launchContents m c) hr)
      ⟨(h c main_v171).trans (ops_v171 _), k (by decide), k (by decide), k (by decide), k (by decide), k (by decide), k (by decide), k (by decide),
        k (by decide), k (by decide), k (by decide), k (by decide), k (by decide), k (by decide)⟩)
    (run_seq scopedRefs_eq scopedSems_eq defs main (fun _ => ops) main_eq (fun _ => ops_ok.imp fun _ o => o.1) m ρ
      fun _ => List.forall_iff_forall_mem.mp (ops_ok.imp fun _ o => o.2.1))

end Cert.ReferenceIdeal.Hand

end
-- ==== Proof.RefValLib.lean ====
import proofs.«107338_g5892695130345_cont_sun_m_578_37_alg».proof.Proof.LibRowNet

noncomputable section

namespace Cert.ReferenceIdeal.HandVal

open Idealize.ShloMosaic Idealize.ShloMosaic.ValueIdx HGNet HGNet.RowNet

theorem vec_ext {a : Nat} {α : Type} {x y : (⟨1, ![a]⟩ : Shape).Idx → α} (h : ∀ p, x (ix1 p) = y (ix1 p)) : x = y :=
  funext fun j => (congrArg x (eq_ix1 j)).trans ((h _).trans (congrArg y (eq_ix1 j)).symm)

theorem vec_ix1 {a : Nat} (f : Fin a → ℝ) (i : Fin a) : Emb.vec f (ix1 i) = ((f i : ℝ) : EReal) := rfl

theorem bcastCol_apply {α : Type} {R n : Nat} (h : (⟨2, ![R, 1]⟩ : Shape).BroadcastsInDim ⟨2, ![R, n]⟩ ![0, 1])
    (x : (⟨2, ![R, 1]⟩ : Shape).Idx → α) (i : Fin R) (d : Fin n) :
    broadcastInDim ⟨2, ![R, n]⟩ ![0, 1] h x (ix2 i d) = x (ix2 i (0 : Fin 1)) :=
  by
  refine broadcastInDim_apply ![0, 1] h x (ix2 i d) (ix2 i (0 : Fin 1)) fun a => ?_
  match a with
  | ⟨0, _⟩ => exact val_eq_ite i
  | ⟨1, _⟩ => exact (if_pos rfl).symm

theorem bcastVecCol_apply {α : Type} {R : Nat} (h : (⟨1, ![R]⟩ : Shape).BroadcastsInDim ⟨2, ![R, 1]⟩ ![0])
    (x : (⟨1, ![R]⟩ : Shape).Idx → α) (i : Fin R) (c : Fin 1) :
    broadcastInDim ⟨2, ![R, 1]⟩ ![0] h x (ix2 i c) = x (ix1 i) :=
  by
  refine broadcastInDim_apply ![0] h x (ix2 i c) (ix1 i) fun a => ?_
  match a with
  | ⟨0, _⟩ => exact val_eq_ite i

-- A vector laid along every row: the two broadcasts composed.
theorem bcastRowOf_apply {α : Type} {R n : Nat} (h1 : (⟨2, ![1, n]⟩ : Shape).BroadcastsInDim ⟨2, ![R, n]⟩ ![0, 1])
    (h2 : (⟨1, ![n]⟩ : Shape).BroadcastsInDim ⟨2, ![1, n]⟩ ![1]) (x : (⟨1, ![n]⟩ : Shape).Idx → α) (i : Fin R) (t : Fin n) :
    broadcastInDim ⟨2, ![R, n]⟩ ![0, 1] h1 (broadcastInDim ⟨2, ![1, n]⟩ ![1] h2 x) (ix2 i t) = x (ix1 t) :=
  by
  refine (broadcastInDim_oneRow_apply h1 _ i t).trans (broadcastInDim_apply ![1] h2 x _ (ix1 t) fun a => ?_)
  match a with
  | ⟨0, _⟩ => exact val_eq_ite t

-- The sum along a row: the initial scalar plus the sum of the row's entries.
theorem reduceRow_apply {R n : Nat} (x : FVec Ideal ⟨2, ![R, n]⟩ .f32) (init : (⟨0, ![]⟩ : Shape).Idx → Ideal .f32)
    (h' : (⟨2, ![R, n]⟩ : Shape).ReducesTo [1] ⟨1, ![R]⟩) (hu : 0 < (⟨0, ![]⟩ : Shape).numel) (i : Fin R) :
    Host.reduceAdd x init h' hu (ix1 i) = init ix0 + ∑ k : Fin n, x (ix2 i k) := by
  have h : (⟨2, ![R, n]⟩ : Shape).Reduces [1] ⟨1, ![R]⟩ := ⟨h'.1, Nat.one_pos, h'.2⟩
  rw [hostReduceAdd_apply, Ideal.hostReduceAdd_single h' h, eq_ix0 (Shape.Idx.first hu)]
  exact congrArg (init ix0 + ·) (Finset.sum_congr rfl fun k _ => congrArg x ((eq_ix2 _).trans rfl))

-- The sum along a column.
theorem reduceCol_apply {R n : Nat} (x : FVec Ideal ⟨2, ![R, n]⟩ .f32) (init : (⟨0, ![]⟩ : Shape).Idx → Ideal .f32)
    (h' : (⟨2, ![R, n]⟩ : Shape).ReducesTo [0] ⟨1, ![n]⟩) (hu : 0 < (⟨0, ![]⟩ : Shape).numel) (j : Fin n) :
    Host.reduceAdd x init h' hu (ix1 j) = init ix0 + ∑ i : Fin R, x (ix2 i j) := by
  have h : (⟨2, ![R, n]⟩ : Shape).Reduces [0] ⟨1, ![n]⟩ := ⟨h'.1, Nat.one_pos, h'.2⟩
  rw [hostReduceAdd_apply, Ideal.hostReduceAdd_single h' h, eq_ix0 (Shape.Idx.first hu)]
  exact congrArg (init ix0 + ·) (Finset.sum_congr rfl fun k _ => congrArg x ((eq_ix2 _).trans rfl))

-- Two 64-wide matrices side by side read at (i, k): the row of 128 the update consumes.
theorem concat_apply {R : Nat} (self msg : Fin R → Fin 64 → ℝ)
    (h : Shape.Concatenates [(⟨2, ![R, 64]⟩ : Shape), ⟨2, ![R, 64]⟩] ⟨2, ![R, 128]⟩ 1) (i : Fin R) (k : Fin 128) :
    concatenate (⟨2, ![R, 128]⟩ : Shape) 1 [⟨(⟨2, ![R, 64]⟩ : Shape), Emb.mat self⟩, ⟨(⟨2, ![R, 64]⟩ : Shape), Emb.mat msg⟩] h (ix2 i k)
      = ((HGNet.cat (self i) (msg i) k : ℝ) : EReal) :=
  congrFun (concat_mat self msg rfl h) (ix2 i k)

theorem slice3_axis0_apply {α : Type} {n0 n1 n2 : Nat} (o : Nat) (X : (⟨3, ![n0, n1, n2]⟩ : Shape).Idx → α)
    (h : (⟨3, ![n0, n1, n2]⟩ : Shape).Slices ![o, 0, 0] ⟨3, ![1, n1, n2]⟩) (u : Fin 1) (b : Fin n1) (c : Fin n2)
    (k : Fin n0) (hk : k.val = o) :
    extractStridedSlice ⟨3, ![1, n1, n2]⟩ ![o, 0, 0] X h (ix3 u b c) = X (ix3 k b c) :=
  extractStridedSlice_apply _ _ _ _ _ fun
    | ⟨0, _⟩ => by show k.val = o + u.val; have := u.isLt; omega
    | ⟨1, _⟩ => (Nat.zero_add _).symm
    | ⟨2, _⟩ => (Nat.zero_add _).symm

theorem shapeCast_a1_a_apply {α : Type} {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.ReferenceIdeal.HandVal

end
-- ==== Proof.RefValDeg.lean ====
import proofs.«107338_g5892695130345_cont_sun_m_578_37_alg».proof.Proof.RefOut
import proofs.«107338_g5892695130345_cont_sun_m_578_37_alg».proof.Proof.LibRowReal
import proofs.«107338_g5892695130345_cont_sun_m_578_37_alg».proof.Proof.RefValLib

noncomputable section

namespace Cert.ReferenceIdeal.HandVal

open Cert.ReferenceIdeal Idealize.ShloMosaic Idealize.ShloMosaic.ValueIdx HGNet HGNet.RowNet
open Cert.ReferenceIdeal.Facts₀ Cert.ReferenceIdeal.Facts

variable [Facts]

theorem zero_ix0 : Hand.zero (F := Ideal) ix0 = ((0 : ℝ) : EReal) := IdealReal.ofBits_zero
theorem eps6_ix0 : Hand.eps6 (F := Ideal) ix0 = ((κ0.eps6 : ℝ) : EReal) := IdealReal.ofBits_eps6
theorem eps5_ix0 : Hand.eps5 (F := Ideal) ix0 = ((κ0.eps5 : ℝ) : EReal) := IdealReal.ofBits_eps5
theorem c64_ix0 : Hand.c64 (F := Ideal) ix0 = ((κ0.n64 : ℝ) : EReal) := IdealReal.ofBits_n64
theorem beta_ix0 : Hand.beta (F := Ideal) ix0 = ((κ0.beta : ℝ) : EReal) := IdealReal.ofBits_beta
theorem one_ix0 : Hand.one (F := Ideal) ix0 = ((1 : ℝ) : EReal) := IdealReal.ofBits_one
-- The variance's divisor, 64 less the integer 0 made a float, is 64.
theorem nCorr_ix0 : Hand.nCorr (F := Ideal) ix0 = ((κ0.n64 : ℝ) : EReal) := by
  show Ideal.ofBits .f32 0x42800000#32 - (((0#32 : BitVec 32).toInt : ℝ) : EReal) = _
  rw [IdealReal.ofBits_n64]
  simp
-- It is above zero, so the select keeps the quotient.
theorem guard_ix0 :
    (cmpf (F := Ideal) (s := S_) (φ := .f32) .ogt (Hand.nCorr (F := Ideal)) (Hand.zero (F := Ideal))) ix0 = 1#1 := by
  show Ideal.cmp .ogt (Hand.nCorr (F := Ideal) ix0) (Hand.zero (F := Ideal) ix0) = 1#1
  rw [nCorr_ix0, zero_ix0]
  simp [Ideal.cmp, IdealReal.n64_pos]

theorem wAt_val (W : Fin 2 → Fin 64 → Fin 128 → ℝ) (o : Fin 2) (h : S2x64x128.Slices ![o.val, 0, 0] S1x64x128) :
    Hand.wAt (F := Ideal) o.val h (Emb.ten W) = Emb.mat (fun k d => W o d k) :=
  mat_ext fun k d => by
    unfold Hand.wAt
    rw [transpose_ix2_apply, shapeCast_1ab_ab_apply, slice3_axis0_apply o.val _ _ _ _ _ o rfl]
    rfl
theorem w0_val (W : Fin 2 → Fin 64 → Fin 128 → ℝ) : Hand.w0 (F := Ideal) (Emb.ten W) = Emb.mat (fun k d => W 0 d k) :=
  wAt_val W 0 _
theorem w1_val (W : Fin 2 → Fin 64 → Fin 128 → ℝ) : Hand.w1 (F := Ideal) (Emb.ten W) = Emb.mat (fun k d => W 1 d k) :=
  wAt_val W 1 _

theorem rowAt_val (b : Fin 2 → Fin 64 → ℝ) (o : Fin 2) (h : S2x64.Slices ![o.val, 0] S1x64) :
    Hand.rowAt (F := Ideal) o.val h (Emb.mat b) = Emb.vec (b o) :=
  vec_ext fun d => by
    unfold Hand.rowAt
    rw [shapeCast_1a_a_apply, slice2_axis0_apply o.val _ _ _ _ o rfl]
    rfl
theorem row0_val (b : Fin 2 → Fin 64 → ℝ) : Hand.row0 (F := Ideal) (Emb.mat b) = Emb.vec (b 0) := rowAt_val b 0 _
theorem row1_val (b : Fin 2 → Fin 64 → ℝ) : Hand.row1 (F := Ideal) (Emb.mat b) = Emb.vec (b 1) := rowAt_val b 1 _

theorem degE_val (A : Fin 8192 → Fin 4096 → ℝ) : Hand.degE (F := Ideal) (Emb.mat A) = Emb.vec (HGNet.edgeDeg κ0 A) :=
  vec_ext fun j => by
    unfold Hand.degE
    rw [maximumf_apply, broadcastInDim_scalar_apply, reduceCol_apply, eps6_ix0, zero_ix0]
    simp only [mat_apply]
    rw [IdealReal.sum_coe, IdealReal.add_coe, IdealReal.max_coe, zero_add]
    rfl

theorem degN_val (A : Fin 8192 → Fin 4096 → ℝ) : Hand.degN (F := Ideal) (Emb.mat A) = Emb.vec (HGNet.nodeDeg κ0 A) :=
  vec_ext fun i => by
    unfold Hand.degN
    rw [maximumf_apply, broadcastInDim_scalar_apply, reduceRow_apply, eps6_ix0, zero_ix0]
    simp only [mat_apply]
    rw [IdealReal.sum_coe, IdealReal.add_coe, IdealReal.max_coe, zero_add]
    rfl

end Cert.ReferenceIdeal.HandVal

end
-- ==== Proof.RefValMsg.lean ====
import proofs.«107338_g5892695130345_cont_sun_m_578_37_alg».proof.Proof.RefValDeg

noncomputable section

namespace Cert.ReferenceIdeal.HandVal

open Cert.ReferenceIdeal Idealize.ShloMosaic Idealize.ShloMosaic.ValueIdx HGNet HGNet.RowNet
open Cert.ReferenceIdeal.Facts₀ Cert.ReferenceIdeal.Facts

variable [Facts]

-- The gathered sums over a degree that is not zero: the quotient is the real one.
theorem msg_val {R K : Nat} (f : Hand.RowFacts R) (M : Fin R → Fin K → ℝ) (x : Fin K → Fin 64 → ℝ) (dg : Fin R → ℝ)
    (hd : ∀ i, dg i ≠ 0) :
    Hand.msg (F := Ideal) f (Emb.mat M) (Emb.mat x) (Emb.vec dg) = Emb.mat (fun i d => (∑ k, M i k * x k d) / dg i) :=
  mat_ext fun i d => by
    unfold Hand.msg
    rw [hostDivf_apply, plainDot_apply, bcastCol_apply, bcastVecCol_apply, vec_ix1]
    simp only [mat_apply, IdealReal.mul_coe]
    rw [IdealReal.sum_coe, IdealReal.div_coe _ (hd i)]

theorem msgE_val (A : Fin 8192 → Fin 4096 → ℝ) (n : Fin 8192 → Fin 64 → ℝ) :
    Hand.msgE (F := Ideal) (Emb.mat A) (Emb.mat n) (Emb.vec (HGNet.edgeDeg κ0 A)) = Emb.mat (HGNet.edgeMsg κ0 A n) := by
  unfold Hand.msgE
  rw [transpose_mat]
  exact msg_val _ _ n _ fun _ => clipDeg_ne_zero κ0 IdealReal.eps6_pos _

theorem msgN_val (A : Fin 8192 → Fin 4096 → ℝ) (e : Fin 4096 → Fin 64 → ℝ) :
    Hand.msgN (F := Ideal) (Emb.mat A) (Emb.mat e) (Emb.vec (HGNet.nodeDeg κ0 A)) = Emb.mat (HGNet.nodeMsg κ0 A e) :=
  msg_val _ A e _ fun _ => clipDeg_ne_zero κ0 IdealReal.eps6_pos _

end Cert.ReferenceIdeal.HandVal

end
-- ==== Proof.RefValUpdE.lean ====
import proofs.«107338_g5892695130345_cont_sun_m_578_37_alg».proof.Proof.RefValDeg

noncomputable section

namespace Cert.ReferenceIdeal.HandVal

open Cert.ReferenceIdeal Idealize.ShloMosaic Idealize.ShloMosaic.ValueIdx HGNet HGNet.RowNet
open Cert.ReferenceIdeal.Facts₀ Cert.ReferenceIdeal.Facts

variable [Facts]

theorem hostSqrt_apply {s : Shape} (x : FVec Ideal s .f32) (i : s.Idx) : Host.sqrt x i = Ideal.sqrt (x i) := rfl

theorem mulMat_apply {R : Nat} (f g : Fin R → Fin 64 → ℝ) (i : Fin R) (k : Fin 64) :
    mulf (F := Ideal) (s := ⟨2, ![R, 64]⟩) (φ := .f32) (Emb.mat f) (Emb.mat g) (ix2 i k) = ((f i k * g i k : ℝ) : EReal) :=
  IdealReal.mul_coe _ _

theorem bcastGuard_apply {s : Shape} (h : S_.BroadcastsInDim s ![]) (j : s.Idx) :
    broadcastInDim s ![] h (cmpf (F := Ideal) (s := S_) (φ := .f32) .ogt (Hand.nCorr (F := Ideal)) (Hand.zero (F := Ideal))) j = 1#1 := by
  rw [broadcastInDim_scalar_apply]
  exact guard_ix0

section Stages
variable {R : Nat} (f : Hand.RowFacts R) (self msg h : Fin R → Fin 64 → ℝ) (W : Fin 64 → Fin 128 → ℝ) (b g bt : Fin 64 → ℝ)

theorem rowOf_apply (i : Fin R) (d : Fin 64) : Hand.rowOf (F := Ideal) f (Emb.vec b) (ix2 i d) = ((b d : ℝ) : EReal) := by
  unfold Hand.rowOf
  rw [bcastRowOf_apply, vec_ix1]

theorem aff_val : Hand.aff (F := Ideal) f (Emb.mat self) (Emb.mat msg) (Emb.mat fun k d => W d k) (Emb.vec b)
    = Emb.mat (fun i d => (∑ k, HGNet.cat (self i) (msg i) k * W d k) + b d) :=
  mat_ext fun i d => by
    unfold Hand.aff
    rw [addf_apply, plainDot_apply, rowOf_apply]
    simp only [concat_apply, mat_apply, IdealReal.mul_coe]
    rw [IdealReal.sum_coe, IdealReal.add_coe]

theorem relu_val : Hand.relu (F := Ideal) f (Emb.mat h) = Emb.mat (fun i d => max (h i d) 0) :=
  mat_ext fun i d => by
    unfold Hand.relu
    rw [maximumf_apply, broadcastInDim_scalar_apply, zero_ix0, mat_apply, IdealReal.max_coe]
    rfl

theorem mean_val : Hand.mean (F := Ideal) f (Emb.mat h) = Emb.mat (fun i (_ : Fin 1) => HGNet.mean64 κ0 (h i)) :=
  mat_ext fun i c => by
    unfold Hand.mean
    rw [hostDivf_apply, bcastVecCol_apply, reduceRow_apply, broadcastInDim_scalar_apply, zero_ix0, c64_ix0]
    simp only [mat_apply]
    rw [IdealReal.sum_coe, IdealReal.add_coe, zero_add, IdealReal.div_coe _ IdealReal.n64_ne_zero]
    rfl

theorem dev_val : Hand.dev (F := Ideal) f (Emb.mat h) = Emb.mat (fun i d => h i d - HGNet.mean64 κ0 (h i)) :=
  mat_ext fun i d => by
    unfold Hand.dev
    rw [subf_apply, bcastCol_apply, mean_val]
    simp only [mat_apply]
    rw [IdealReal.sub_coe]

theorem var_val : Hand.var (F := Ideal) f (Emb.mat h) = Emb.mat (fun i (_ : Fin 1) => HGNet.var64 κ0 (h i)) :=
  mat_ext fun i c => by
    unfold Hand.var
    rw [select_apply, bcastGuard_apply, select_one, hostDivf_apply, bcastVecCol_apply, dev_val, reduceRow_apply,
      broadcastInDim_scalar_apply, zero_ix0, nCorr_ix0]
    simp only [mulMat_apply]
    rw [IdealReal.sum_coe, IdealReal.add_coe, zero_add, IdealReal.div_coe _ IdealReal.n64_ne_zero]
    rfl

-- The variance plus its offset is positive, so the root and the quotient by it are the real ones.
theorem norm_val : Hand.norm (F := Ideal) f (Emb.mat h) (Emb.vec g) (Emb.vec bt)
    = Emb.mat (fun i => HGNet.layerNorm κ0 (h i) g bt) :=
  mat_ext fun i d => by
    have hv : 0 < HGNet.var64 κ0 (h i) + κ0.eps5 := varOffset_pos κ0 IdealReal.n64_pos IdealReal.eps5_pos _
    unfold Hand.norm
    rw [addf_apply, mulf_apply, hostDivf_apply, bcastCol_apply, hostSqrt_apply, addf_apply, var_val, dev_val,
      broadcastInDim_scalar_apply, eps5_ix0, rowOf_apply, rowOf_apply]
    simp only [mat_apply]
    rw [IdealReal.add_coe, IdealReal.sqrt_coe hv.le, IdealReal.div_coe _ (Real.sqrt_pos.2 hv).ne', IdealReal.mul_coe,
      IdealReal.add_coe]
    rfl

theorem upd_val : Hand.upd (F := Ideal) f (Emb.mat self) (Emb.mat msg) (Emb.mat fun k d => W d k) (Emb.vec b) (Emb.vec g) (Emb.vec bt)
    = Emb.mat (fun i => HGNet.upd κ0 (self i) (msg i) W b g bt) := by
  unfold Hand.upd
  rw [aff_val, relu_val, norm_val, addf_mat]
  rfl

end Stages

end Cert.ReferenceIdeal.HandVal

end
-- ==== Proof.RefValOut.lean ====
import proofs.«107338_g5892695130345_cont_sun_m_578_37_alg».proof.Proof.RefValMsg
import proofs.«107338_g5892695130345_cont_sun_m_578_37_alg».proof.Proof.RefValUpdE

noncomputable section

namespace Cert.ReferenceIdeal.HandVal

open Cert.ReferenceIdeal Idealize.ShloMosaic Idealize.ShloMosaic.ValueIdx HGNet HGNet.RowNet
open Cert.ReferenceIdeal.Facts₀ Cert.ReferenceIdeal.Facts

variable [Facts]

theorem hostExp_apply {s : Shape} (x : FVec Ideal s .f32) (i : s.Idx) : Host.exp x i = Ideal.exp (x i) := rfl
theorem hostNegf_apply {s : Shape} (x : FVec Ideal s .f32) (i : s.Idx) : Host.negf x i = -(x i) := rfl
theorem logit_val (e : Fin 4096 → Fin 64 → ℝ) (dW : Fin 64 → ℝ) (db : ℝ) :
    Hand.logit (F := Ideal) (Emb.mat e) (Emb.mat (fun (_ : Fin 1) d => dW d)) (Emb.vec (fun (_ : Fin 1) => db))
      = Emb.mat (fun j (_ : Fin 1) => (∑ d, e j d * dW d) + db) :=
  mat_ext fun j c => by
    unfold Hand.logit
    rw [addf_apply, show dot_S4096x64_S64x1_S4096x1_1_0_0_1_n_n = DotDims.plain 4096 64 1 from rfl, plainDot_apply,
      bcastRowOf_apply, vec_ix1, transpose_mat]
    simp only [mat_apply, IdealReal.mul_coe]
    rw [IdealReal.sum_coe, IdealReal.add_coe]

-- One plus an exponential is positive, so the quotient is the real one.
theorem sigm_val (z : Fin 4096 → ℝ) :
    Hand.sigm (F := Ideal) (Emb.mat (fun j (_ : Fin 1) => z j))
      = Emb.mat (fun j (_ : Fin 1) => 1 / (1 + Real.exp (-(κ0.beta * z j)))) :=
  mat_ext fun j c => by
    unfold Hand.sigm
    rw [hostDivf_apply, addf_apply, hostExp_apply, hostNegf_apply, mulf_apply, broadcastInDim_scalar_apply,
      broadcastInDim_scalar_apply, one_ix0, beta_ix0, mat_apply, IdealReal.mul_coe, IdealReal.neg_coe, IdealReal.exp_coe,
      IdealReal.add_coe, IdealReal.div_coe _ (add_pos one_pos (Real.exp_pos _)).ne']
    rfl

theorem out_real (A : Fin 8192 → Fin 4096 → ℝ) (n0 : Fin 8192 → Fin 64 → ℝ) (e0 : Fin 4096 → Fin 64 → ℝ) (P : HGNet.Params) :
    Cert.ReferenceIdeal.Hand.out (F := Ideal) (HGNet.Emb.mat A) (HGNet.Emb.mat n0) (HGNet.Emb.mat e0) (HGNet.Emb.ten P.eW)
      (HGNet.Emb.mat P.eb) (HGNet.Emb.mat P.eg) (HGNet.Emb.mat P.ebt) (HGNet.Emb.ten P.nW) (HGNet.Emb.mat P.nb)
      (HGNet.Emb.mat P.ng) (HGNet.Emb.mat P.nbt) (HGNet.Emb.mat (fun _ d => P.dW d)) (HGNet.Emb.vec (fun _ => P.db))
      = HGNet.Emb.vec (HGNet.probs HGNet.κ0 A P n0 e0) := by
  simp only [Hand.out, Hand.e1, Hand.n1, Hand.e2, degE_val, degN_val, msgE_val, msgN_val, w0_val, w1_val, row0_val, row1_val,
    upd_val, logit_val, sigm_val]
  exact vec_ext fun j => by rw [shapeCast_a1_a_apply, mat_apply]; rfl

end Cert.ReferenceIdeal.HandVal

end
-- ==== Proof.Finite.lean ====
import proofs.«107338_g5892695130345_cont_sun_m_578_37_alg».proof.Pre_finite_inputs
import proofs.«107338_g5892695130345_cont_sun_m_578_37_alg».proof.Proof.Gen.Pre_finite_inputs
import Idealize.ShloMosaic.Lib.ReduceAll
import Idealize.ShloMosaic.Lib.ValueIdx
import proofs.«107338_g5892695130345_cont_sun_m_578_37_alg».proof.Proof.Emb

noncomputable section

namespace HGNet.Finite

open Idealize.ShloMosaic Idealize.ShloMosaic.ValueIdx
open Cert.Pre_finite_inputs

-- One conjunct of the precondition: no entry is an infinity, whose magnitude max x (-x) is ⊤, not below ⊤.
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) : x i ≠ ⊤ ∧ x i ≠ ⊥ := by
  have h := Host.reduce_andi_all _ _ hr hu ix0 e i
  change Ideal.cmp .olt (max (x i) (-(x i))) (Ideal.ofBits .f32 0x7F800000#32) = 1#1 at h
  rw [show Ideal.ofBits .f32 0x7F800000#32 = ⊤ by simp [Ideal.ofBits, Ideal.ieee]] at h
  generalize x i = y at h ⊢
  induction y using EReal.rec with
  | bot => simp [Ideal.cmp] at h
  | top => simp [Ideal.cmp] at h
  | coe r => exact ⟨EReal.coe_ne_top r, EReal.coe_ne_bot r⟩

-- An entry that is neither infinity is the coercion of its real part, read at any equal index.
theorem coe_real {s : Shape} {x : s.Idx → EReal} (hx : ∀ i, x i ≠ ⊤ ∧ x i ≠ ⊥) {j k : s.Idx} (e : j = k) :
    x j = (((x k).toReal : ℝ) : EReal) := e ▸ (EReal.coe_toReal (hx j).1 (hx j).2).symm

theorem eq_vec {a : Nat} (x : (⟨1, ![a]⟩ : Shape).Idx → EReal) (hx : ∀ i, x i ≠ ⊤ ∧ x i ≠ ⊥) :
    x = Emb.vec (fun p => (x (ix1 p)).toReal) := funext fun j => coe_real hx (eq_ix1 j)

theorem eq_mat {a b : Nat} (x : (⟨2, ![a, b]⟩ : Shape).Idx → EReal) (hx : ∀ i, x i ≠ ⊤ ∧ x i ≠ ⊥) :
    x = Emb.mat (fun p q => (x (ix2 p q)).toReal) := funext fun j => coe_real hx (eq_ix2 j)

theorem eq_ten {a b c : Nat} (x : (⟨3, ![a, b, c]⟩ : Shape).Idx → EReal) (hx : ∀ i, x i ≠ ⊤ ∧ x i ≠ ⊥) :
    x = Emb.ten (fun p q r => (x (ix3 p q r)).toReal) := funext fun j => coe_real hx (eq_ix3 j)

theorem eq_row {b : Nat} (x : (⟨2, ![1, b]⟩ : Shape).Idx → EReal) (hx : ∀ i, x i ≠ ⊤ ∧ x i ≠ ⊥) :
    x = Emb.mat (fun (_ : Fin 1) q => (x (ix2 (0 : Fin 1) q)).toReal) :=
  (eq_mat x hx).trans (congrArg Emb.mat (funext fun p => by rw [Subsingleton.elim p 0]))

theorem eq_one (x : (⟨1, ![1]⟩ : Shape).Idx → EReal) (hx : ∀ i, x i ≠ ⊤ ∧ x i ≠ ⊥) :
    x = Emb.vec (fun (_ : Fin 1) => (x (ix1 (0 : Fin 1))).toReal) :=
  (eq_vec x hx).trans (congrArg Emb.vec (funext fun p => by rw [Subsingleton.elim p 0]))

theorem reals {a0 : FVec Ideal S8192x4096 .f32} {a1 : FVec Ideal S8192x64 .f32} {a2 : FVec Ideal S4096x64 .f32}
    {a3 : FVec Ideal S2x64x128 .f32} {a4 a5 a6 : FVec Ideal S2x64 .f32} {a7 : FVec Ideal S2x64x128 .f32}
    {a8 a9 a10 : FVec Ideal S2x64 .f32} {a11 : FVec Ideal S1x64 .f32} {a12 : FVec Ideal S1 .f32}
    (h : Cert.Pre_finite_inputs.fn (F := Ideal) a0 a1 a2 a3 a4 a5 a6 a7 a8 a9 a10 a11 a12 = (fun _ => 1#1)) :
    ∃ (A : Fin 8192 → Fin 4096 → ℝ) (n0 : Fin 8192 → Fin 64 → ℝ) (e0 : Fin 4096 → Fin 64 → ℝ) (P : HGNet.Params),
      a0 = HGNet.Emb.mat A ∧ a1 = HGNet.Emb.mat n0 ∧ a2 = HGNet.Emb.mat e0 ∧ a3 = HGNet.Emb.ten P.eW
      ∧ a4 = HGNet.Emb.mat P.eb ∧ a5 = HGNet.Emb.mat P.eg ∧ a6 = HGNet.Emb.mat P.ebt ∧ a7 = HGNet.Emb.ten P.nW
      ∧ a8 = HGNet.Emb.mat P.nb ∧ a9 = HGNet.Emb.mat P.ng ∧ a10 = HGNet.Emb.mat P.nbt
      ∧ a11 = HGNet.Emb.mat (fun _ d => P.dW d) ∧ a12 = HGNet.Emb.vec (fun _ => P.db) := by
  have h0 := congrFun h ix0
  simp only [fn, fn_part1, fn_part2, fn_part3, andi, IntOp.andi_eq_one] at h0
  obtain ⟨⟨⟨⟨⟨⟨⟨⟨⟨⟨⟨⟨c0, c1⟩, c2⟩, c3⟩, c4⟩, c5⟩, c6⟩, c7⟩, c8⟩, c9⟩, c10⟩, c11⟩, c12⟩ := h0
  exact ⟨_, _, _, ⟨_, _, _, _, _, _, _, _, _, _⟩, eq_mat a0 (all_real a0 _ _ _ c0), eq_mat a1 (all_real a1 _ _ _ c1),
    eq_mat a2 (all_real a2 _ _ _ c2), eq_ten a3 (all_real a3 _ _ _ c3), eq_mat a4 (all_real a4 _ _ _ c4),
    eq_mat a5 (all_real a5 _ _ _ c5), eq_mat a6 (all_real a6 _ _ _ c6), eq_ten a7 (all_real a7 _ _ _ c7),
    eq_mat a8 (all_real a8 _ _ _ c8), eq_mat a9 (all_real a9 _ _ _ c9), eq_mat a10 (all_real a10 _ _ _ c10),
    eq_row a11 (all_real a11 _ _ _ c11), eq_one a12 (all_real a12 _ _ _ c12)⟩

end HGNet.Finite

end
-- ==== Proof.lean ====
/-
  A two-round message network on a hypergraph with a dense incidence matrix: the kernel makes two passes over the row
  panels of the matrix, each accumulating a transposed product in a scratch; the reference uses whole-array operations.
  Over finite inputs both compute the same real function, `HGNet.probs`, so their results agree as extended reals.
-/
import proofs.«107338_g5892695130345_cont_sun_m_578_37_alg».proof.Defs
import proofs.«107338_g5892695130345_cont_sun_m_578_37_alg».proof.Proof.Gen.Kernel
import proofs.«107338_g5892695130345_cont_sun_m_578_37_alg».proof.Proof.Gen.KernelIdeal
import proofs.«107338_g5892695130345_cont_sun_m_578_37_alg».proof.Proof.Gen.ReferenceIdeal
import proofs.«107338_g5892695130345_cont_sun_m_578_37_alg».proof.Proof.Gen.Pre_finite_inputs
import proofs.«107338_g5892695130345_cont_sun_m_578_37_alg».proof.Proof.WKRun
import proofs.«107338_g5892695130345_cont_sun_m_578_37_alg».proof.Proof.KRun
import proofs.«107338_g5892695130345_cont_sun_m_578_37_alg».proof.Proof.KVal
import proofs.«107338_g5892695130345_cont_sun_m_578_37_alg».proof.Proof.RefRun
import proofs.«107338_g5892695130345_cont_sun_m_578_37_alg».proof.Proof.RefValOut
import proofs.«107338_g5892695130345_cont_sun_m_578_37_alg».proof.Proof.Finite
import Idealize.ShloMosaic.Adequacy
import Idealize.ShloMosaic.Init

noncomputable section

namespace Cert.Proof

open Idealize.ShloMosaic Idealize.SL.Sem

theorem frame_k : Cert.frame_Kernel :=
  fun m ρ _ => (θ_run Cert.Kernel.defs _ _).mono (fun _ h c => (h c).2) (Cert.Kernel.Run.run_main m ρ)

theorem frame_ki : Cert.frame_KernelIdeal :=
  fun m ρ _ => (θ_run Cert.KernelIdeal.defs _ _).mono (fun _ h c => (h c).2) (Cert.KernelIdeal.Run.run_main m ρ)

/-- The reference's frame is its run with the result dropped. -/
theorem frame_ri : Cert.frame_ReferenceIdeal :=
  fun m ρ _ => (θ_run Cert.ReferenceIdeal.defs _ _).mono (fun _ h c => (h c).2) (Cert.ReferenceIdeal.Hand.run (F := Ideal) m ρ)

/-- Both programs end with the embedding of the real network's output in their result buffers. -/
theorem algebraic : Cert.algebraic_KernelIdeal_ReferenceIdeal := by
  intro m ρ m' ρ' hpre hagree
  choose A n0 e0 P hreal using fun c => HGNet.Finite.reals (hpre c)
  refine ⟨fun c => HGNet.Emb.vec (HGNet.probs HGNet.κ0 (A c) (P c) (n0 c) (e0 c)), ?_, ?_⟩
  · refine (θ_run Cert.KernelIdeal.defs _ _).mono (fun _ hr c => ⟨(hr c).1.trans ?_, (hr c).2⟩) (Cert.KernelIdeal.Run.run_main m ρ)
    obtain ⟨h0, h1, h2, h3, h4, h5, h6, h7, h8, h9, h10, h11, h12⟩ := hreal c
    exact Cert.KernelIdeal.Val.result m c (A c) (n0 c) (e0 c) (P c) h0 h1 h2 h3 h4 h5 h6 h7 h8 h9 h10 h11 h12
  · refine (θ_run Cert.ReferenceIdeal.defs _ _).mono (fun _ hr c => ⟨(hr c).1.trans ?_, (hr c).2⟩) (Cert.ReferenceIdeal.Hand.run (F := Ideal) m' ρ')
    obtain ⟨h0, h1, h2, h3, h4, h5, h6, h7, h8, h9, h10, h11, h12⟩ := hreal c
    obtain ⟨g0, g1, g2, g3, g4, g5, g6, g7, g8, g9, g10, g11, g12⟩ := hagree c
    rw [g0, g1, g2, g3, g4, g5, g6, g7, g8, g9, g10, g11, g12, h0, h1, h2, h3, h4, h5, h6, h7, h8, h9, h10, h11, h12]
    exact Cert.ReferenceIdeal.HandVal.out_real (A c) (n0 c) (e0 c) (P c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
